-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S50000 : Shape := ⟨1, ![50000]⟩
abbrev S128x16 : Shape := ⟨2, ![128, 16]⟩
abbrev S128 : Shape := ⟨1, ![128]⟩
abbrev S_ : Shape := ⟨0, ![]⟩
abbrev S128x128 : Shape := ⟨2, ![128, 128]⟩
abbrev S256x256 : Shape := ⟨2, ![256, 256]⟩
abbrev S256 : Shape := ⟨1, ![256]⟩
abbrev S1x256 : Shape := ⟨2, ![1, 256]⟩
abbrev S1 : Shape := ⟨1, ![1]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S128x16 : S_.BroadcastsInDim S128x16 (![] : Fin 0 → Fin S128x16.rank)
  reducesTo_S128x16_S_d0_1 : S128x16.ReducesTo [0, 1] S_
  bcast_S_S128 : S_.BroadcastsInDim S128 (![] : Fin 0 → Fin S128.rank)
  reducesTo_S128_S_d0 : S128.ReducesTo [0] S_
  reducesTo_S_S_d : S_.ReducesTo [] S_
  bcast_S_S128x128 : S_.BroadcastsInDim S128x128 (![] : Fin 0 → Fin S128x128.rank)
  reducesTo_S128x128_S_d0_1 : S128x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_v131 : IVec S_ 1) (main_v135 : IVec S_ 1) : IVec S_ 1 :=
  let main_v136 : IVec S_ 1 := andi main_v131 main_v135
  main_v136

def fn_part7 {F : FTy → Type} [FloatOps F] (main_arg27 : FVec F S256 .f32) (main_arg28 : FVec F S1x256 .f32) (main_arg29 : FVec F S1 .f32) (main_v116 : IVec S_ 1) (main_v117 : FVec F S256x256 .f32) (main_v118 : FVec F S256x256 .f32) : IVec S_ 1 :=
  let main_v119 : IVec S256x256 1 := cmpf .olt main_v117 main_v118
  let main_c_47 : IVec S_ 1 := constantI S_ 1 1#1
  let main_v120 : IVec S_ 1 := (fun x v => Host.reduce IntOp.andi x v reducesTo_S256x256_S_d0_1 h_S_) main_v119 main_c_47
  let main_v121 : IVec S_ 1 := andi main_v116 main_v120
  let main_v122 : FVec F S256 .f32 := Host.absf main_arg27
  let main_cst_48 : FVec F S_ .f32 := constant S_ .f32 0x7F800000#32
  let main_v123 : FVec F S256 .f32 := broadcastInDim S256 ![] bcast_S_S256 main_cst_48
  let main_v124 : IVec S256 1 := cmpf .olt main_v122 main_v123
  let main_c_49 : IVec S_ 1 := constantI S_ 1 1#1
  let main_v125 : IVec S_ 1 := (fun x v => Host.reduce IntOp.andi x v reducesTo_S256_S_d0 h_S_) main_v124 main_c_49
  let main_v126 : IVec S_ 1 := andi main_v121 main_v125
  let main_v127 : FVec F S1x256 .f32 := Host.absf main_arg28
  let main_cst_50 : FVec F S_ .f32 := constant S_ .f32 0x7F800000#32
  let main_v128 : FVec F S1x256 .f32 := broadcastInDim S1x256 ![] bcast_S_S1x256 main_cst_50
  let main_v129 : IVec S1x256 1 := cmpf .olt main_v127 main_v128
  let main_c_51 : IVec S_ 1 := constantI S_ 1 1#1
  let main_v130 : IVec S_ 1 := (fun x v => Host.reduce IntOp.andi x v reducesTo_S1x256_S_d0_1 h_S_) main_v129 main_c_51
  let main_v131 : IVec S_ 1 := andi main_v126 main_v130
  let main_v132 : FVec F S1 .f32 := Host.absf main_arg29
  let main_cst_52 : FVec F S_ .f32 := constant S_ .f32 0x7F800000#32
  let main_v133 : FVec F S1 .f32 := broadcastInDim S1 ![] bcast_S_S1 main_cst_52
  let main_v134 : IVec S1 1 := cmpf .olt main_v132 main_v133
  let main_c_53 : IVec S_ 1 := constantI S_ 1 1#1
  let main_v135 : IVec S_ 1 := (fun x v => Host.reduce IntOp.andi x v reducesTo_S1_S_d0 h_S_) main_v134 main_c_53
  fn_part8 (F := F) main_v131 main_v135

def fn_part6 {F : FTy → Type} [FloatOps F] (main_arg23 : FVec F S128 .f32) (main_arg24 : FVec F S128 .f32) (main_arg25 : FVec F S128 .f32) (main_arg26 : FVec F S256x256 .f32) (main_arg27 : FVec F S256 .f32) (main_arg28 : FVec F S1x256 .f32) (main_arg29 : FVec F S1 .f32) (main_v101 : IVec S_ 1) : IVec S_ 1 :=
  let main_v102 : FVec F S128 .f32 := Host.absf main_arg23
  let main_cst_40 : FVec F S_ .f32 := constant S_ .f32 0x7F800000#32
  let main_v103 : FVec F S128 .f32 := broadcastInDim S128 ![] bcast_S_S128 main_cst_40
  let main_v104 : IVec S128 1 := cmpf .olt main_v102 main_v103
  let main_c_41 : IVec S_ 1 := constantI S_ 1 1#1
  let main_v105 : IVec S_ 1 := (fun x v => Host.reduce IntOp.andi x v reducesTo_S128_S_d0 h_S_) main_v104 main_c_41
  let main_v106 : IVec S_ 1 := andi main_v101 main_v105
  let main_v107 : FVec F S128 .f32 := Host.absf main_arg24
  let main_cst_42 : FVec F S_ .f32 := constant S_ .f32 0x7F800000#32
  let main_v108 : FVec F S128 .f32 := broadcastInDim S128 ![] bcast_S_S128 main_cst_42
  let main_v109 : IVec S128 1 := cmpf .olt main_v107 main_v108
  let main_c_43 : IVec S_ 1 := constantI S_ 1 1#1
  let main_v110 : IVec S_ 1 := (fun x v => Host.reduce IntOp.andi x v reducesTo_S128_S_d0 h_S_) main_v109 main_c_43
  let main_v111 : IVec S_ 1 := andi main_v106 main_v110
  let main_v112 : FVec F S128 .f32 := Host.absf main_arg25
  let main_cst_44 : FVec F S_ .f32 := constant S_ .f32 0x7F800000#32
  let main_v113 : FVec F S128 .f32 := broadcastInDim S128 ![] bcast_S_S128 main_cst_44
  let main_v114 : IVec S128 1 := cmpf .olt main_v112 main_v113
  let main_c_45 : IVec S_ 1 := constantI S_ 1 1#1
  let main_v115 : IVec S_ 1 := (fun x v => Host.reduce IntOp.andi x v reducesTo_S128_S_d0 h_S_) main_v114 main_c_45
  let main_v116 : IVec S_ 1 := andi main_v111 main_v115
  let main_v117 : FVec F S256x256 .f32 := Host.absf main_arg26
  let main_cst_46 : FVec F S_ .f32 := constant S_ .f32 0x7F800000#32
  let main_v118 : FVec F S256x256 .f32 := broadcastInDim S256x256 ![] bcast_S_S256x256 main_cst_46
  fn_part7 (F := F) main_arg27 main_arg28 main_arg29 main_v116 main_v117 main_v118

def fn_part5 {F : FTy → Type} [FloatOps F] (main_arg20 : FVec F S128 .f32) (main_arg21 : FVec F S128 .f32) (main_arg22 : FVec F S128x128 .f32) (main_arg23 : FVec F S128 .f32) (main_arg24 : FVec F S128 .f32) (main_arg25 : FVec F S128 .f32) (main_arg26 : FVec F S256x256 .f32) (main_arg27 : FVec F S256 .f32) (main_arg28 : FVec F S1x256 .f32) (main_arg29 : FVec F S1 .f32) (main_v81 : IVec S_ 1) (main_v84 : IVec S128 1) : IVec S_ 1 :=
  let main_c_33 : IVec S_ 1 := constantI S_ 1 1#1
  let main_v85 : IVec S_ 1 := (fun x v => Host.reduce IntOp.andi x v reducesTo_S128_S_d0 h_S_) main_v84 main_c_33
  let main_v86 : IVec S_ 1 := andi main_v81 main_v85
  let main_v87 : FVec F S128 .f32 := Host.absf main_arg20
  let main_cst_34 : FVec F S_ .f32 := constant S_ .f32 0x7F800000#32
  let main_v88 : FVec F S128 .f32 := broadcastInDim S128 ![] bcast_S_S128 main_cst_34
  let main_v89 : IVec S128 1 := cmpf .olt main_v87 main_v88
  let main_c_35 : IVec S_ 1 := constantI S_ 1 1#1
  let main_v90 : IVec S_ 1 := (fun x v => Host.reduce IntOp.andi x v reducesTo_S128_S_d0 h_S_) main_v89 main_c_35
  let main_v91 : IVec S_ 1 := andi main_v86 main_v90
  let main_v92 : FVec F S128 .f32 := Host.absf main_arg21
  let main_cst_36 : FVec F S_ .f32 := constant S_ .f32 0x7F800000#32
  let main_v93 : FVec F S128 .f32 := broadcastInDim S128 ![] bcast_S_S128 main_cst_36
  let main_v94 : IVec S128 1 := cmpf .olt main_v92 main_v93
  let main_c_37 : IVec S_ 1 := constantI S_ 1 1#1
  let main_v95 : IVec S_ 1 := (fun x v => Host.reduce IntOp.andi x v reducesTo_S128_S_d0 h_S_) main_v94 main_c_37
  let main_v96 : IVec S_ 1 := andi main_v91 main_v95
  let main_v97 : FVec F S128x128 .f32 := Host.absf main_arg22
  let main_cst_38 : FVec F S_ .f32 := constant S_ .f32 0x7F800000#32
  let main_v98 : FVec F S128x128 .f32 := broadcastInDim S128x128 ![] bcast_S_S128x128 main_cst_38
  let main_v99 : IVec S128x128 1 := cmpf .olt main_v97 main_v98
  let main_c_39 : IVec S_ 1 := constantI S_ 1 1#1
  let main_v100 : IVec S_ 1 := (fun x v => Host.reduce IntOp.andi x v reducesTo_S128x128_S_d0_1 h_S_) main_v99 main_c_39
  let main_v101 : IVec S_ 1 := andi main_v96 main_v100
  fn_part6 (F := F) main_arg23 main_arg24 main_arg25 main_arg26 main_arg27 main_arg28 main_arg29 main_v101

def fn_part4 {F : FTy → Type} [FloatOps F] (main_arg16 : FVec F S128 .f32) (main_arg17 : FVec F S_ .f32) (main_arg18 : FVec F S128x128 .f32) (main_arg19 : FVec F S128 .f32) (main_arg20 : FVec F S128 .f32) (main_arg21 : FVec F S128 .f32) (main_arg22 : FVec F S128x128 .f32) (main_arg23 : FVec F S128 .f32) (main_arg24 : FVec F S128 .f32) (main_arg25 : FVec F S128 .f32) (main_arg26 : FVec F S256x256 .f32) (main_arg27 : FVec F S256 .f32) (main_arg28 : FVec F S1x256 .f32) (main_arg29 : FVec F S1 .f32) (main_v67 : IVec S_ 1) : IVec S_ 1 :=
  let main_v68 : FVec F S128 .f32 := Host.absf main_arg16
  let main_cst_26 : FVec F S_ .f32 := constant S_ .f32 0x7F800000#32
  let main_v69 : FVec F S128 .f32 := broadcastInDim S128 ![] bcast_S_S128 main_cst_26
  let main_v70 : IVec S128 1 := cmpf .olt main_v68 main_v69
  let main_c_27 : IVec S_ 1 := constantI S_ 1 1#1
  let main_v71 : IVec S_ 1 := (fun x v => Host.reduce IntOp.andi x v reducesTo_S128_S_d0 h_S_) main_v70 main_c_27
  let main_v72 : IVec S_ 1 := andi main_v67 main_v71
  let main_v73 : FVec F S_ .f32 := Host.absf main_arg17
  let main_cst_28 : FVec F S_ .f32 := constant S_ .f32 0x7F800000#32
  let main_v74 : IVec S_ 1 := cmpf .olt main_v73 main_cst_28
  let main_c_29 : IVec S_ 1 := constantI S_ 1 1#1
  let main_v75 : IVec S_ 1 := (fun x v => Host.reduce IntOp.andi x v reducesTo_S_S_d h_S_) main_v74 main_c_29
  let main_v76 : IVec S_ 1 := andi main_v72 main_v75
  let main_v77 : FVec F S128x128 .f32 := Host.absf main_arg18
  let main_cst_30 : FVec F S_ .f32 := constant S_ .f32 0x7F800000#32
  let main_v78 : FVec F S128x128 .f32 := broadcastInDim S128x128 ![] bcast_S_S128x128 main_cst_30
  let main_v79 : IVec S128x128 1 := cmpf .olt main_v77 main_v78
  let main_c_31 : IVec S_ 1 := constantI S_ 1 1#1
  let main_v80 : IVec S_ 1 := (fun x v => Host.reduce IntOp.andi x v reducesTo_S128x128_S_d0_1 h_S_) main_v79 main_c_31
  let main_v81 : IVec S_ 1 := andi main_v76 main_v80
  let main_v82 : FVec F S128 .f32 := Host.absf main_arg19
  let main_cst_32 : FVec F S_ .f32 := constant S_ .f32 0x7F800000#32
  let main_v83 : FVec F S128 .f32 := broadcastInDim S128 ![] bcast_S_S128 main_cst_32
  let main_v84 : IVec S128 1 := cmpf .olt main_v82 main_v83
  fn_part5 (F := F) main_arg20 main_arg21 main_arg22 main_arg23 main_arg24 main_arg25 main_arg26 main_arg27 main_arg28 main_arg29 main_v81 main_v84

def fn_part3 {F : FTy → Type} [FloatOps F] (main_arg13 : FVec F S128 .f32) (main_arg14 : FVec F S128 .f32) (main_arg15 : FVec F S128x16 .f32) (main_arg16 : FVec F S128 .f32) (main_arg17 : FVec F S_ .f32) (main_arg18 : FVec F S128x128 .f32) (main_arg19 : FVec F S128 .f32) (main_arg20 : FVec F S128 .f32) (main_arg21 : FVec F S128 .f32) (main_arg22 : FVec F S128x128 .f32) (main_arg23 : FVec F S128 .f32) (main_arg24 : FVec F S128 .f32) (main_arg25 : FVec F S128 .f32) (main_arg26 : FVec F S256x256 .f32) (main_arg27 : FVec F S256 .f32) (main_arg28 : FVec F S1x256 .f32) (main_arg29 : FVec F S1 .f32) (main_v47 : IVec S_ 1) (main_v50 : IVec S128 1) : IVec S_ 1 :=
  let main_c_19 : IVec S_ 1 := constantI S_ 1 1#1
  let main_v51 : IVec S_ 1 := (fun x v => Host.reduce IntOp.andi x v reducesTo_S128_S_d0 h_S_) main_v50 main_c_19
  let main_v52 : IVec S_ 1 := andi main_v47 main_v51
  let main_v53 : FVec F S128 .f32 := Host.absf main_arg13
  let main_cst_20 : FVec F S_ .f32 := constant S_ .f32 0x7F800000#32
  let main_v54 : FVec F S128 .f32 := broadcastInDim S128 ![] bcast_S_S128 main_cst_20
  let main_v55 : IVec S128 1 := cmpf .olt main_v53 main_v54
  let main_c_21 : IVec S_ 1 := constantI S_ 1 1#1
  let main_v56 : IVec S_ 1 := (fun x v => Host.reduce IntOp.andi x v reducesTo_S128_S_d0 h_S_) main_v55 main_c_21
  let main_v57 : IVec S_ 1 := andi main_v52 main_v56
  let main_v58 : FVec F S128 .f32 := Host.absf main_arg14
  let main_cst_22 : FVec F S_ .f32 := constant S_ .f32 0x7F800000#32
  let main_v59 : FVec F S128 .f32 := broadcastInDim S128 ![] bcast_S_S128 main_cst_22
  let main_v60 : IVec S128 1 := cmpf .olt main_v58 main_v59
  let main_c_23 : IVec S_ 1 := constantI S_ 1 1#1
  let main_v61 : IVec S_ 1 := (fun x v => Host.reduce IntOp.andi x v reducesTo_S128_S_d0 h_S_) main_v60 main_c_23
  let main_v62 : IVec S_ 1 := andi main_v57 main_v61
  let main_v63 : FVec F S128x16 .f32 := Host.absf main_arg15
  let main_cst_24 : FVec F S_ .f32 := constant S_ .f32 0x7F800000#32
  let main_v64 : FVec F S128x16 .f32 := broadcastInDim S128x16 ![] bcast_S_S128x16 main_cst_24
  let main_v65 : IVec S128x16 1 := cmpf .olt main_v63 main_v64
  let main_c_25 : IVec S_ 1 := constantI S_ 1 1#1
  let main_v66 : IVec S_ 1 := (fun x v => Host.reduce IntOp.andi x v reducesTo_S128x16_S_d0_1 h_S_) main_v65 main_c_25
  let main_v67 : IVec S_ 1 := andi main_v62 main_v66
  fn_part4 (F := F) main_arg16 main_arg17 main_arg18 main_arg19 main_arg20 main_arg21 main_arg22 main_arg23 main_arg24 main_arg25 main_arg26 main_arg27 main_arg28 main_arg29 main_v67

def fn_part2 {F : FTy → Type} [FloatOps F] (main_arg10 : FVec F S128 .f32) (main_arg11 : FVec F S128x128 .f32) (main_arg12 : FVec F S128 .f32) (main_arg13 : FVec F S128 .f32) (main_arg14 : FVec F S128 .f32) (main_arg15 : FVec F S128x16 .f32) (main_arg16 : FVec F S128 .f32) (main_arg17 : FVec F S_ .f32) (main_arg18 : FVec F S128x128 .f32) (main_arg19 : FVec F S128 .f32) (main_arg20 : FVec F S128 .f32) (main_arg21 : FVec F S128 .f32) (main_arg22 : FVec F S128x128 .f32) (main_arg23 : FVec F S128 .f32) (main_arg24 : FVec F S128 .f32) (main_arg25 : FVec F S128 .f32) (main_arg26 : FVec F S256x256 .f32) (main_arg27 : FVec F S256 .f32) (main_arg28 : FVec F S1x256 .f32) (main_arg29 : FVec F S1 .f32) (main_v32 : IVec S_ 1) (main_v33 : FVec F S128 .f32) : IVec S_ 1 :=
  let main_cst_12 : FVec F S_ .f32 := constant S_ .f32 0x7F800000#32
  let main_v34 : FVec F S128 .f32 := broadcastInDim S128 ![] bcast_S_S128 main_cst_12
  let main_v35 : IVec S128 1 := cmpf .olt main_v33 main_v34
  let main_c_13 : IVec S_ 1 := constantI S_ 1 1#1
  let main_v36 : IVec S_ 1 := (fun x v => Host.reduce IntOp.andi x v reducesTo_S128_S_d0 h_S_) main_v35 main_c_13
  let main_v37 : IVec S_ 1 := andi main_v32 main_v36
  let main_v38 : FVec F S128 .f32 := Host.absf main_arg10
  let main_cst_14 : FVec F S_ .f32 := constant S_ .f32 0x7F800000#32
  let main_v39 : FVec F S128 .f32 := broadcastInDim S128 ![] bcast_S_S128 main_cst_14
  let main_v40 : IVec S128 1 := cmpf .olt main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S128x128 .f32 := Host.absf main_arg11
  let main_cst_16 : FVec F S_ .f32 := constant S_ .f32 0x7F800000#32
  let main_v44 : FVec F S128x128 .f32 := broadcastInDim S128x128 ![] bcast_S_S128x128 main_cst_16
  let main_v45 : IVec S128x128 1 := cmpf .olt main_v43 main_v44
  let main_c_17 : IVec S_ 1 := constantI S_ 1 1#1
  let main_v46 : IVec S_ 1 := (fun x v => Host.reduce IntOp.andi x v reducesTo_S128x128_S_d0_1 h_S_) main_v45 main_c_17
  let main_v47 : IVec S_ 1 := andi main_v42 main_v46
  let main_v48 : FVec F S128 .f32 := Host.absf main_arg12
  let main_cst_18 : FVec F S_ .f32 := constant S_ .f32 0x7F800000#32
  let main_v49 : FVec F S128 .f32 := broadcastInDim S128 ![] bcast_S_S128 main_cst_18
  let main_v50 : IVec S128 1 := cmpf .olt main_v48 main_v49
  fn_part3 (F := F) main_arg13 main_arg14 main_arg15 main_arg16 main_arg17 main_arg18 main_arg19 main_arg20 main_arg21 main_arg22 main_arg23 main_arg24 main_arg25 main_arg26 main_arg27 main_arg28 main_arg29 main_v47 main_v50

def fn_part1 {F : FTy → Type} [FloatOps F] (main_arg6 : FVec F S_ .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x16 .f32) (main_arg16 : FVec F S128 .f32) (main_arg17 : FVec F S_ .f32) (main_arg18 : FVec F S128x128 .f32) (main_arg19 : FVec F S128 .f32) (main_arg20 : FVec F S128 .f32) (main_arg21 : FVec F S128 .f32) (main_arg22 : FVec F S128x128 .f32) (main_arg23 : FVec F S128 .f32) (main_arg24 : FVec F S128 .f32) (main_arg25 : FVec F S128 .f32) (main_arg26 : FVec F S256x256 .f32) (main_arg27 : FVec F S256 .f32) (main_arg28 : FVec F S1x256 .f32) (main_arg29 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg6
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S128x128 .f32 := Host.absf main_arg7
  let main_cst_8 : FVec F S_ .f32 := constant S_ .f32 0x7F800000#32
  let main_v24 : FVec F S128x128 .f32 := broadcastInDim S128x128 ![] bcast_S_S128x128 main_cst_8
  let main_v25 : IVec S128x128 1 := cmpf .olt main_v23 main_v24
  let main_c_9 : IVec S_ 1 := constantI S_ 1 1#1
  let main_v26 : IVec S_ 1 := (fun x v => Host.reduce IntOp.andi x v reducesTo_S128x128_S_d0_1 h_S_) main_v25 main_c_9
  let main_v27 : IVec S_ 1 := andi main_v22 main_v26
  let main_v28 : FVec F S128 .f32 := Host.absf main_arg8
  let main_cst_10 : FVec F S_ .f32 := constant S_ .f32 0x7F800000#32
  let main_v29 : FVec F S128 .f32 := broadcastInDim S128 ![] bcast_S_S128 main_cst_10
  let main_v30 : IVec S128 1 := cmpf .olt main_v28 main_v29
  let main_c_11 : IVec S_ 1 := constantI S_ 1 1#1
  let main_v31 : IVec S_ 1 := (fun x v => Host.reduce IntOp.andi x v reducesTo_S128_S_d0 h_S_) main_v30 main_c_11
  let main_v32 : IVec S_ 1 := andi main_v27 main_v31
  let main_v33 : FVec F S128 .f32 := Host.absf main_arg9
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_v32 main_v33

def fn {F : FTy → Type} [FloatOps F] (main_arg0 : FVec F S50000x128 .f32) (main_arg1 : IVec S2x800000 32) (main_arg2 : FVec F S800000x16 .f32) (main_arg3 : IVec S50000 32) (main_arg4 : FVec F S128x16 .f32) (main_arg5 : FVec F S128 .f32) (main_arg6 : FVec F S_ .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x16 .f32) (main_arg16 : FVec F S128 .f32) (main_arg17 : FVec F S_ .f32) (main_arg18 : FVec F S128x128 .f32) (main_arg19 : FVec F S128 .f32) (main_arg20 : FVec F S128 .f32) (main_arg21 : FVec F S128 .f32) (main_arg22 : FVec F S128x128 .f32) (main_arg23 : FVec F S128 .f32) (main_arg24 : FVec F S128 .f32) (main_arg25 : FVec F S128 .f32) (main_arg26 : FVec F S256x256 .f32) (main_arg27 : FVec F S256 .f32) (main_arg28 : FVec F S1x256 .f32) (main_arg29 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S128x16 .f32 := Host.absf main_arg4
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S50000 : Shape := ⟨1, ![50000]⟩
abbrev S128x16 : Shape := ⟨2, ![128, 16]⟩
abbrev S128 : Shape := ⟨1, ![128]⟩
abbrev S_ : Shape := ⟨0, ![]⟩
abbrev S128x128 : Shape := ⟨2, ![128, 128]⟩
abbrev S256x256 : Shape := ⟨2, ![256, 256]⟩
abbrev S256 : Shape := ⟨1, ![256]⟩
abbrev S1x256 : Shape := ⟨2, ![1, 256]⟩
abbrev S1 : Shape := ⟨1, ![1]⟩
abbrev S1x800000 : Shape := ⟨2, ![1, 800000]⟩
abbrev S800000 : Shape := ⟨1, ![800000]⟩
abbrev S16x128 : Shape := ⟨2, ![16, 128]⟩
abbrev S1x128 : Shape := ⟨2, ![1, 128]⟩
abbrev S800000x128 : Shape := ⟨2, ![800000, 128]⟩
abbrev S16000x16 : Shape := ⟨2, ![16000, 16]⟩
abbrev S16000x128 : Shape := ⟨2, ![16000, 128]⟩
abbrev S800000x1 : Shape := ⟨2, ![800000, 1]⟩
abbrev S80x128 : Shape := ⟨2, ![80, 128]⟩
abbrev S5000x128 : Shape := ⟨2, ![5000, 128]⟩
abbrev S8x128 : Shape := ⟨2, ![8, 128]⟩
abbrev S512x128 : Shape := ⟨2, ![512, 128]⟩
abbrev S50000x1 : Shape := ⟨2, ![50000, 1]⟩
abbrev S512x256 : Shape := ⟨2, ![512, 256]⟩
abbrev S256x1 : Shape := ⟨2, ![256, 1]⟩
abbrev S1x1 : Shape := ⟨2, ![1, 1]⟩
abbrev S512x1 : Shape := ⟨2, ![512, 1]⟩

abbrev nBuf : Space → Nat
  | .hbm => 186
  | .vmem => 98
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S50000, .i32⟩
  | 4 => ⟨S128x16, .f32⟩
  | 5 => ⟨S128, .f32⟩
  | 6 => ⟨S_, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x16, .f32⟩
  | 16 => ⟨S128, .f32⟩
  | 17 => ⟨S_, .f32⟩
  | 18 => ⟨S128x128, .f32⟩
  | 19 => ⟨S128, .f32⟩
  | 20 => ⟨S128, .f32⟩
  | 21 => ⟨S128, .f32⟩
  | 22 => ⟨S128x128, .f32⟩
  | 23 => ⟨S128, .f32⟩
  | 24 => ⟨S128, .f32⟩
  | 25 => ⟨S128, .f32⟩
  | 26 => ⟨S256x256, .f32⟩
  | 27 => ⟨S256, .f32⟩
  | 28 => ⟨S1x256, .f32⟩
  | 29 => ⟨S1, .f32⟩
  | 30 => ⟨S1x800000, .i32⟩
  | 31 => ⟨S800000, .i32⟩
  | 32 => ⟨S1x800000, .i32⟩
  | 33 => ⟨S800000, .i32⟩
  | 34 => ⟨S16x128, .f32⟩
  | 35 => ⟨S1x128, .f32⟩
  | 36 => ⟨S800000x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S800000x128, .f32⟩
  | 47 => ⟨S_, .f32⟩
  | 48 => ⟨S800000x128, .f32⟩
  | 49 => ⟨S800000x128, .f32⟩
  | 50 => ⟨S_, .f32⟩
  | 51 => ⟨S50000x128, .f32⟩
  | 52 => ⟨S800000x1, .i32⟩
  | 53 => ⟨S50000x128, .f32⟩
  | 54 => ⟨S_, .f32⟩
  | 55 => ⟨S_, .f32⟩
  | 56 => ⟨S50000x128, .f32⟩
  | 57 => ⟨S50000x128, .f32⟩
  | 58 => ⟨S128x128, .f32⟩
  | 59 => ⟨S128x128, .f32⟩
  | 60 => ⟨S1x128, .f32⟩
  | 61 => ⟨S50000x128, .f32⟩
  | 62 => ⟨S80x128, .f32⟩
  | 63 => ⟨S_, .f32⟩
  | 64 => ⟨S128, .f32⟩
  | 65 => ⟨S1x128, .f32⟩
  | 66 => ⟨S_, .f32⟩
  | 67 => ⟨S1x128, .f32⟩
  | 68 => ⟨S1x128, .f32⟩
  | 69 => ⟨S80x128, .f32⟩
  | 70 => ⟨S_, .f32⟩
  | 71 => ⟨S128, .f32⟩
  | 72 => ⟨S1x128, .f32⟩
  | 73 => ⟨S_, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S50000x128, .f32⟩
  | 83 => ⟨S80x128, .f32⟩
  | 84 => ⟨S_, .f32⟩
  | 85 => ⟨S128, .f32⟩
  | 86 => ⟨S1x128, .f32⟩
  | 87 => ⟨S_, .f32⟩
  | 88 => ⟨S1x128, .f32⟩
  | 89 => ⟨S1x128, .f32⟩
  | 90 => ⟨S80x128, .f32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S1x128, .f32⟩
  | 101 => ⟨S1x128, .f32⟩
  | 102 => ⟨S50000x128, .f32⟩
  | 103 => ⟨S16x128, .f32⟩
  | 104 => ⟨S1x128, .f32⟩
  | 105 => ⟨S800000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S800000x128, .f32⟩
  | 116 => ⟨S_, .f32⟩
  | 117 => ⟨S800000x128, .f32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S_, .f32⟩
  | 124 => ⟨S_, .f32⟩
  | 125 => ⟨S50000x128, .f32⟩
  | 126 => ⟨S50000x128, .f32⟩
  | 127 => ⟨S128x128, .f32⟩
  | _ => ⟨S50000x128, .f32⟩

abbrev hbmTy0_1 (i : Nat) : BufTy := match i % 128 with
  | 0 => ⟨S128x128, .f32⟩
  | 1 => ⟨S1x128, .f32⟩
  | 2 => ⟨S50000x128, .f32⟩
  | 3 => ⟨S80x128, .f32⟩
  | 4 => ⟨S_, .f32⟩
  | 5 => ⟨S128, .f32⟩
  | 6 => ⟨S1x128, .f32⟩
  | 7 => ⟨S_, .f32⟩
  | 8 => ⟨S1x128, .f32⟩
  | 9 => ⟨S1x128, .f32⟩
  | 10 => ⟨S80x128, .f32⟩
  | 11 => ⟨S_, .f32⟩
  | 12 => ⟨S128, .f32⟩
  | 13 => ⟨S1x128, .f32⟩
  | 14 => ⟨S_, .f32⟩
  | 15 => ⟨S1x128, .f32⟩
  | 16 => ⟨S1x128, .f32⟩
  | 17 => ⟨S_, .f32⟩
  | 18 => ⟨S1x128, .f32⟩
  | 19 => ⟨S1x128, .f32⟩
  | 20 => ⟨S1x128, .f32⟩
  | 21 => ⟨S1x128, .f32⟩
  | 22 => ⟨S1x128, .f32⟩
  | 23 => ⟨S50000x128, .f32⟩
  | 24 => ⟨S80x128, .f32⟩
  | 25 => ⟨S_, .f32⟩
  | 26 => ⟨S128, .f32⟩
  | 27 => ⟨S1x128, .f32⟩
  | 28 => ⟨S_, .f32⟩
  | 29 => ⟨S1x128, .f32⟩
  | 30 => ⟨S1x128, .f32⟩
  | 31 => ⟨S80x128, .f32⟩
  | 32 => ⟨S_, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S1x128, .f32⟩
  | 42 => ⟨S1x128, .f32⟩
  | 43 => ⟨S50000x128, .f32⟩
  | 44 => ⟨S_, .f32⟩
  | 45 => ⟨S512x128, .f32⟩
  | 46 => ⟨S50000x1, .i32⟩
  | 47 => ⟨S512x128, .f32⟩
  | 48 => ⟨S_, .f32⟩
  | 49 => ⟨S512x128, .f32⟩
  | 50 => ⟨S50000x1, .i32⟩
  | 51 => ⟨S512x128, .f32⟩
  | 52 => ⟨S512x256, .f32⟩
  | 53 => ⟨S256x256, .f32⟩
  | 54 => ⟨S256x1, .f32⟩
  | 55 => ⟨S1x256, .f32⟩
  | 56 => ⟨S1x1, .f32⟩
  | 57 => ⟨S512x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S16000x16, .f32⟩
  | .local _ .vmem, ⟨1, _⟩ => ⟨S16000x16, .f32⟩
  | .local _ .vmem, ⟨2, _⟩ => ⟨S16x128, .f32⟩
  | .local _ .vmem, ⟨3, _⟩ => ⟨S1x128, .f32⟩
  | .local _ .vmem, ⟨4, _⟩ => ⟨S16000x128, .f32⟩
  | .local _ .vmem, ⟨5, _⟩ => ⟨S16000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S8x128, .f32⟩
  | .local _ .vmem, ⟨15, _⟩ => ⟨S8x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S8x128, .f32⟩
  | .local _ .vmem, ⟨20, _⟩ => ⟨S8x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | .local _ .vmem, ⟨31, _⟩ => ⟨S8x128, .f32⟩
  | .local _ .vmem, ⟨32, _⟩ => ⟨S8x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S8x128, .f32⟩
  | .local _ .vmem, ⟨37, _⟩ => ⟨S8x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S16000x16, .f32⟩
  | .local _ .vmem, ⟨47, _⟩ => ⟨S16000x16, .f32⟩
  | .local _ .vmem, ⟨48, _⟩ => ⟨S16x128, .f32⟩
  | .local _ .vmem, ⟨49, _⟩ => ⟨S1x128, .f32⟩
  | .local _ .vmem, ⟨50, _⟩ => ⟨S16000x128, .f32⟩
  | .local _ .vmem, ⟨51, _⟩ => ⟨S16000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S128x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S8x128, .f32⟩
  | .local _ .vmem, ⟨61, _⟩ => ⟨S8x128, .f32⟩
  | .local _ .vmem, ⟨62, _⟩ => ⟨S5000x128, .f32⟩
  | .local _ .vmem, ⟨63, _⟩ => ⟨S5000x128, .f32⟩
  | .local _ .vmem, ⟨64, _⟩ => ⟨S1x128, .f32⟩
  | .local _ .vmem, ⟨65, _⟩ => ⟨S8x128, .f32⟩
  | .local _ .vmem, ⟨66, _⟩ => ⟨S8x128, .f32⟩
  | .local _ .vmem, ⟨67, _⟩ => ⟨S5000x128, .f32⟩
  | .local _ .vmem, ⟨68, _⟩ => ⟨S5000x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S1x128, .f32⟩
  | .local _ .vmem, ⟨73, _⟩ => ⟨S128x128, .f32⟩
  | .local _ .vmem, ⟨74, _⟩ => ⟨S1x128, .f32⟩
  | .local _ .vmem, ⟨75, _⟩ => ⟨S5000x128, .f32⟩
  | .local _ .vmem, ⟨76, _⟩ => ⟨S5000x128, .f32⟩
  | .local _ .vmem, ⟨77, _⟩ => ⟨S8x128, .f32⟩
  | .local _ .vmem, ⟨78, _⟩ => ⟨S8x128, .f32⟩
  | .local _ .vmem, ⟨79, _⟩ => ⟨S5000x128, .f32⟩
  | .local _ .vmem, ⟨80, _⟩ => ⟨S5000x128, .f32⟩
  | .local _ .vmem, ⟨81, _⟩ => ⟨S1x128, .f32⟩
  | .local _ .vmem, ⟨82, _⟩ => ⟨S8x128, .f32⟩
  | .local _ .vmem, ⟨83, _⟩ => ⟨S8x128, .f32⟩
  | .local _ .vmem, ⟨84, _⟩ => ⟨S5000x128, .f32⟩
  | .local _ .vmem, ⟨85, _⟩ => ⟨S5000x128, .f32⟩
  | .local _ .vmem, ⟨86, _⟩ => ⟨S1x128, .f32⟩
  | .local _ .vmem, ⟨87, _⟩ => ⟨S1x128, .f32⟩
  | .local _ .vmem, ⟨88, _⟩ => ⟨S1x128, .f32⟩
  | .local _ .vmem, ⟨89, _⟩ => ⟨S1x128, .f32⟩
  | .local _ .vmem, ⟨90, _⟩ => ⟨S5000x128, .f32⟩
  | .local _ .vmem, ⟨91, _⟩ => ⟨S5000x128, .f32⟩
  | .local _ .vmem, ⟨92, _⟩ => ⟨S512x256, .f32⟩
  | .local _ .vmem, ⟨93, _⟩ => ⟨S256x256, .f32⟩
  | .local _ .vmem, ⟨94, _⟩ => ⟨S1x256, .f32⟩
  | .local _ .vmem, ⟨95, _⟩ => ⟨S256x1, .f32⟩
  | .local _ .vmem, ⟨96, _⟩ => ⟨S1x1, .f32⟩
  | .local _ .vmem, ⟨97, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTc nBuf bufTy 0 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_c : Ref sig .tc := ⟨.hbm, 37, rfl⟩
abbrev main_v7 : Ref sig .tc := ⟨.hbm, 38, rfl⟩
abbrev main_v8 : Ref sig .tc := ⟨.hbm, 39, rfl⟩
abbrev main_c_0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_call0_cst : Ref sig .tc := ⟨.hbm, 47, rfl⟩
abbrev main_call0_v0 : Ref sig .tc := ⟨.hbm, 48, rfl⟩
abbrev main_v15 : Ref sig .tc := ⟨.hbm, 49, rfl⟩
abbrev main_cst : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_1 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25_0 : Ref sig .tc := ⟨.hbm, 61, rfl⟩
abbrev main_v25_1 : Ref sig .tc := ⟨.hbm, 62, rfl⟩
abbrev main_cst_2 : Ref sig .tc := ⟨.hbm, 63, rfl⟩
abbrev main_v26 : Ref sig .tc := ⟨.hbm, 64, rfl⟩
abbrev main_v27 : Ref sig .tc := ⟨.hbm, 65, rfl⟩
abbrev main_cst_3 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_4 : Ref sig .tc := ⟨.hbm, 70, rfl⟩
abbrev main_v31 : Ref sig .tc := ⟨.hbm, 71, rfl⟩
abbrev main_v32 : Ref sig .tc := ⟨.hbm, 72, rfl⟩
abbrev main_cst_5 : Ref sig .tc := ⟨.hbm, 73, rfl⟩
abbrev main_v33 : Ref sig .tc := ⟨.hbm, 74, rfl⟩
abbrev main_v34 : Ref sig .tc := ⟨.hbm, 75, rfl⟩
abbrev main_cst_6 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40_0 : Ref sig .tc := ⟨.hbm, 82, rfl⟩
abbrev main_v40_1 : Ref sig .tc := ⟨.hbm, 83, rfl⟩
abbrev main_cst_7 : Ref sig .tc := ⟨.hbm, 84, rfl⟩
abbrev main_v41 : Ref sig .tc := ⟨.hbm, 85, rfl⟩
abbrev main_v42 : Ref sig .tc := ⟨.hbm, 86, rfl⟩
abbrev main_cst_8 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_9 : Ref sig .tc := ⟨.hbm, 91, rfl⟩
abbrev main_v46 : Ref sig .tc := ⟨.hbm, 92, rfl⟩
abbrev main_v47 : Ref sig .tc := ⟨.hbm, 93, rfl⟩
abbrev main_cst_10 : Ref sig .tc := ⟨.hbm, 94, rfl⟩
abbrev main_v48 : Ref sig .tc := ⟨.hbm, 95, rfl⟩
abbrev main_v49 : Ref sig .tc := ⟨.hbm, 96, rfl⟩
abbrev main_cst_11 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_c_12 : Ref sig .tc := ⟨.hbm, 106, rfl⟩
abbrev main_v58 : Ref sig .tc := ⟨.hbm, 107, rfl⟩
abbrev main_v59 : Ref sig .tc := ⟨.hbm, 108, rfl⟩
abbrev main_c_13 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_call1_cst : Ref sig .tc := ⟨.hbm, 116, rfl⟩
abbrev main_call1_v0 : Ref sig .tc := ⟨.hbm, 117, rfl⟩
abbrev main_v66 : Ref sig .tc := ⟨.hbm, 118, rfl⟩
abbrev main_cst_14 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_cst_15 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76_0 : Ref sig .tc := ⟨.hbm, 130, rfl⟩
abbrev main_v76_1 : Ref sig .tc := ⟨.hbm, 131, rfl⟩
abbrev main_cst_16 : Ref sig .tc := ⟨.hbm, 132, rfl⟩
abbrev main_v77 : Ref sig .tc := ⟨.hbm, 133, rfl⟩
abbrev main_v78 : Ref sig .tc := ⟨.hbm, 134, rfl⟩
abbrev main_cst_17 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_cst_18 : Ref sig .tc := ⟨.hbm, 139, rfl⟩
abbrev main_v82 : Ref sig .tc := ⟨.hbm, 140, rfl⟩
abbrev main_v83 : Ref sig .tc := ⟨.hbm, 141, rfl⟩
abbrev main_cst_19 : Ref sig .tc := ⟨.hbm, 142, rfl⟩
abbrev main_v84 : Ref sig .tc := ⟨.hbm, 143, rfl⟩
abbrev main_v85 : Ref sig .tc := ⟨.hbm, 144, rfl⟩
abbrev main_cst_20 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91_0 : Ref sig .tc := ⟨.hbm, 151, rfl⟩
abbrev main_v91_1 : Ref sig .tc := ⟨.hbm, 152, rfl⟩
abbrev main_cst_21 : Ref sig .tc := ⟨.hbm, 153, rfl⟩
abbrev main_v92 : Ref sig .tc := ⟨.hbm, 154, rfl⟩
abbrev main_v93 : Ref sig .tc := ⟨.hbm, 155, rfl⟩
abbrev main_cst_22 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_cst_23 : Ref sig .tc := ⟨.hbm, 160, rfl⟩
abbrev main_v97 : Ref sig .tc := ⟨.hbm, 161, rfl⟩
abbrev main_v98 : Ref sig .tc := ⟨.hbm, 162, rfl⟩
abbrev main_cst_24 : Ref sig .tc := ⟨.hbm, 163, rfl⟩
abbrev main_v99 : Ref sig .tc := ⟨.hbm, 164, rfl⟩
abbrev main_v100 : Ref sig .tc := ⟨.hbm, 165, rfl⟩
abbrev main_cst_25 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_cst_26 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_cst_27 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg7_1 : Ref sig .tc := ⟨.vmem, 30, rfl⟩
abbrev cc3_stg8_0 : Ref sig .tc := ⟨.vmem, 31, rfl⟩
abbrev cc3_stg8_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg3_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg4_0 : Ref sig .tc := ⟨.vmem, 58, rfl⟩
abbrev cc7_stg4_1 : Ref sig .tc := ⟨.vmem, 59, rfl⟩
abbrev cc7_stg5_0 : Ref sig .tc := ⟨.vmem, 60, rfl⟩
abbrev cc7_stg5_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg2_0 : Ref sig .tc := ⟨.vmem, 65, rfl⟩
abbrev cc8_stg2_1 : Ref sig .tc := ⟨.vmem, 66, rfl⟩
abbrev cc9_stg0_0 : Ref sig .tc := ⟨.vmem, 67, rfl⟩
abbrev cc9_stg0_1 : Ref sig .tc := ⟨.vmem, 68, rfl⟩
abbrev cc9_stg1_0 : Ref sig .tc := ⟨.vmem, 69, rfl⟩
abbrev cc9_stg2_0 : Ref sig .tc := ⟨.vmem, 70, rfl⟩
abbrev cc9_stg3_0 : Ref sig .tc := ⟨.vmem, 71, rfl⟩
abbrev cc9_stg4_0 : Ref sig .tc := ⟨.vmem, 72, rfl⟩
abbrev cc9_stg5_0 : Ref sig .tc := ⟨.vmem, 73, rfl⟩
abbrev cc9_stg6_0 : Ref sig .tc := ⟨.vmem, 74, rfl⟩
abbrev cc9_stg7_0 : Ref sig .tc := ⟨.vmem, 75, rfl⟩
abbrev cc9_stg7_1 : Ref sig .tc := ⟨.vmem, 76, rfl⟩
abbrev cc9_stg8_0 : Ref sig .tc := ⟨.vmem, 77, rfl⟩
abbrev cc9_stg8_1 : Ref sig .tc := ⟨.vmem, 78, rfl⟩
abbrev cc10_stg0_0 : Ref sig .tc := ⟨.vmem, 79, rfl⟩
abbrev cc10_stg0_1 : Ref sig .tc := ⟨.vmem, 80, rfl⟩
abbrev cc10_stg1_0 : Ref sig .tc := ⟨.vmem, 81, rfl⟩
abbrev cc10_stg2_0 : Ref sig .tc := ⟨.vmem, 82, rfl⟩
abbrev cc10_stg2_1 : Ref sig .tc := ⟨.vmem, 83, rfl⟩
abbrev cc11_stg0_0 : Ref sig .tc := ⟨.vmem, 84, rfl⟩
abbrev cc11_stg0_1 : Ref sig .tc := ⟨.vmem, 85, rfl⟩
abbrev cc11_stg1_0 : Ref sig .tc := ⟨.vmem, 86, rfl⟩
abbrev cc11_stg2_0 : Ref sig .tc := ⟨.vmem, 87, rfl⟩
abbrev cc11_stg3_0 : Ref sig .tc := ⟨.vmem, 88, rfl⟩
abbrev cc11_stg4_0 : Ref sig .tc := ⟨.vmem, 89, rfl⟩
abbrev cc11_stg5_0 : Ref sig .tc := ⟨.vmem, 90, rfl⟩
abbrev cc11_stg5_1 : Ref sig .tc := ⟨.vmem, 91, rfl⟩
abbrev cc12_stg0_0 : Ref sig .tc := ⟨.vmem, 92, rfl⟩
abbrev cc12_stg1_0 : Ref sig .tc := ⟨.vmem, 93, rfl⟩
abbrev cc12_stg2_0 : Ref sig .tc := ⟨.vmem, 94, rfl⟩
abbrev cc12_stg3_0 : Ref sig .tc := ⟨.vmem, 95, rfl⟩
abbrev cc12_stg4_0 : Ref sig .tc := ⟨.vmem, 96, rfl⟩
abbrev cc12_stg5_0 : Ref sig .tc := ⟨.vmem, 97, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem7_1 : DmaSem sig := 30
abbrev cc3_sem8_0 : DmaSem sig := 31
abbrev cc3_sem8_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem3_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem3_0 : DmaSem sig := 57
abbrev cc7_sem4_0 : DmaSem sig := 58
abbrev cc7_sem4_1 : DmaSem sig := 59
abbrev cc7_sem5_0 : DmaSem sig := 60
abbrev cc7_sem5_1 : DmaSem sig := 61
abbrev cc8_sem0_0 : DmaSem sig := 62
abbrev cc8_sem0_1 : DmaSem sig := 63
abbrev cc8_sem1_0 : DmaSem sig := 64
abbrev cc8_sem2_0 : DmaSem sig := 65
abbrev cc8_sem2_1 : DmaSem sig := 66
abbrev cc9_sem0_0 : DmaSem sig := 67
abbrev cc9_sem0_1 : DmaSem sig := 68
abbrev cc9_sem1_0 : DmaSem sig := 69
abbrev cc9_sem2_0 : DmaSem sig := 70
abbrev cc9_sem3_0 : DmaSem sig := 71
abbrev cc9_sem4_0 : DmaSem sig := 72
abbrev cc9_sem5_0 : DmaSem sig := 73
abbrev cc9_sem6_0 : DmaSem sig := 74
abbrev cc9_sem7_0 : DmaSem sig := 75
abbrev cc9_sem7_1 : DmaSem sig := 76
abbrev cc9_sem8_0 : DmaSem sig := 77
abbrev cc9_sem8_1 : DmaSem sig := 78
abbrev cc10_sem0_0 : DmaSem sig := 79
abbrev cc10_sem0_1 : DmaSem sig := 80
abbrev cc10_sem1_0 : DmaSem sig := 81
abbrev cc10_sem2_0 : DmaSem sig := 82
abbrev cc10_sem2_1 : DmaSem sig := 83
abbrev cc11_sem0_0 : DmaSem sig := 84
abbrev cc11_sem0_1 : DmaSem sig := 85
abbrev cc11_sem1_0 : DmaSem sig := 86
abbrev cc11_sem2_0 : DmaSem sig := 87
abbrev cc11_sem3_0 : DmaSem sig := 88
abbrev cc11_sem4_0 : DmaSem sig := 89
abbrev cc11_sem5_0 : DmaSem sig := 90
abbrev cc11_sem5_1 : DmaSem sig := 91
abbrev cc12_sem0_0 : DmaSem sig := 92
abbrev cc12_sem1_0 : DmaSem sig := 93
abbrev cc12_sem2_0 : DmaSem sig := 94
abbrev cc12_sem3_0 : DmaSem sig := 95
abbrev cc12_sem4_0 : DmaSem sig := 96
abbrev cc12_sem5_0 : DmaSem sig := 97

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S8x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S8x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S16000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S16x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S16000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S8x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S8x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_8 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S5000x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev stage9_8 : Fin 2 → Memref sig .tc .vmem S8x128 .f32 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S8x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 1 → Memref sig .tc .vmem S512x256 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false]

abbrev stage12_1 : Fin 1 → Memref sig .tc .vmem S256x256 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x256 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S256x1 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x1 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S512x1 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x16_S16x128_1_0 : S128x16.Transposes [1, 0] S16x128
  shapeCasts_S128_S1x128 : S128.ShapeCasts S1x128
  inb_S16000x16_S16000x16_0_0 : ∀ a, (![0, 0] : Fin 2 → Nat) a + S16000x16.size a ≤ S16000x16.size a
  h_S16000x16 : 0 < S16000x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  inb_S16000x128_S16000x128_0_0 : ∀ a, (![0, 0] : Fin 2 → Nat) a + S16000x128.size a ≤ S16000x128.size a
  h_S16000x128 : 0 < S16000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S80x128_S128_d0 : S80x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S_S512x128 : S_.BroadcastsInDim S512x128 (![] : Fin 0 → Fin S512x128.rank)
  bcast_S50000_S50000x1_0 : S50000.BroadcastsInDim S50000x1 (![0] : Fin 1 → Fin S50000x1.rank)
  concatenates_S512x128_S512x128_S512x256_d1 : Shape.Concatenates [S512x128, S512x128] S512x256 1
  transposes_S256x256_S256x256_1_0 : S256x256.Transposes [1, 0] S256x256
  transposes_S1x256_S256x1_1_0 : S1x256.Transposes [1, 0] S256x1
  shapeCasts_S256_S1x256 : S256.ShapeCasts S1x256
  shapeCasts_S1_S1x1 : S1.ShapeCasts S1x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S16000x16_S16x128_S16000x128_1_0_0_1_n_n_wf : DotDims.WF S16000x16 S16x128 S16000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  dot_S512x256_S256x256_S512x256_1_0_0_1_n_n_wf : DotDims.WF S512x256 S256x256 S512x256 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x16.size a ≤ S800000x16.size a
  hwx0_0 : ∀ i : grid0.Coords, EltTy.bits .f32 = 32 ∨ (Rect.block (s := S800000x16) S16000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x128.size a ≤ S800000x128.size a
  hwx0_3 : ∀ i : grid0.Coords, EltTy.bits .f32 = 32 ∨ (Rect.block (s := S800000x128) S16000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S80x128.size a
  hwx1_5 : ∀ i : grid1.Coords, EltTy.bits .f32 = 32 ∨ (Rect.block (s := S80x128) S8x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x128.size a ≤ S80x128.size a
  hwx2_2 : ∀ i : grid2.Coords, EltTy.bits .f32 = 32 ∨ (Rect.block (s := S80x128) S8x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S8x128.size a ≤ S80x128.size a
  hwx3_8 : ∀ i : grid3.Coords, EltTy.bits .f32 = 32 ∨ (Rect.block (s := S80x128) S8x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8x128.size a ≤ S80x128.size a
  hwx4_2 : ∀ i : grid4.Coords, EltTy.bits .f32 = 32 ∨ (Rect.block (s := S80x128) S8x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S16000x16.size a ≤ S800000x16.size a
  hwx6_0 : ∀ i : grid6.Coords, EltTy.bits .f32 = 32 ∨ (Rect.block (s := S800000x16) S16000x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16x128.size a ≤ S16x128.size a
  hwx6_1 : ∀ i : grid6.Coords, EltTy.bits .f32 = 32 ∨ (Rect.block (s := S16x128) S16x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S16000x128.size a ≤ S800000x128.size a
  hwx6_3 : ∀ i : grid6.Coords, EltTy.bits .f32 = 32 ∨ (Rect.block (s := S800000x128) S16000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S50000x128.size a
  hwx7_4 : ∀ i : grid7.Coords, EltTy.bits .f32 = 32 ∨ (Rect.block (s := S50000x128) S5000x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S8x128.size a ≤ S80x128.size a
  hwx7_5 : ∀ i : grid7.Coords, EltTy.bits .f32 = 32 ∨ (Rect.block (s := S80x128) S8x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S8x128.size a ≤ S80x128.size a
  hwx8_2 : ∀ i : grid8.Coords, EltTy.bits .f32 = 32 ∨ (Rect.block (s := S80x128) S8x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x128.size a ≤ S128x128.size a
  hwx9_5 : ∀ i : grid9.Coords, EltTy.bits .f32 = 32 ∨ (Rect.block (s := S128x128) S128x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S5000x128.size a ≤ S50000x128.size a
  hwx9_7 : ∀ i : grid9.Coords, EltTy.bits .f32 = 32 ∨ (Rect.block (s := S50000x128) S5000x128.size (cc9_transform_7 i) (hinb9_7 i)).WholeWords (EltTy.packing .f32)
  hstage9_8 : ∀ j, (stage9_8 j).IsWhole
  nbuf9_8 : grid9.bufCount reads9_8 false = 2
  hreads9_8 : ∀ i i' : grid9.Coords, (∀ a, reads9_8 a = true → i a = i' a) → cc9_transform_8 i = cc9_transform_8 i'
  hinb9_8 : ∀ (i : grid9.Coords) a, (cc9_transform_8 i a + 1) * S8x128.size a ≤ S80x128.size a
  hwx9_8 : ∀ i : grid9.Coords, EltTy.bits .f32 = 32 ∨ (Rect.block (s := S80x128) S8x128.size (cc9_transform_8 i) (hinb9_8 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S8x128.size a ≤ S80x128.size a
  hwx10_2 : ∀ i : grid10.Coords, EltTy.bits .f32 = 32 ∨ (Rect.block (s := S80x128) S8x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S50000x128.size a
  hwx11_5 : ∀ i : grid11.Coords, EltTy.bits .f32 = 32 ∨ (Rect.block (s := S50000x128) S5000x128.size (cc11_transform_5 i) (hinb11_5 i)).WholeWords (EltTy.packing .f32)
  hrank12 : 0 < grid12.rank
  hstage12_0 : ∀ j, (stage12_0 j).IsWhole
  nbuf12_0 : grid12.bufCount reads12_0 true = 1
  hreads12_0 : ∀ i i' : grid12.Coords, (∀ a, reads12_0 a = true → i a = i' a) → cc12_transform_0 i = cc12_transform_0 i'
  hinb12_0 : ∀ (i : grid12.Coords) a, (cc12_transform_0 i a + 1) * S512x256.size a ≤ S512x256.size a
  hwx12_0 : ∀ i : grid12.Coords, EltTy.bits .f32 = 32 ∨ (Rect.block (s := S512x256) S512x256.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S256x256.size a ≤ S256x256.size a
  hwx12_1 : ∀ i : grid12.Coords, EltTy.bits .f32 = 32 ∨ (Rect.block (s := S256x256) S256x256.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x256.size a ≤ S1x256.size a
  hwx12_2 : ∀ i : grid12.Coords, EltTy.bits .f32 = 32 ∨ (Rect.block (s := S1x256) S1x256.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S256x1.size a ≤ S256x1.size a
  hwx12_3 : ∀ i : grid12.Coords, EltTy.bits .f32 = 32 ∨ (Rect.block (s := S256x1) S256x1.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x1.size a ≤ S1x1.size a
  hwx12_4 : ∀ i : grid12.Coords, EltTy.bits .f32 = 32 ∨ (Rect.block (s := S1x1) S1x1.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S512x1.size a ≤ S512x1.size a
  hwx12_5 : ∀ i : grid12.Coords, EltTy.bits .f32 = 32 ∨ (Rect.block (s := S512x1) S512x1.size (cc12_transform_5 i) (hinb12_5 i)).WholeWords (EltTy.packing .f32)

variable [Facts₀]

def dot_S16000x16_S16x128_S16000x128_1_0_0_1_n_n : DotDims S16000x16 S16x128 S16000x128 where
  lhsContracting := [1]
  rhsContracting := [0]
  lhsNonContracting := [0]
  rhsNonContracting := [1]
  lhsBatch := []
  rhsBatch := []
  wf := dot_S16000x16_S16x128_S16000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg2) S16000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S16000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v25_1) S8x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v25_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S8x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v25_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v36) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v23) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v39) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v40_0) S5000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v40_1) S8x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v40_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v45) S8x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v40_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v44) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v51) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v52) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v53) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v54) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_arg2) S16000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v55) S16x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v56) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v57) S16000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v69) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v72) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v73) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v75) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v76_0) S5000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v76_1) S8x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v76_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v80) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v81) S8x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v76_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v80) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v87) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v88) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v89) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v74) S128x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v90) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v91_0) S5000x128.size cc9_transform_7 reads9_7 true false 2 stage9_7 sem9_7
    hrank9 hreads9_7 hinb9_7 nbuf9_7 (Memref.isWhole_whole _) hwx9_7 hstage9_7

abbrev win9_8 : Pipeline.Window sig grid9 :=
  Pipeline.Window.ofSpec (Memref.whole main_v91_1) S8x128.size cc9_transform_8 reads9_8 true false 2 stage9_8 sem9_8
    hrank9 hreads9_8 hinb9_8 nbuf9_8 (Memref.isWhole_whole _) hwx9_8 hstage9_8

abbrev win9 : Fin 9 → Pipeline.Window sig grid9 := fun | 0 => win9_0 | 1 => win9_1 | 2 => win9_2 | 3 => win9_3 | 4 => win9_4 | 5 => win9_5 | 6 => win9_6 | 7 => win9_7 | 8 => win9_8 | ⟨_ + 9, h⟩ => absurd h (Nat.not_lt.2 (Nat.le_add_left _ _))
abbrev spec9 : Fin 9 → Pipeline.WinSpec sig grid9.rank := fun w => (win9 w).toWinSpec

abbrev win10_0 : Pipeline.Window sig grid10 :=
  Pipeline.Window.ofSpec (Memref.whole main_v91_0) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v95) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v96) S8x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v91_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v95) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v102) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v103) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v104) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v105) S5000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v112) S512x256.size cc12_transform_0 reads12_0 false true 1 stage12_0 sem12_0
    hrank12 hreads12_0 hinb12_0 nbuf12_0 (Memref.isWhole_whole _) hwx12_0 hstage12_0

abbrev win12_1 : Pipeline.Window sig grid12 :=
  Pipeline.Window.ofSpec (Memref.whole main_v113) S256x256.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v115) S1x256.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v114) S256x1.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v116) S1x1.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v117) S512x1.size cc12_transform_5 reads12_5 true true 1 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S50000 : Shape := ⟨1, ![50000]⟩
abbrev S128x16 : Shape := ⟨2, ![128, 16]⟩
abbrev S128 : Shape := ⟨1, ![128]⟩
abbrev S_ : Shape := ⟨0, ![]⟩
abbrev S128x128 : Shape := ⟨2, ![128, 128]⟩
abbrev S256x256 : Shape := ⟨2, ![256, 256]⟩
abbrev S256 : Shape := ⟨1, ![256]⟩
abbrev S1x256 : Shape := ⟨2, ![1, 256]⟩
abbrev S1 : Shape := ⟨1, ![1]⟩
abbrev S1x800000 : Shape := ⟨2, ![1, 800000]⟩
abbrev S800000 : Shape := ⟨1, ![800000]⟩
abbrev S16x128 : Shape := ⟨2, ![16, 128]⟩
abbrev S800000x128 : Shape := ⟨2, ![800000, 128]⟩
abbrev S1x128 : Shape := ⟨2, ![1, 128]⟩
abbrev S800000x1 : Shape := ⟨2, ![800000, 1]⟩
abbrev S512x128 : Shape := ⟨2, ![512, 128]⟩
abbrev S50000x1 : Shape := ⟨2, ![50000, 1]⟩
abbrev S512x256 : Shape := ⟨2, ![512, 256]⟩
abbrev S256x1 : Shape := ⟨2, ![256, 1]⟩
abbrev S512x1 : Shape := ⟨2, ![512, 1]⟩
abbrev S1x1 : Shape := ⟨2, ![1, 1]⟩

abbrev nBuf : Space → Nat
  | .hbm => 326
  | .vmem => 0
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S50000, .i32⟩
  | 4 => ⟨S128x16, .f32⟩
  | 5 => ⟨S128, .f32⟩
  | 6 => ⟨S_, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x16, .f32⟩
  | 16 => ⟨S128, .f32⟩
  | 17 => ⟨S_, .f32⟩
  | 18 => ⟨S128x128, .f32⟩
  | 19 => ⟨S128, .f32⟩
  | 20 => ⟨S128, .f32⟩
  | 21 => ⟨S128, .f32⟩
  | 22 => ⟨S128x128, .f32⟩
  | 23 => ⟨S128, .f32⟩
  | 24 => ⟨S128, .f32⟩
  | 25 => ⟨S128, .f32⟩
  | 26 => ⟨S256x256, .f32⟩
  | 27 => ⟨S256, .f32⟩
  | 28 => ⟨S1x256, .f32⟩
  | 29 => ⟨S1, .f32⟩
  | 30 => ⟨S1x800000, .i32⟩
  | 31 => ⟨S800000, .i32⟩
  | 32 => ⟨S1x800000, .i32⟩
  | 33 => ⟨S800000, .i32⟩
  | 34 => ⟨S16x128, .f32⟩
  | 35 => ⟨S800000x128, .f32⟩
  | 36 => ⟨S1x128, .f32⟩
  | 37 => ⟨S800000x128, .f32⟩
  | 38 => ⟨S800000x128, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .f32⟩
  | 48 => ⟨S800000x128, .f32⟩
  | 49 => ⟨S_, .f32⟩
  | 50 => ⟨S800000x128, .f32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S_, .f32⟩
  | 57 => ⟨S_, .f32⟩
  | 58 => ⟨S50000x128, .f32⟩
  | 59 => ⟨S50000x128, .f32⟩
  | 60 => ⟨S50000x128, .f32⟩
  | 61 => ⟨S128x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S128, .f32⟩
  | 68 => ⟨S_, .f32⟩
  | 69 => ⟨S128, .f32⟩
  | 70 => ⟨S128, .f32⟩
  | 71 => ⟨S_, .i32⟩
  | 72 => ⟨S_, .f32⟩
  | 73 => ⟨S128, .f32⟩
  | 74 => ⟨S1x128, .f32⟩
  | 75 => ⟨S_, .f32⟩
  | 76 => ⟨S1x128, .f32⟩
  | 77 => ⟨S1x128, .f32⟩
  | 78 => ⟨S50000x128, .f32⟩
  | 79 => ⟨S50000x128, .f32⟩
  | 80 => ⟨S50000x128, .f32⟩
  | 81 => ⟨S_, .f32⟩
  | 82 => ⟨S_, .f32⟩
  | 83 => ⟨S_, .f32⟩
  | 84 => ⟨S_, .f32⟩
  | 85 => ⟨S128, .f32⟩
  | 86 => ⟨S128, .f32⟩
  | 87 => ⟨S128, .f32⟩
  | 88 => ⟨S_, .f32⟩
  | 89 => ⟨S_, .i1⟩
  | 90 => ⟨S_, .f32⟩
  | 91 => ⟨S_, .f32⟩
  | 92 => ⟨S128, .f32⟩
  | 93 => ⟨S128, .f32⟩
  | 94 => ⟨S1x128, .f32⟩
  | 95 => ⟨S50000x128, .f32⟩
  | 96 => ⟨S50000x128, .f32⟩
  | 97 => ⟨S_, .f32⟩
  | 98 => ⟨S128, .f32⟩
  | 99 => ⟨S128, .f32⟩
  | 100 => ⟨S128, .f32⟩
  | 101 => ⟨S1x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S128x128, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S_, .f32⟩
  | 122 => ⟨S128, .f32⟩
  | 123 => ⟨S_, .f32⟩
  | 124 => ⟨S128, .f32⟩
  | 125 => ⟨S128, .f32⟩
  | 126 => ⟨S_, .i32⟩
  | 127 => ⟨S_, .f32⟩
  | _ => ⟨S50000x128, .f32⟩

abbrev hbmTy0_1 (i : Nat) : BufTy := match i % 128 with
  | 0 => ⟨S128, .f32⟩
  | 1 => ⟨S1x128, .f32⟩
  | 2 => ⟨S_, .f32⟩
  | 3 => ⟨S1x128, .f32⟩
  | 4 => ⟨S1x128, .f32⟩
  | 5 => ⟨S50000x128, .f32⟩
  | 6 => ⟨S50000x128, .f32⟩
  | 7 => ⟨S50000x128, .f32⟩
  | 8 => ⟨S_, .f32⟩
  | 9 => ⟨S_, .f32⟩
  | 10 => ⟨S_, .f32⟩
  | 11 => ⟨S_, .f32⟩
  | 12 => ⟨S128, .f32⟩
  | 13 => ⟨S128, .f32⟩
  | 14 => ⟨S128, .f32⟩
  | 15 => ⟨S_, .f32⟩
  | 16 => ⟨S_, .i1⟩
  | 17 => ⟨S_, .f32⟩
  | 18 => ⟨S_, .f32⟩
  | 19 => ⟨S128, .f32⟩
  | 20 => ⟨S128, .f32⟩
  | 21 => ⟨S1x128, .f32⟩
  | 22 => ⟨S50000x128, .f32⟩
  | 23 => ⟨S50000x128, .f32⟩
  | 24 => ⟨S_, .f32⟩
  | 25 => ⟨S128, .f32⟩
  | 26 => ⟨S128, .f32⟩
  | 27 => ⟨S128, .f32⟩
  | 28 => ⟨S1x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S16x128, .f32⟩
  | 38 => ⟨S800000x128, .f32⟩
  | 39 => ⟨S1x128, .f32⟩
  | 40 => ⟨S800000x128, .f32⟩
  | 41 => ⟨S800000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S800000x128, .f32⟩
  | 52 => ⟨S_, .f32⟩
  | 53 => ⟨S800000x128, .f32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S_, .f32⟩
  | 60 => ⟨S_, .f32⟩
  | 61 => ⟨S50000x128, .f32⟩
  | 62 => ⟨S50000x128, .f32⟩
  | 63 => ⟨S50000x128, .f32⟩
  | 64 => ⟨S128x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S128, .f32⟩
  | 71 => ⟨S_, .f32⟩
  | 72 => ⟨S128, .f32⟩
  | 73 => ⟨S128, .f32⟩
  | 74 => ⟨S_, .i32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S50000x128, .f32⟩
  | 82 => ⟨S50000x128, .f32⟩
  | 83 => ⟨S50000x128, .f32⟩
  | 84 => ⟨S_, .f32⟩
  | 85 => ⟨S_, .f32⟩
  | 86 => ⟨S_, .f32⟩
  | 87 => ⟨S_, .f32⟩
  | 88 => ⟨S128, .f32⟩
  | 89 => ⟨S128, .f32⟩
  | 90 => ⟨S128, .f32⟩
  | 91 => ⟨S_, .f32⟩
  | 92 => ⟨S_, .i1⟩
  | 93 => ⟨S_, .f32⟩
  | 94 => ⟨S_, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S_, .f32⟩
  | 101 => ⟨S128, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S128x128, .f32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S_, .f32⟩
  | 125 => ⟨S128, .f32⟩
  | 126 => ⟨S_, .f32⟩
  | 127 => ⟨S128, .f32⟩
  | _ => ⟨S50000x128, .f32⟩

abbrev hbmTy0_2 (i : Nat) : BufTy := match i % 128 with
  | 0 => ⟨S128, .f32⟩
  | 1 => ⟨S_, .i32⟩
  | 2 => ⟨S_, .f32⟩
  | 3 => ⟨S128, .f32⟩
  | 4 => ⟨S1x128, .f32⟩
  | 5 => ⟨S_, .f32⟩
  | 6 => ⟨S1x128, .f32⟩
  | 7 => ⟨S1x128, .f32⟩
  | 8 => ⟨S50000x128, .f32⟩
  | 9 => ⟨S50000x128, .f32⟩
  | 10 => ⟨S50000x128, .f32⟩
  | 11 => ⟨S_, .f32⟩
  | 12 => ⟨S_, .f32⟩
  | 13 => ⟨S_, .f32⟩
  | 14 => ⟨S_, .f32⟩
  | 15 => ⟨S128, .f32⟩
  | 16 => ⟨S128, .f32⟩
  | 17 => ⟨S128, .f32⟩
  | 18 => ⟨S_, .f32⟩
  | 19 => ⟨S_, .i1⟩
  | 20 => ⟨S_, .f32⟩
  | 21 => ⟨S_, .f32⟩
  | 22 => ⟨S128, .f32⟩
  | 23 => ⟨S128, .f32⟩
  | 24 => ⟨S1x128, .f32⟩
  | 25 => ⟨S50000x128, .f32⟩
  | 26 => ⟨S50000x128, .f32⟩
  | 27 => ⟨S_, .f32⟩
  | 28 => ⟨S128, .f32⟩
  | 29 => ⟨S128, .f32⟩
  | 30 => ⟨S128, .f32⟩
  | 31 => ⟨S1x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S512x128, .f32⟩
  | 42 => ⟨S50000x1, .i32⟩
  | 43 => ⟨S512x128, .f32⟩
  | 44 => ⟨S_, .f32⟩
  | 45 => ⟨S512x128, .f32⟩
  | 46 => ⟨S50000x1, .i32⟩
  | 47 => ⟨S512x128, .f32⟩
  | 48 => ⟨S512x256, .f32⟩
  | 49 => ⟨S256x256, .f32⟩
  | 50 => ⟨S512x256, .f32⟩
  | 51 => ⟨S1x256, .f32⟩
  | 52 => ⟨S512x256, .f32⟩
  | 53 => ⟨S512x256, .f32⟩
  | 54 => ⟨S_, .f32⟩
  | 55 => ⟨S512x256, .f32⟩
  | 56 => ⟨S512x256, .f32⟩
  | 57 => ⟨S256x1, .f32⟩
  | 58 => ⟨S512x1, .f32⟩
  | 59 => ⟨S1x1, .f32⟩
  | 60 => ⟨S512x1, .f32⟩
  | 61 => ⟨S512x1, .f32⟩
  | 62 => ⟨S512x1, .f32⟩
  | 63 => ⟨S512x1, .f32⟩
  | 64 => ⟨S_, .f32⟩
  | 65 => ⟨S512x1, .f32⟩
  | 66 => ⟨S512x1, .f32⟩
  | 67 => ⟨S_, .f32⟩
  | 68 => ⟨S512x1, .f32⟩
  | 69 => ⟨S512x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_c : Ref sig .tc := ⟨.hbm, 39, rfl⟩
abbrev main_v9 : Ref sig .tc := ⟨.hbm, 40, rfl⟩
abbrev main_v10 : Ref sig .tc := ⟨.hbm, 41, rfl⟩
abbrev main_c_0 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_call0_cst : Ref sig .tc := ⟨.hbm, 49, rfl⟩
abbrev main_call0_v0 : Ref sig .tc := ⟨.hbm, 50, rfl⟩
abbrev main_v17 : Ref sig .tc := ⟨.hbm, 51, rfl⟩
abbrev main_cst : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_1 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_2 : Ref sig .tc := ⟨.hbm, 66, rfl⟩
abbrev main_v30 : Ref sig .tc := ⟨.hbm, 67, rfl⟩
abbrev main_cst_3 : Ref sig .tc := ⟨.hbm, 68, rfl⟩
abbrev main_v31 : Ref sig .tc := ⟨.hbm, 69, rfl⟩
abbrev main_v32 : Ref sig .tc := ⟨.hbm, 70, rfl⟩
abbrev main_c_4 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_cst_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_cst_1 : Ref sig .tc := ⟨.hbm, 82, rfl⟩
abbrev main_call1_v8 : Ref sig .tc := ⟨.hbm, 83, rfl⟩
abbrev main_call1_cst_2 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_cst_3 : Ref sig .tc := ⟨.hbm, 88, rfl⟩
abbrev main_call1_v12 : Ref sig .tc := ⟨.hbm, 89, rfl⟩
abbrev main_call1_cst_4 : Ref sig .tc := ⟨.hbm, 90, rfl⟩
abbrev main_call1_call0_v0 : Ref sig .tc := ⟨.hbm, 91, rfl⟩
abbrev main_call1_call0_v1 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_cst_5 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_call2_cst : Ref sig .tc := ⟨.hbm, 110, rfl⟩
abbrev main_call2_v0 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_call3_cst : Ref sig .tc := ⟨.hbm, 118, rfl⟩
abbrev main_call3_v0 : Ref sig .tc := ⟨.hbm, 119, rfl⟩
abbrev main_v55 : Ref sig .tc := ⟨.hbm, 120, rfl⟩
abbrev main_cst_6 : Ref sig .tc := ⟨.hbm, 121, rfl⟩
abbrev main_v56 : Ref sig .tc := ⟨.hbm, 122, rfl⟩
abbrev main_cst_7 : Ref sig .tc := ⟨.hbm, 123, rfl⟩
abbrev main_v57 : Ref sig .tc := ⟨.hbm, 124, rfl⟩
abbrev main_v58 : Ref sig .tc := ⟨.hbm, 125, rfl⟩
abbrev main_c_8 : Ref sig .tc := ⟨.hbm, 126, rfl⟩
abbrev main_call4_cst : Ref sig .tc := ⟨.hbm, 127, rfl⟩
abbrev main_call4_v0 : Ref sig .tc := ⟨.hbm, 128, rfl⟩
abbrev main_call4_v1 : Ref sig .tc := ⟨.hbm, 129, rfl⟩
abbrev main_call4_cst_0 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_call4_v5 : Ref sig .tc := ⟨.hbm, 134, rfl⟩
abbrev main_call4_v6 : Ref sig .tc := ⟨.hbm, 135, rfl⟩
abbrev main_call4_v7 : Ref sig .tc := ⟨.hbm, 136, rfl⟩
abbrev main_call4_cst_1 : Ref sig .tc := ⟨.hbm, 137, rfl⟩
abbrev main_call4_v8 : Ref sig .tc := ⟨.hbm, 138, rfl⟩
abbrev main_call4_cst_2 : Ref sig .tc := ⟨.hbm, 139, rfl⟩
abbrev main_call4_v9 : Ref sig .tc := ⟨.hbm, 140, rfl⟩
abbrev main_call4_v10 : Ref sig .tc := ⟨.hbm, 141, rfl⟩
abbrev main_call4_v11 : Ref sig .tc := ⟨.hbm, 142, rfl⟩
abbrev main_call4_cst_3 : Ref sig .tc := ⟨.hbm, 143, rfl⟩
abbrev main_call4_v12 : Ref sig .tc := ⟨.hbm, 144, rfl⟩
abbrev main_call4_cst_4 : Ref sig .tc := ⟨.hbm, 145, rfl⟩
abbrev main_call4_call0_v0 : Ref sig .tc := ⟨.hbm, 146, rfl⟩
abbrev main_call4_call0_v1 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_cst_9 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_c_10 : Ref sig .tc := ⟨.hbm, 170, rfl⟩
abbrev main_v80 : Ref sig .tc := ⟨.hbm, 171, rfl⟩
abbrev main_v81 : Ref sig .tc := ⟨.hbm, 172, rfl⟩
abbrev main_c_11 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_call5_cst : Ref sig .tc := ⟨.hbm, 180, rfl⟩
abbrev main_call5_v0 : Ref sig .tc := ⟨.hbm, 181, rfl⟩
abbrev main_v88 : Ref sig .tc := ⟨.hbm, 182, rfl⟩
abbrev main_cst_12 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_cst_13 : Ref sig .tc := ⟨.hbm, 187, rfl⟩
abbrev main_v92 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_cst_14 : Ref sig .tc := ⟨.hbm, 197, rfl⟩
abbrev main_v101 : Ref sig .tc := ⟨.hbm, 198, rfl⟩
abbrev main_cst_15 : Ref sig .tc := ⟨.hbm, 199, rfl⟩
abbrev main_v102 : Ref sig .tc := ⟨.hbm, 200, rfl⟩
abbrev main_v103 : Ref sig .tc := ⟨.hbm, 201, rfl⟩
abbrev main_c_16 : Ref sig .tc := ⟨.hbm, 202, rfl⟩
abbrev main_call6_cst : Ref sig .tc := ⟨.hbm, 203, rfl⟩
abbrev main_call6_v0 : Ref sig .tc := ⟨.hbm, 204, rfl⟩
abbrev main_call6_v1 : Ref sig .tc := ⟨.hbm, 205, rfl⟩
abbrev main_call6_cst_0 : Ref sig .tc := ⟨.hbm, 206, rfl⟩
abbrev main_call6_v2 : Ref sig .tc := ⟨.hbm, 207, rfl⟩
abbrev main_call6_v3 : Ref sig .tc := ⟨.hbm, 208, rfl⟩
abbrev main_call6_v4 : Ref sig .tc := ⟨.hbm, 209, rfl⟩
abbrev main_call6_v5 : Ref sig .tc := ⟨.hbm, 210, rfl⟩
abbrev main_call6_v6 : Ref sig .tc := ⟨.hbm, 211, rfl⟩
abbrev main_call6_v7 : Ref sig .tc := ⟨.hbm, 212, rfl⟩
abbrev main_call6_cst_1 : Ref sig .tc := ⟨.hbm, 213, rfl⟩
abbrev main_call6_v8 : Ref sig .tc := ⟨.hbm, 214, rfl⟩
abbrev main_call6_cst_2 : Ref sig .tc := ⟨.hbm, 215, rfl⟩
abbrev main_call6_v9 : Ref sig .tc := ⟨.hbm, 216, rfl⟩
abbrev main_call6_v10 : Ref sig .tc := ⟨.hbm, 217, rfl⟩
abbrev main_call6_v11 : Ref sig .tc := ⟨.hbm, 218, rfl⟩
abbrev main_call6_cst_3 : Ref sig .tc := ⟨.hbm, 219, rfl⟩
abbrev main_call6_v12 : Ref sig .tc := ⟨.hbm, 220, rfl⟩
abbrev main_call6_cst_4 : Ref sig .tc := ⟨.hbm, 221, rfl⟩
abbrev main_call6_call0_v0 : Ref sig .tc := ⟨.hbm, 222, rfl⟩
abbrev main_call6_call0_v1 : Ref sig .tc := ⟨.hbm, 223, rfl⟩
abbrev main_v104 : Ref sig .tc := ⟨.hbm, 224, rfl⟩
abbrev main_v105 : Ref sig .tc := ⟨.hbm, 225, rfl⟩
abbrev main_v106 : Ref sig .tc := ⟨.hbm, 226, rfl⟩
abbrev main_v107 : Ref sig .tc := ⟨.hbm, 227, rfl⟩
abbrev main_cst_17 : Ref sig .tc := ⟨.hbm, 228, rfl⟩
abbrev main_v108 : Ref sig .tc := ⟨.hbm, 229, rfl⟩
abbrev main_v109 : Ref sig .tc := ⟨.hbm, 230, rfl⟩
abbrev main_v110 : Ref sig .tc := ⟨.hbm, 231, rfl⟩
abbrev main_v111 : Ref sig .tc := ⟨.hbm, 232, rfl⟩
abbrev main_v112 : Ref sig .tc := ⟨.hbm, 233, rfl⟩
abbrev main_v113 : Ref sig .tc := ⟨.hbm, 234, rfl⟩
abbrev main_v114 : Ref sig .tc := ⟨.hbm, 235, rfl⟩
abbrev main_v115 : Ref sig .tc := ⟨.hbm, 236, rfl⟩
abbrev main_v116 : Ref sig .tc := ⟨.hbm, 237, rfl⟩
abbrev main_v117 : Ref sig .tc := ⟨.hbm, 238, rfl⟩
abbrev main_v118 : Ref sig .tc := ⟨.hbm, 239, rfl⟩
abbrev main_v119 : Ref sig .tc := ⟨.hbm, 240, rfl⟩
abbrev main_call7_cst : Ref sig .tc := ⟨.hbm, 241, rfl⟩
abbrev main_call7_v0 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_v125 : Ref sig .tc := ⟨.hbm, 248, rfl⟩
abbrev main_call8_cst : Ref sig .tc := ⟨.hbm, 249, rfl⟩
abbrev main_call8_v0 : Ref sig .tc := ⟨.hbm, 250, rfl⟩
abbrev main_v126 : Ref sig .tc := ⟨.hbm, 251, rfl⟩
abbrev main_cst_18 : Ref sig .tc := ⟨.hbm, 252, rfl⟩
abbrev main_v127 : Ref sig .tc := ⟨.hbm, 253, rfl⟩
abbrev main_cst_19 : Ref sig .tc := ⟨.hbm, 254, rfl⟩
abbrev main_v128 : Ref sig .tc := ⟨.hbm, 255, rfl⟩
abbrev main_v129 : Ref sig .tc := ⟨.hbm, 256, rfl⟩
abbrev main_c_20 : Ref sig .tc := ⟨.hbm, 257, rfl⟩
abbrev main_call9_cst : Ref sig .tc := ⟨.hbm, 258, rfl⟩
abbrev main_call9_v0 : Ref sig .tc := ⟨.hbm, 259, rfl⟩
abbrev main_call9_v1 : Ref sig .tc := ⟨.hbm, 260, rfl⟩
abbrev main_call9_cst_0 : Ref sig .tc := ⟨.hbm, 261, rfl⟩
abbrev main_call9_v2 : Ref sig .tc := ⟨.hbm, 262, rfl⟩
abbrev main_call9_v3 : Ref sig .tc := ⟨.hbm, 263, rfl⟩
abbrev main_call9_v4 : Ref sig .tc := ⟨.hbm, 264, rfl⟩
abbrev main_call9_v5 : Ref sig .tc := ⟨.hbm, 265, rfl⟩
abbrev main_call9_v6 : Ref sig .tc := ⟨.hbm, 266, rfl⟩
abbrev main_call9_v7 : Ref sig .tc := ⟨.hbm, 267, rfl⟩
abbrev main_call9_cst_1 : Ref sig .tc := ⟨.hbm, 268, rfl⟩
abbrev main_call9_v8 : Ref sig .tc := ⟨.hbm, 269, rfl⟩
abbrev main_call9_cst_2 : Ref sig .tc := ⟨.hbm, 270, rfl⟩
abbrev main_call9_v9 : Ref sig .tc := ⟨.hbm, 271, rfl⟩
abbrev main_call9_v10 : Ref sig .tc := ⟨.hbm, 272, rfl⟩
abbrev main_call9_v11 : Ref sig .tc := ⟨.hbm, 273, rfl⟩
abbrev main_call9_cst_3 : Ref sig .tc := ⟨.hbm, 274, rfl⟩
abbrev main_call9_v12 : Ref sig .tc := ⟨.hbm, 275, rfl⟩
abbrev main_call9_cst_4 : Ref sig .tc := ⟨.hbm, 276, rfl⟩
abbrev main_call9_call0_v0 : Ref sig .tc := ⟨.hbm, 277, rfl⟩
abbrev main_call9_call0_v1 : Ref sig .tc := ⟨.hbm, 278, rfl⟩
abbrev main_v130 : Ref sig .tc := ⟨.hbm, 279, rfl⟩
abbrev main_v131 : Ref sig .tc := ⟨.hbm, 280, rfl⟩
abbrev main_v132 : Ref sig .tc := ⟨.hbm, 281, rfl⟩
abbrev main_v133 : Ref sig .tc := ⟨.hbm, 282, rfl⟩
abbrev main_cst_21 : Ref sig .tc := ⟨.hbm, 283, rfl⟩
abbrev main_v134 : Ref sig .tc := ⟨.hbm, 284, rfl⟩
abbrev main_v135 : Ref sig .tc := ⟨.hbm, 285, rfl⟩
abbrev main_v136 : Ref sig .tc := ⟨.hbm, 286, rfl⟩
abbrev main_v137 : Ref sig .tc := ⟨.hbm, 287, rfl⟩
abbrev main_v138 : Ref sig .tc := ⟨.hbm, 288, rfl⟩
abbrev main_v139 : Ref sig .tc := ⟨.hbm, 289, rfl⟩
abbrev main_v140 : Ref sig .tc := ⟨.hbm, 290, rfl⟩
abbrev main_v141 : Ref sig .tc := ⟨.hbm, 291, rfl⟩
abbrev main_v142 : Ref sig .tc := ⟨.hbm, 292, rfl⟩
abbrev main_v143 : Ref sig .tc := ⟨.hbm, 293, rfl⟩
abbrev main_v144 : Ref sig .tc := ⟨.hbm, 294, rfl⟩
abbrev main_v145 : Ref sig .tc := ⟨.hbm, 295, rfl⟩
abbrev main_cst_22 : Ref sig .tc := ⟨.hbm, 296, rfl⟩
abbrev main_v146 : Ref sig .tc := ⟨.hbm, 297, rfl⟩
abbrev main_v147 : Ref sig .tc := ⟨.hbm, 298, rfl⟩
abbrev main_v148 : Ref sig .tc := ⟨.hbm, 299, rfl⟩
abbrev main_cst_23 : Ref sig .tc := ⟨.hbm, 300, rfl⟩
abbrev main_v149 : Ref sig .tc := ⟨.hbm, 301, rfl⟩
abbrev main_v150 : Ref sig .tc := ⟨.hbm, 302, rfl⟩
abbrev main_v151 : Ref sig .tc := ⟨.hbm, 303, rfl⟩
abbrev main_v152 : Ref sig .tc := ⟨.hbm, 304, rfl⟩
abbrev main_v153 : Ref sig .tc := ⟨.hbm, 305, rfl⟩
abbrev main_v154 : Ref sig .tc := ⟨.hbm, 306, rfl⟩
abbrev main_v155 : Ref sig .tc := ⟨.hbm, 307, rfl⟩
abbrev main_v156 : Ref sig .tc := ⟨.hbm, 308, rfl⟩
abbrev main_v157 : Ref sig .tc := ⟨.hbm, 309, rfl⟩
abbrev main_call10_cst : Ref sig .tc := ⟨.hbm, 310, rfl⟩
abbrev main_call10_v0 : Ref sig .tc := ⟨.hbm, 311, rfl⟩
abbrev main_v158 : Ref sig .tc := ⟨.hbm, 312, rfl⟩
abbrev main_v159 : Ref sig .tc := ⟨.hbm, 313, rfl⟩
abbrev main_v160 : Ref sig .tc := ⟨.hbm, 314, rfl⟩
abbrev main_v161 : Ref sig .tc := ⟨.hbm, 315, rfl⟩
abbrev main_v162 : Ref sig .tc := ⟨.hbm, 316, rfl⟩
abbrev main_v163 : Ref sig .tc := ⟨.hbm, 317, rfl⟩
abbrev main_v164 : Ref sig .tc := ⟨.hbm, 318, rfl⟩
abbrev main_v165 : Ref sig .tc := ⟨.hbm, 319, rfl⟩
abbrev main_cst_24 : Ref sig .tc := ⟨.hbm, 320, rfl⟩
abbrev main_v166 : Ref sig .tc := ⟨.hbm, 321, rfl⟩
abbrev main_v167 : Ref sig .tc := ⟨.hbm, 322, rfl⟩
abbrev main_cst_25 : Ref sig .tc := ⟨.hbm, 323, rfl⟩
abbrev main_v168 : Ref sig .tc := ⟨.hbm, 324, rfl⟩
abbrev main_v169 : Ref sig .tc := ⟨.hbm, 325, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x16_S16x128_1_0 : S128x16.Transposes [1, 0] S16x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  transposes_S128x128_S128x128_1_0 : S128x128.Transposes [1, 0] S128x128
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S512x128 : S_.BroadcastsInDim S512x128 (![] : Fin 0 → Fin S512x128.rank)
  bcast_S50000_S50000x1_0 : S50000.BroadcastsInDim S50000x1 (![0] : Fin 1 → Fin S50000x1.rank)
  concatenates_S512x128_S512x128_S512x256_d1 : Shape.Concatenates [S512x128, S512x128] S512x256 1
  transposes_S256x256_S256x256_1_0 : S256x256.Transposes [1, 0] S256x256
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  transposes_S1x256_S256x1_1_0 : S1x256.Transposes [1, 0] S256x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  dot_S800000x16_S16x128_S800000x128_1_0_0_1_n_n_wf : DotDims.WF S800000x16 S16x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  dot_S512x256_S256x256_S512x256_1_0_0_1_n_n_wf : DotDims.WF S512x256 S256x256 S512x256 [1] [0] [0] [1] [] []
  dot_S512x256_S256x1_S512x1_1_0_0_1_n_n_wf : DotDims.WF S512x256 S256x1 S512x1 [1] [0] [0] [1] [] []

variable [Facts₀]

def dot_S800000x16_S16x128_S800000x128_1_0_0_1_n_n : DotDims S800000x16 S16x128 S800000x128 where
  lhsContracting := [1]
  rhsContracting := [0]
  lhsNonContracting := [0]
  rhsNonContracting := [1]
  lhsBatch := []
  rhsBatch := []
  wf := dot_S800000x16_S16x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

class Facts : Prop extends Facts₀ where

variable [Facts]
-- ==== Proof.RefSegs.lean ====
import proofs.«404850_j82815559401961_3_alg».proof.ReferenceIdeal
import Idealize.ShloMosaic.Lib.StableHlo.Run

noncomputable section

namespace Cert.RSeg

open Idealize.ShloMosaic Idealize.ShloMosaic.StableHlo Cert.ReferenceIdeal Cert.ReferenceIdeal.Facts₀ Cert.ReferenceIdeal.Facts

variable {F : FTy → Type} [FloatOps F] [hR : Cert.ReferenceIdeal.Facts]

abbrev s0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg4 main_v4 ((transpose S16x128 [1, 0] · transposes_S128x16_S16x128_1_0) : (⟨S128x16, .f32⟩ : BufTy).Contents (Elt F) → (⟨S16x128, .f32⟩ : BufTy).Contents (Elt F)),
    StableHlo.binary main_arg2 main_v4 main_v5 ((fun l r => Host.dotGeneral dot_S800000x16_S16x128_S800000x128_1_0_0_1_n_n none l r) : (⟨S800000x16, .f32⟩ : BufTy).Contents (Elt F) → (⟨S16x128, .f32⟩ : BufTy).Contents (Elt F) → (⟨S800000x128, .f32⟩ : BufTy).Contents (Elt F)),
    StableHlo.unary main_arg5 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S800000x128 ![0, 1] bcast_S1x128_S800000x128_0_1 : (⟨S1x128, .f32⟩ : BufTy).Contents (Elt F) → (⟨S800000x128, .f32⟩ : BufTy).Contents (Elt F)),
    StableHlo.binary main_v5 main_v7 main_v8 (addf : (⟨S800000x128, .f32⟩ : BufTy).Contents (Elt F) → (⟨S800000x128, .f32⟩ : BufTy).Contents (Elt F) → (⟨S800000x128, .f32⟩ : BufTy).Contents (Elt F)) ]

abbrev w0 : List (Ref sig .tc) := [main_v0, main_v1, main_v2, main_v3, main_v4, main_v5, main_v6, main_v7, main_v8]

abbrev s1 : List (HloOp τ sig (Elt F)) :=
  [ StableHlo.nullary main_c (constantI S_ 32 0#32),
    StableHlo.unary main_c main_v9 (broadcastInDim S800000 ![] bcast_S_S800000 : (⟨S_, .i32⟩ : BufTy).Contents (Elt F) → (⟨S800000, .i32⟩ : BufTy).Contents (Elt F)),
    StableHlo.binary main_v1 main_v9 main_v10 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v11 (broadcastInDim S800000 ![] bcast_S_S800000 : (⟨S_, .i32⟩ : BufTy).Contents (Elt F) → (⟨S800000, .i32⟩ : BufTy).Contents (Elt F)),
    StableHlo.binary main_v1 main_v11 main_v12 (addi : (⟨S800000, .i32⟩ : BufTy).Contents (Elt F) → (⟨S800000, .i32⟩ : BufTy).Contents (Elt F) → (⟨S800000, .i32⟩ : BufTy).Contents (Elt F)),
    StableHlo.ternary main_v10 main_v12 main_v1 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v13 main_v14 (broadcastInDim S800000x1 ![0] bcast_S800000_S800000x1_0 : (⟨S800000, .i32⟩ : BufTy).Contents (Elt F) → (⟨S800000x1, .i32⟩ : BufTy).Contents (Elt F)),
    StableHlo.binary main_arg0 main_v14 main_v15 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v15 main_v8 main_v16 (addf : (⟨S800000x128, .f32⟩ : BufTy).Contents (Elt F) → (⟨S800000x128, .f32⟩ : BufTy).Contents (Elt F) → (⟨S800000x128, .f32⟩ : BufTy).Contents (Elt F)),
    StableHlo.TRef.nullary main_call0.cst (constant S_ .f32 0x00000000#32),
    StableHlo.TRef.unary main_call0.cst main_call0.v0 (broadcastInDim S800000x128 ![] bcast_S_S800000x128),
    StableHlo.TRef.binary (.of main_v16) main_call0.v0 main_call0.v1 maximumf,
    StableHlo.nullary main_cst (constant S_ .f32 0x00000000#32),
    StableHlo.unary main_cst main_v18 (broadcastInDim S50000x128 ![] bcast_S_S50000x128 : (⟨S_, .f32⟩ : BufTy).Contents (Elt F) → (⟨S50000x128, .f32⟩ : BufTy).Contents (Elt F)),
    StableHlo.unary main_v3 main_v19 (broadcastInDim S800000x1 ![0] bcast_S800000_S800000x1_0 : (⟨S800000, .i32⟩ : BufTy).Contents (Elt F) → (⟨S800000x1, .i32⟩ : BufTy).Contents (Elt F)),
    StableHlo.ternary main_v18 main_v19 main_v17 main_v20 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

abbrev w1 : List (Ref sig .tc) := [main_c, main_v9, main_v10, main_c_0, main_v11, main_v12, main_v13, main_v14, main_v15, main_v16, main_call0_cst, main_call0_v0, main_v17, main_cst, main_v18, main_v19, main_v20]

abbrev s2 : List (HloOp τ sig (Elt F)) :=
  [ StableHlo.nullary main_cst_1 (constant S_ .f32 0x3F800000#32),
    StableHlo.binary main_cst_1 main_arg6 main_v21 (addf : (⟨S_, .f32⟩ : BufTy).Contents (Elt F) → (⟨S_, .f32⟩ : BufTy).Contents (Elt F) → (⟨S_, .f32⟩ : BufTy).Contents (Elt F)),
    StableHlo.unary main_v21 main_v22 (broadcastInDim S50000x128 ![] bcast_S_S50000x128 : (⟨S_, .f32⟩ : BufTy).Contents (Elt F) → (⟨S50000x128, .f32⟩ : BufTy).Contents (Elt F)),
    StableHlo.binary main_v22 main_arg0 main_v23 (mulf : (⟨S50000x128, .f32⟩ : BufTy).Contents (Elt F) → (⟨S50000x128, .f32⟩ : BufTy).Contents (Elt F) → (⟨S50000x128, .f32⟩ : BufTy).Contents (Elt F)),
    StableHlo.binary main_v20 main_v23 main_v24 (addf : (⟨S50000x128, .f32⟩ : BufTy).Contents (Elt F) → (⟨S50000x128, .f32⟩ : BufTy).Contents (Elt F) → (⟨S50000x128, .f32⟩ : BufTy).Contents (Elt F)),
    StableHlo.unary main_arg7 main_v25 ((transpose S128x128 [1, 0] · transposes_S128x128_S128x128_1_0) : (⟨S128x128, .f32⟩ : BufTy).Contents (Elt F) → (⟨S128x128, .f32⟩ : BufTy).Contents (Elt F)),
    StableHlo.binary main_v24 main_v25 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S50000x128 ![0, 1] bcast_S1x128_S50000x128_0_1 : (⟨S1x128, .f32⟩ : BufTy).Contents (Elt F) → (⟨S50000x128, .f32⟩ : BufTy).Contents (Elt F)),
    StableHlo.binary main_v26 main_v28 main_v29 (addf : (⟨S50000x128, .f32⟩ : BufTy).Contents (Elt F) → (⟨S50000x128, .f32⟩ : BufTy).Contents (Elt F) → (⟨S50000x128, .f32⟩ : BufTy).Contents (Elt F)) ]

abbrev w2 : List (Ref sig .tc) := [main_cst_1, main_v21, main_v22, main_v23, main_v24, main_v25, main_v26, main_v27, main_v28, main_v29]

abbrev s3 : List (HloOp τ sig (Elt F)) :=
  [ StableHlo.nullary main_cst_2 (constant S_ .f32 0x00000000#32),
    StableHlo.binary main_v29 main_cst_2 main_v30 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_3 (constant S_ .f32 0x47435000#32),
    StableHlo.unary main_cst_3 main_v31 (broadcastInDim S128 ![] bcast_S_S128 : (⟨S_, .f32⟩ : BufTy).Contents (Elt F) → (⟨S128, .f32⟩ : BufTy).Contents (Elt F)),
    StableHlo.binary main_v30 main_v31 main_v32 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call1.cst (constant S_ .f32 0x00000000#32),
    StableHlo.TRef.binary (.of main_v29) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v29) main_call1.v4 main_call1.v5 subf,
    StableHlo.TRef.binary main_call1.v5 main_call1.v5 main_call1.v6 mulf,
    StableHlo.TRef.unary (.of main_c_4) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

abbrev w3 : List (Ref sig .tc) := [main_cst_2, main_v30, main_cst_3, main_v31, main_v32, main_c_4, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v33]

abbrev s4a : List (HloOp τ sig (Elt F)) :=
  [ StableHlo.unary main_v32 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S50000x128 ![0, 1] bcast_S1x128_S50000x128_0_1 : (⟨S1x128, .f32⟩ : BufTy).Contents (Elt F) → (⟨S50000x128, .f32⟩ : BufTy).Contents (Elt F)),
    StableHlo.binary main_v29 main_v35 main_v36 (subf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x3727C5AC#32),
    StableHlo.unary main_cst_5 main_v37 (broadcastInDim S128 ![] bcast_S_S128 : (⟨S_, .f32⟩ : BufTy).Contents (Elt F) → (⟨S128, .f32⟩ : BufTy).Contents (Elt F)),
    StableHlo.binary main_v33 main_v37 main_v38 (addf : (⟨S128, .f32⟩ : BufTy).Contents (Elt F) → (⟨S128, .f32⟩ : BufTy).Contents (Elt F) → (⟨S128, .f32⟩ : BufTy).Contents (Elt F)),
    StableHlo.unary main_v38 main_v39 (Host.rsqrt : (⟨S128, .f32⟩ : BufTy).Contents (Elt F) → (⟨S128, .f32⟩ : BufTy).Contents (Elt F)),
    StableHlo.unary main_v39 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v41 main_v42 (mulf : (⟨S50000x128, .f32⟩ : BufTy).Contents (Elt F) → (⟨S50000x128, .f32⟩ : BufTy).Contents (Elt F) → (⟨S50000x128, .f32⟩ : BufTy).Contents (Elt F)),
    StableHlo.unary main_arg9 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v42 main_v44 main_v45 (mulf : (⟨S50000x128, .f32⟩ : BufTy).Contents (Elt F) → (⟨S50000x128, .f32⟩ : BufTy).Contents (Elt F) → (⟨S50000x128, .f32⟩ : BufTy).Contents (Elt F)),
    StableHlo.unary main_arg10 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v48) main_call2.v0 main_call2.v1 maximumf,
    StableHlo.unary main_arg11 main_v50 ((transpose S128x128 [1, 0] · transposes_S128x128_S128x128_1_0) : (⟨S128x128, .f32⟩ : BufTy).Contents (Elt F) → (⟨S128x128, .f32⟩ : BufTy).Contents (Elt F)),
    StableHlo.binary main_v49 main_v50 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

abbrev w4a : List (Ref sig .tc) := [main_v34, main_v35, main_v36, main_cst_5, main_v37, main_v38, main_v39, main_v40, main_v41, main_v42, main_v43, main_v44, main_v45, main_v46, main_v47, main_v48, main_call2_cst, main_call2_v0, main_v49, main_v50, main_v51]

abbrev s4b : List (HloOp τ sig (Elt F)) :=
  [ StableHlo.unary main_arg12 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v53 main_v54 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v54) main_call3.v0 main_call3.v1 maximumf ]

abbrev w4b : List (Ref sig .tc) := [main_v52, main_v53, main_v54, main_call3_cst, main_call3_v0, main_v55]

abbrev s5 : List (HloOp τ sig (Elt F)) :=
  [ StableHlo.nullary main_cst_6 (constant S_ .f32 0x00000000#32),
    StableHlo.binary main_v55 main_cst_6 main_v56 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_7 (constant S_ .f32 0x47435000#32),
    StableHlo.unary main_cst_7 main_v57 (broadcastInDim S128 ![] bcast_S_S128 : (⟨S_, .f32⟩ : BufTy).Contents (Elt F) → (⟨S128, .f32⟩ : BufTy).Contents (Elt F)),
    StableHlo.binary main_v56 main_v57 main_v58 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call4.cst (constant S_ .f32 0x00000000#32),
    StableHlo.TRef.binary (.of main_v55) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v55) main_call4.v4 main_call4.v5 subf,
    StableHlo.TRef.binary main_call4.v5 main_call4.v5 main_call4.v6 mulf,
    StableHlo.TRef.unary (.of main_c_8) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

abbrev w5 : List (Ref sig .tc) := [main_cst_6, main_v56, main_cst_7, main_v57, main_v58, main_c_8, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v59]

abbrev s6 : List (HloOp τ sig (Elt F)) :=
  [ StableHlo.unary main_v58 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S50000x128 ![0, 1] bcast_S1x128_S50000x128_0_1 : (⟨S1x128, .f32⟩ : BufTy).Contents (Elt F) → (⟨S50000x128, .f32⟩ : BufTy).Contents (Elt F)),
    StableHlo.binary main_v55 main_v61 main_v62 (subf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3727C5AC#32),
    StableHlo.unary main_cst_9 main_v63 (broadcastInDim S128 ![] bcast_S_S128 : (⟨S_, .f32⟩ : BufTy).Contents (Elt F) → (⟨S128, .f32⟩ : BufTy).Contents (Elt F)),
    StableHlo.binary main_v59 main_v63 main_v64 (addf : (⟨S128, .f32⟩ : BufTy).Contents (Elt F) → (⟨S128, .f32⟩ : BufTy).Contents (Elt F) → (⟨S128, .f32⟩ : BufTy).Contents (Elt F)),
    StableHlo.unary main_v64 main_v65 (Host.rsqrt : (⟨S128, .f32⟩ : BufTy).Contents (Elt F) → (⟨S128, .f32⟩ : BufTy).Contents (Elt F)),
    StableHlo.unary main_v65 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S50000x128 ![0, 1] bcast_S1x128_S50000x128_0_1 : (⟨S1x128, .f32⟩ : BufTy).Contents (Elt F) → (⟨S50000x128, .f32⟩ : BufTy).Contents (Elt F)),
    StableHlo.binary main_v62 main_v67 main_v68 (mulf : (⟨S50000x128, .f32⟩ : BufTy).Contents (Elt F) → (⟨S50000x128, .f32⟩ : BufTy).Contents (Elt F) → (⟨S50000x128, .f32⟩ : BufTy).Contents (Elt F)),
    StableHlo.unary main_arg13 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v70 main_v71 (mulf : (⟨S50000x128, .f32⟩ : BufTy).Contents (Elt F) → (⟨S50000x128, .f32⟩ : BufTy).Contents (Elt F) → (⟨S50000x128, .f32⟩ : BufTy).Contents (Elt F)),
    StableHlo.unary main_arg14 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v73 main_v74 (addf : (⟨S50000x128, .f32⟩ : BufTy).Contents (Elt F) → (⟨S50000x128, .f32⟩ : BufTy).Contents (Elt F) → (⟨S50000x128, .f32⟩ : BufTy).Contents (Elt F)) ]

abbrev w6 : List (Ref sig .tc) := [main_v60, main_v61, main_v62, main_cst_9, main_v63, main_v64, main_v65, main_v66, main_v67, main_v68, main_v69, main_v70, main_v71, main_v72, main_v73, main_v74]

abbrev s7 : List (HloOp τ sig (Elt F)) :=
  [ StableHlo.unary main_arg15 main_v75 ((transpose S16x128 [1, 0] · transposes_S128x16_S16x128_1_0) : (⟨S128x16, .f32⟩ : BufTy).Contents (Elt F) → (⟨S16x128, .f32⟩ : BufTy).Contents (Elt F)),
    StableHlo.binary main_arg2 main_v75 main_v76 ((fun l r => Host.dotGeneral dot_S800000x16_S16x128_S800000x128_1_0_0_1_n_n none l r) : (⟨S800000x16, .f32⟩ : BufTy).Contents (Elt F) → (⟨S16x128, .f32⟩ : BufTy).Contents (Elt F) → (⟨S800000x128, .f32⟩ : BufTy).Contents (Elt F)),
    StableHlo.unary main_arg16 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S800000x128 ![0, 1] bcast_S1x128_S800000x128_0_1 : (⟨S1x128, .f32⟩ : BufTy).Contents (Elt F) → (⟨S800000x128, .f32⟩ : BufTy).Contents (Elt F)),
    StableHlo.binary main_v76 main_v78 main_v79 (addf : (⟨S800000x128, .f32⟩ : BufTy).Contents (Elt F) → (⟨S800000x128, .f32⟩ : BufTy).Contents (Elt F) → (⟨S800000x128, .f32⟩ : BufTy).Contents (Elt F)) ]

abbrev w7 : List (Ref sig .tc) := [main_v75, main_v76, main_v77, main_v78, main_v79]

abbrev s8 : List (HloOp τ sig (Elt F)) :=
  [ StableHlo.nullary main_c_10 (constantI S_ 32 0#32),
    StableHlo.unary main_c_10 main_v80 (broadcastInDim S800000 ![] bcast_S_S800000 : (⟨S_, .i32⟩ : BufTy).Contents (Elt F) → (⟨S800000, .i32⟩ : BufTy).Contents (Elt F)),
    StableHlo.binary main_v1 main_v80 main_v81 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v82 (broadcastInDim S800000 ![] bcast_S_S800000 : (⟨S_, .i32⟩ : BufTy).Contents (Elt F) → (⟨S800000, .i32⟩ : BufTy).Contents (Elt F)),
    StableHlo.binary main_v1 main_v82 main_v83 (addi : (⟨S800000, .i32⟩ : BufTy).Contents (Elt F) → (⟨S800000, .i32⟩ : BufTy).Contents (Elt F) → (⟨S800000, .i32⟩ : BufTy).Contents (Elt F)),
    StableHlo.ternary main_v81 main_v83 main_v1 main_v84 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v84 main_v85 (broadcastInDim S800000x1 ![0] bcast_S800000_S800000x1_0 : (⟨S800000, .i32⟩ : BufTy).Contents (Elt F) → (⟨S800000x1, .i32⟩ : BufTy).Contents (Elt F)),
    StableHlo.binary main_v74 main_v85 main_v86 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v86 main_v79 main_v87 (addf : (⟨S800000x128, .f32⟩ : BufTy).Contents (Elt F) → (⟨S800000x128, .f32⟩ : BufTy).Contents (Elt F) → (⟨S800000x128, .f32⟩ : BufTy).Contents (Elt F)),
    StableHlo.TRef.nullary main_call5.cst (constant S_ .f32 0x00000000#32),
    StableHlo.TRef.unary main_call5.cst main_call5.v0 (broadcastInDim S800000x128 ![] bcast_S_S800000x128),
    StableHlo.TRef.binary (.of main_v87) main_call5.v0 main_call5.v1 maximumf,
    StableHlo.nullary main_cst_12 (constant S_ .f32 0x00000000#32),
    StableHlo.unary main_cst_12 main_v89 (broadcastInDim S50000x128 ![] bcast_S_S50000x128 : (⟨S_, .f32⟩ : BufTy).Contents (Elt F) → (⟨S50000x128, .f32⟩ : BufTy).Contents (Elt F)),
    StableHlo.unary main_v3 main_v90 (broadcastInDim S800000x1 ![0] bcast_S800000_S800000x1_0 : (⟨S800000, .i32⟩ : BufTy).Contents (Elt F) → (⟨S800000x1, .i32⟩ : BufTy).Contents (Elt F)),
    StableHlo.ternary main_v89 main_v90 main_v88 main_v91 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

abbrev w8 : List (Ref sig .tc) := [main_c_10, main_v80, main_v81, main_c_11, main_v82, main_v83, main_v84, main_v85, main_v86, main_v87, main_call5_cst, main_call5_v0, main_v88, main_cst_12, main_v89, main_v90, main_v91]

abbrev s9 : List (HloOp τ sig (Elt F)) :=
  [ StableHlo.nullary main_cst_13 (constant S_ .f32 0x3F800000#32),
    StableHlo.binary main_cst_13 main_arg17 main_v92 (addf : (⟨S_, .f32⟩ : BufTy).Contents (Elt F) → (⟨S_, .f32⟩ : BufTy).Contents (Elt F) → (⟨S_, .f32⟩ : BufTy).Contents (Elt F)),
    StableHlo.unary main_v92 main_v93 (broadcastInDim S50000x128 ![] bcast_S_S50000x128 : (⟨S_, .f32⟩ : BufTy).Contents (Elt F) → (⟨S50000x128, .f32⟩ : BufTy).Contents (Elt F)),
    StableHlo.binary main_v93 main_v74 main_v94 (mulf : (⟨S50000x128, .f32⟩ : BufTy).Contents (Elt F) → (⟨S50000x128, .f32⟩ : BufTy).Contents (Elt F) → (⟨S50000x128, .f32⟩ : BufTy).Contents (Elt F)),
    StableHlo.binary main_v91 main_v94 main_v95 (addf : (⟨S50000x128, .f32⟩ : BufTy).Contents (Elt F) → (⟨S50000x128, .f32⟩ : BufTy).Contents (Elt F) → (⟨S50000x128, .f32⟩ : BufTy).Contents (Elt F)),
    StableHlo.unary main_arg18 main_v96 ((transpose S128x128 [1, 0] · transposes_S128x128_S128x128_1_0) : (⟨S128x128, .f32⟩ : BufTy).Contents (Elt F) → (⟨S128x128, .f32⟩ : BufTy).Contents (Elt F)),
    StableHlo.binary main_v95 main_v96 main_v97 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg19 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v97 main_v99 main_v100 (addf : (⟨S50000x128, .f32⟩ : BufTy).Contents (Elt F) → (⟨S50000x128, .f32⟩ : BufTy).Contents (Elt F) → (⟨S50000x128, .f32⟩ : BufTy).Contents (Elt F)) ]

abbrev w9 : List (Ref sig .tc) := [main_cst_13, main_v92, main_v93, main_v94, main_v95, main_v96, main_v97, main_v98, main_v99, main_v100]

abbrev s10a : List (HloOp τ sig (Elt F)) :=
  [ StableHlo.nullary main_cst_14 (constant S_ .f32 0x00000000#32),
    StableHlo.binary main_v100 main_cst_14 main_v101 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32) ]

abbrev w10a : List (Ref sig .tc) := [main_cst_14, main_v101, main_cst_15]

abbrev s10b : List (HloOp τ sig (Elt F)) :=
  [ StableHlo.unary main_cst_15 main_v102 (broadcastInDim S128 ![] bcast_S_S128 : (⟨S_, .f32⟩ : BufTy).Contents (Elt F) → (⟨S128, .f32⟩ : BufTy).Contents (Elt F)),
    StableHlo.binary main_v101 main_v102 main_v103 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call6.cst (constant S_ .f32 0x00000000#32),
    StableHlo.TRef.binary (.of main_v100) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v100) main_call6.v4 main_call6.v5 subf,
    StableHlo.TRef.binary main_call6.v5 main_call6.v5 main_call6.v6 mulf,
    StableHlo.TRef.unary (.of main_c_16) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b) ]

abbrev w10b : List (Ref sig .tc) := [main_v102, main_v103, main_c_16, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v104]

abbrev s11 : List (HloOp τ sig (Elt F)) :=
  [ StableHlo.unary main_v103 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v106 main_v107 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v108 (broadcastInDim S128 ![] bcast_S_S128 : (⟨S_, .f32⟩ : BufTy).Contents (Elt F) → (⟨S128, .f32⟩ : BufTy).Contents (Elt F)),
    StableHlo.binary main_v104 main_v108 main_v109 (addf : (⟨S128, .f32⟩ : BufTy).Contents (Elt F) → (⟨S128, .f32⟩ : BufTy).Contents (Elt F) → (⟨S128, .f32⟩ : BufTy).Contents (Elt F)),
    StableHlo.unary main_v109 main_v110 (Host.rsqrt : (⟨S128, .f32⟩ : BufTy).Contents (Elt F) → (⟨S128, .f32⟩ : BufTy).Contents (Elt F)),
    StableHlo.unary main_v110 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S50000x128 ![0, 1] bcast_S1x128_S50000x128_0_1 : (⟨S1x128, .f32⟩ : BufTy).Contents (Elt F) → (⟨S50000x128, .f32⟩ : BufTy).Contents (Elt F)),
    StableHlo.binary main_v107 main_v112 main_v113 (mulf : (⟨S50000x128, .f32⟩ : BufTy).Contents (Elt F) → (⟨S50000x128, .f32⟩ : BufTy).Contents (Elt F) → (⟨S50000x128, .f32⟩ : BufTy).Contents (Elt F)),
    StableHlo.unary main_arg20 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S50000x128 ![0, 1] bcast_S1x128_S50000x128_0_1 : (⟨S1x128, .f32⟩ : BufTy).Contents (Elt F) → (⟨S50000x128, .f32⟩ : BufTy).Contents (Elt F)),
    StableHlo.binary main_v113 main_v115 main_v116 (mulf : (⟨S50000x128, .f32⟩ : BufTy).Contents (Elt F) → (⟨S50000x128, .f32⟩ : BufTy).Contents (Elt F) → (⟨S50000x128, .f32⟩ : BufTy).Contents (Elt F)),
    StableHlo.unary main_arg21 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S50000x128 ![0, 1] bcast_S1x128_S50000x128_0_1 : (⟨S1x128, .f32⟩ : BufTy).Contents (Elt F) → (⟨S50000x128, .f32⟩ : BufTy).Contents (Elt F)),
    StableHlo.binary main_v116 main_v118 main_v119 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v119) main_call7.v0 main_call7.v1 maximumf,
    StableHlo.unary main_arg22 main_v121 ((transpose S128x128 [1, 0] · transposes_S128x128_S128x128_1_0) : (⟨S128x128, .f32⟩ : BufTy).Contents (Elt F) → (⟨S128x128, .f32⟩ : BufTy).Contents (Elt F)),
    StableHlo.binary main_v120 main_v121 main_v122 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg23 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S50000x128 ![0, 1] bcast_S1x128_S50000x128_0_1 : (⟨S1x128, .f32⟩ : BufTy).Contents (Elt F) → (⟨S50000x128, .f32⟩ : BufTy).Contents (Elt F)),
    StableHlo.binary main_v122 main_v124 main_v125 (addf : (⟨S50000x128, .f32⟩ : BufTy).Contents (Elt F) → (⟨S50000x128, .f32⟩ : BufTy).Contents (Elt F) → (⟨S50000x128, .f32⟩ : BufTy).Contents (Elt F)),
    StableHlo.TRef.nullary main_call8.cst (constant S_ .f32 0x00000000#32),
    StableHlo.TRef.unary main_call8.cst main_call8.v0 (broadcastInDim S50000x128 ![] bcast_S_S50000x128),
    StableHlo.TRef.binary (.of main_v125) main_call8.v0 main_call8.v1 maximumf ]

abbrev w11 : List (Ref sig .tc) := [main_v105, main_v106, main_v107, main_cst_17, main_v108, main_v109, main_v110, main_v111, main_v112, main_v113, main_v114, main_v115, main_v116, main_v117, main_v118, main_v119, main_call7_cst, main_call7_v0, main_v120, main_v121, main_v122, main_v123, main_v124, main_v125, main_call8_cst, main_call8_v0, main_v126]

abbrev s12 : List (HloOp τ sig (Elt F)) :=
  [ StableHlo.nullary main_cst_18 (constant S_ .f32 0x00000000#32),
    StableHlo.binary main_v126 main_cst_18 main_v127 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_19 (constant S_ .f32 0x47435000#32),
    StableHlo.unary main_cst_19 main_v128 (broadcastInDim S128 ![] bcast_S_S128 : (⟨S_, .f32⟩ : BufTy).Contents (Elt F) → (⟨S128, .f32⟩ : BufTy).Contents (Elt F)),
    StableHlo.binary main_v127 main_v128 main_v129 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call9.cst (constant S_ .f32 0x00000000#32),
    StableHlo.TRef.binary (.of main_v126) main_call9.cst main_call9.v0 (fun x v => Host.reduceAdd x v reducesTo_S50000x128_S128_d0 h_S_),
    StableHlo.TRef.unary main_call9.v0 main_call9.v1 (broadcastInDim S1x128 ![1] bcast_S128_S1x128_1),
    StableHlo.TRef.nullary main_call9.cst_0 (constant S_ .f32 0x47435000#32),
    StableHlo.TRef.unary main_call9.cst_0 main_call9.v2 (broadcastInDim S1x128 ![] bcast_S_S1x128),
    StableHlo.TRef.binary main_call9.v1 main_call9.v2 main_call9.v3 Host.divf,
    StableHlo.TRef.unary main_call9.v3 main_call9.v4 (broadcastInDim S50000x128 ![0, 1] bcast_S1x128_S50000x128_0_1),
    StableHlo.TRef.binary (.of main_v126) main_call9.v4 main_call9.v5 subf,
    StableHlo.TRef.binary main_call9.v5 main_call9.v5 main_call9.v6 mulf,
    StableHlo.TRef.unary (.of main_c_20) main_call9.v7 (sitofp .f32),
    StableHlo.TRef.nullary main_call9.cst_1 (constant S_ .f32 0x47435000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S50000x128_S128_d0 h_S_),
    StableHlo.TRef.unary main_call9.v8 main_call9.v10 (broadcastInDim S128 ![] bcast_S_S128),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S128 ![] bcast_S_S128),
    StableHlo.TRef.ternary main_call9.v12 main_call9.v11 main_call9.call0.v1 main_call9.call0.v2 (fun p a b => select (broadcastInDim S128 ![] bcast_S_S128 p) a b) ]

abbrev w12 : List (Ref sig .tc) := [main_cst_18, main_v127, main_cst_19, main_v128, main_v129, main_c_20, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v130]

abbrev s13 : List (HloOp τ sig (Elt F)) :=
  [ StableHlo.unary main_v129 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S50000x128 ![0, 1] bcast_S1x128_S50000x128_0_1 : (⟨S1x128, .f32⟩ : BufTy).Contents (Elt F) → (⟨S50000x128, .f32⟩ : BufTy).Contents (Elt F)),
    StableHlo.binary main_v126 main_v132 main_v133 (subf : (⟨S50000x128, .f32⟩ : BufTy).Contents (Elt F) → (⟨S50000x128, .f32⟩ : BufTy).Contents (Elt F) → (⟨S50000x128, .f32⟩ : BufTy).Contents (Elt F)),
    StableHlo.nullary main_cst_21 (constant S_ .f32 0x3727C5AC#32),
    StableHlo.unary main_cst_21 main_v134 (broadcastInDim S128 ![] bcast_S_S128 : (⟨S_, .f32⟩ : BufTy).Contents (Elt F) → (⟨S128, .f32⟩ : BufTy).Contents (Elt F)),
    StableHlo.binary main_v130 main_v134 main_v135 (addf : (⟨S128, .f32⟩ : BufTy).Contents (Elt F) → (⟨S128, .f32⟩ : BufTy).Contents (Elt F) → (⟨S128, .f32⟩ : BufTy).Contents (Elt F)),
    StableHlo.unary main_v135 main_v136 (Host.rsqrt : (⟨S128, .f32⟩ : BufTy).Contents (Elt F) → (⟨S128, .f32⟩ : BufTy).Contents (Elt F)),
    StableHlo.unary main_v136 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S50000x128 ![0, 1] bcast_S1x128_S50000x128_0_1 : (⟨S1x128, .f32⟩ : BufTy).Contents (Elt F) → (⟨S50000x128, .f32⟩ : BufTy).Contents (Elt F)),
    StableHlo.binary main_v133 main_v138 main_v139 (mulf : (⟨S50000x128, .f32⟩ : BufTy).Contents (Elt F) → (⟨S50000x128, .f32⟩ : BufTy).Contents (Elt F) → (⟨S50000x128, .f32⟩ : BufTy).Contents (Elt F)),
    StableHlo.unary main_arg24 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S50000x128 ![0, 1] bcast_S1x128_S50000x128_0_1 : (⟨S1x128, .f32⟩ : BufTy).Contents (Elt F) → (⟨S50000x128, .f32⟩ : BufTy).Contents (Elt F)),
    StableHlo.binary main_v139 main_v141 main_v142 (mulf : (⟨S50000x128, .f32⟩ : BufTy).Contents (Elt F) → (⟨S50000x128, .f32⟩ : BufTy).Contents (Elt F) → (⟨S50000x128, .f32⟩ : BufTy).Contents (Elt F)),
    StableHlo.unary main_arg25 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S50000x128 ![0, 1] bcast_S1x128_S50000x128_0_1 : (⟨S1x128, .f32⟩ : BufTy).Contents (Elt F) → (⟨S50000x128, .f32⟩ : BufTy).Contents (Elt F)),
    StableHlo.binary main_v142 main_v144 main_v145 (addf : (⟨S50000x128, .f32⟩ : BufTy).Contents (Elt F) → (⟨S50000x128, .f32⟩ : BufTy).Contents (Elt F) → (⟨S50000x128, .f32⟩ : BufTy).Contents (Elt F)) ]

abbrev w13 : List (Ref sig .tc) := [main_v131, main_v132, main_v133, main_cst_21, main_v134, main_v135, main_v136, main_v137, main_v138, main_v139, main_v140, main_v141, main_v142, main_v143, main_v144, main_v145]

abbrev s14 : List (HloOp τ sig (Elt F)) :=
  [ StableHlo.nullary main_cst_22 (constant S_ .f32 0x00000000#32),
    StableHlo.unary main_cst_22 main_v146 (broadcastInDim S512x128 ![] bcast_S_S512x128 : (⟨S_, .f32⟩ : BufTy).Contents (Elt F) → (⟨S512x128, .f32⟩ : BufTy).Contents (Elt F)),
    StableHlo.unary main_arg3 main_v147 (broadcastInDim S50000x1 ![0] bcast_S50000_S50000x1_0 : (⟨S50000, .i32⟩ : BufTy).Contents (Elt F) → (⟨S50000x1, .i32⟩ : BufTy).Contents (Elt F)),
    StableHlo.ternary main_v146 main_v147 main_v74 main_v148 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.nullary main_cst_23 (constant S_ .f32 0x00000000#32),
    StableHlo.unary main_cst_23 main_v149 (broadcastInDim S512x128 ![] bcast_S_S512x128 : (⟨S_, .f32⟩ : BufTy).Contents (Elt F) → (⟨S512x128, .f32⟩ : BufTy).Contents (Elt F)),
    StableHlo.unary main_arg3 main_v150 (broadcastInDim S50000x1 ![0] bcast_S50000_S50000x1_0 : (⟨S50000, .i32⟩ : BufTy).Contents (Elt F) → (⟨S50000x1, .i32⟩ : BufTy).Contents (Elt F)),
    StableHlo.ternary main_v149 main_v150 main_v145 main_v151 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.binary main_v148 main_v151 main_v152 ((fun a b => concatenate S512x256 1 [⟨S512x128, a⟩, ⟨S512x128, b⟩] concatenates_S512x128_S512x128_S512x256_d1) : (⟨S512x128, .f32⟩ : BufTy).Contents (Elt F) → (⟨S512x128, .f32⟩ : BufTy).Contents (Elt F) → (⟨S512x256, .f32⟩ : BufTy).Contents (Elt F)) ]

abbrev w14 : List (Ref sig .tc) := [main_cst_22, main_v146, main_v147, main_v148, main_cst_23, main_v149, main_v150, main_v151, main_v152]

abbrev s15a : List (HloOp τ sig (Elt F)) :=
  [ StableHlo.unary main_arg26 main_v153 ((transpose S256x256 [1, 0] · transposes_S256x256_S256x256_1_0) : (⟨S256x256, .f32⟩ : BufTy).Contents (Elt F) → (⟨S256x256, .f32⟩ : BufTy).Contents (Elt F)) ]

abbrev w15a : List (Ref sig .tc) := [main_v153]

abbrev s15b : List (HloOp τ sig (Elt F)) :=
  [ StableHlo.binary main_v152 main_v153 main_v154 ((fun l r => Host.dotGeneral dot_S512x256_S256x256_S512x256_1_0_0_1_n_n none l r) : (⟨S512x256, .f32⟩ : BufTy).Contents (Elt F) → (⟨S256x256, .f32⟩ : BufTy).Contents (Elt F) → (⟨S512x256, .f32⟩ : BufTy).Contents (Elt F)),
    StableHlo.unary main_arg27 main_v155 (broadcastInDim S1x256 ![1] bcast_S256_S1x256_1 : (⟨S256, .f32⟩ : BufTy).Contents (Elt F) → (⟨S1x256, .f32⟩ : BufTy).Contents (Elt F)),
    StableHlo.unary main_v155 main_v156 (broadcastInDim S512x256 ![0, 1] bcast_S1x256_S512x256_0_1 : (⟨S1x256, .f32⟩ : BufTy).Contents (Elt F) → (⟨S512x256, .f32⟩ : BufTy).Contents (Elt F)),
    StableHlo.binary main_v154 main_v156 main_v157 (addf : (⟨S512x256, .f32⟩ : BufTy).Contents (Elt F) → (⟨S512x256, .f32⟩ : BufTy).Contents (Elt F) → (⟨S512x256, .f32⟩ : BufTy).Contents (Elt F)),
    StableHlo.TRef.nullary main_call10.cst (constant S_ .f32 0x00000000#32),
    StableHlo.TRef.unary main_call10.cst main_call10.v0 (broadcastInDim S512x256 ![] bcast_S_S512x256),
    StableHlo.TRef.binary (.of main_v157) main_call10.v0 main_call10.v1 maximumf,
    StableHlo.unary main_arg28 main_v159 ((transpose S256x1 [1, 0] · transposes_S1x256_S256x1_1_0) : (⟨S1x256, .f32⟩ : BufTy).Contents (Elt F) → (⟨S256x1, .f32⟩ : BufTy).Contents (Elt F)),
    StableHlo.binary main_v158 main_v159 main_v160 ((fun l r => Host.dotGeneral dot_S512x256_S256x1_S512x1_1_0_0_1_n_n none l r) : (⟨S512x256, .f32⟩ : BufTy).Contents (Elt F) → (⟨S256x1, .f32⟩ : BufTy).Contents (Elt F) → (⟨S512x1, .f32⟩ : BufTy).Contents (Elt F)),
    StableHlo.unary main_arg29 main_v161 (broadcastInDim S1x1 ![1] bcast_S1_S1x1_1 : (⟨S1, .f32⟩ : BufTy).Contents (Elt F) → (⟨S1x1, .f32⟩ : BufTy).Contents (Elt F)),
    StableHlo.unary main_v161 main_v162 (broadcastInDim S512x1 ![0, 1] bcast_S1x1_S512x1_0_1 : (⟨S1x1, .f32⟩ : BufTy).Contents (Elt F) → (⟨S512x1, .f32⟩ : BufTy).Contents (Elt F)),
    StableHlo.binary main_v160 main_v162 main_v163 (addf : (⟨S512x1, .f32⟩ : BufTy).Contents (Elt F) → (⟨S512x1, .f32⟩ : BufTy).Contents (Elt F) → (⟨S512x1, .f32⟩ : BufTy).Contents (Elt F)),
    StableHlo.unary main_v163 main_v164 (Host.negf : (⟨S512x1, .f32⟩ : BufTy).Contents (Elt F) → (⟨S512x1, .f32⟩ : BufTy).Contents (Elt F)),
    StableHlo.unary main_v164 main_v165 (Host.exp : (⟨S512x1, .f32⟩ : BufTy).Contents (Elt F) → (⟨S512x1, .f32⟩ : BufTy).Contents (Elt F)),
    StableHlo.nullary main_cst_24 (constant S_ .f32 0x3F800000#32),
    StableHlo.unary main_cst_24 main_v166 (broadcastInDim S512x1 ![] bcast_S_S512x1 : (⟨S_, .f32⟩ : BufTy).Contents (Elt F) → (⟨S512x1, .f32⟩ : BufTy).Contents (Elt F)),
    StableHlo.binary main_v166 main_v165 main_v167 (addf : (⟨S512x1, .f32⟩ : BufTy).Contents (Elt F) → (⟨S512x1, .f32⟩ : BufTy).Contents (Elt F) → (⟨S512x1, .f32⟩ : BufTy).Contents (Elt F)),
    StableHlo.nullary main_cst_25 (constant S_ .f32 0x3F800000#32),
    StableHlo.unary main_cst_25 main_v168 (broadcastInDim S512x1 ![] bcast_S_S512x1 : (⟨S_, .f32⟩ : BufTy).Contents (Elt F) → (⟨S512x1, .f32⟩ : BufTy).Contents (Elt F)),
    StableHlo.binary main_v168 main_v167 main_v169 (Host.divf : (⟨S512x1, .f32⟩ : BufTy).Contents (Elt F) → (⟨S512x1, .f32⟩ : BufTy).Contents (Elt F) → (⟨S512x1, .f32⟩ : BufTy).Contents (Elt F)) ]

abbrev w15b : List (Ref sig .tc) := [main_v154, main_v155, main_v156, main_v157, main_call10_cst, main_call10_v0, main_v158, main_v159, main_v160, main_v161, main_v162, main_v163, main_v164, main_v165, main_cst_24, main_v166, main_v167, main_cst_25, main_v168, main_v169]

/-- The reference's 296 host operations in order, cut into 19 consecutive lines. -/
abbrev segs : List (List (HloOp τ sig (Elt F))) := [s0, s1, s2, s3, s4a, s4b, s5, s6, s7, s8, s9, s10a, s10b, s11, s12, s13, s14, s15a, s15b]

/-- The buffer each operation writes, line by line. -/
abbrev outs : List (List (Ref sig .tc)) := [w0, w1, w2, w3, w4a, w4b, w5, w6, w7, w8, w9, w10a, w10b, w11, w12, w13, w14, w15a, w15b]

end Cert.RSeg

end
-- ==== Proof.RefRun.lean ====
import proofs.«404850_j82815559401961_3_alg».proof.Proof.RefSegs
import Idealize.ShloMosaic.Lib.StableHlo.Run

noncomputable section

namespace Cert.RRun

open Idealize.ShloMosaic Idealize.ShloMosaic.TcCoe Idealize.SL.Sem Idealize.ShloMosaic.StableHlo Cert.ReferenceIdeal Cert.ReferenceIdeal.Facts₀ Cert.ReferenceIdeal.Facts Cert.RSeg

variable {F : FTy → Type} [FloatOps F] [hR : Cert.ReferenceIdeal.Facts]

abbrev p0 : List (HloOp τ sig (Elt F)) := s0 ++ s1 ++ s2 ++ s3 ++ s4a
abbrev p1 : List (HloOp τ sig (Elt F)) := s4b ++ s5 ++ s6 ++ s7 ++ s8 ++ s9 ++ s10a
abbrev p2 : List (HloOp τ sig (Elt F)) := s10b ++ s11 ++ s12 ++ s13 ++ s14 ++ s15a

/-- The reference's 296 host operations in order, grouped as the four parts of its program text. -/
abbrev refOps : List (HloOp τ sig (Elt F)) := p0 ++ (p1 ++ (p2 ++ s15b))

set_option maxRecDepth 16384 in
set_option maxHeartbeats 8000000 in
/-- Each part is a straight line: the called functions' bodies unfolded at their calls and the sequencing reassociated. -/
theorem parts_eq (c : Dev nD) : main_part0 (F := F) c = seq p0 ∧ main_part1 (F := F) c = seq p1 ∧
    main_part2 (F := F) c = seq p2 ∧ main_part3 (F := F) c = seq s15b := by
  refine ⟨?_, ?_, ?_, ?_⟩ <;>
    simp only [main_part0, main_part1, main_part2, main_part3, fn_relu.body, fn_relu_0.body, fn_relu_1.body, fn_var.body,
      fn_where.body, List.cons_append, List.nil_append, seq, bind_assoc, pure_bind] <;> rfl

theorem main_eq (c : Dev nD) : main (F := F) c = seq refOps := by
  obtain ⟨h0, h1, h2, h3⟩ := parts_eq (F := F) c
  rw [seq_append p0, seq_append p1, seq_append p2, ← h0, ← h1, ← h2, ← h3]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the list reads and writes the program's own buffers only and allocates none. -/
def AllOk (l : List (HloOp τ sig (Elt F))) : Prop := ∀ op ∈ l, op.bufs ⊆ tcRefs τ sig ∧ op.fresh = ∅

theorem AllOk.nil : AllOk ([] : List (HloOp τ sig (Elt F))) := fun _ h => by cases h

theorem AllOk.cons {a : HloOp τ sig (Elt F)} {l : List (HloOp τ sig (Elt F))} (hb : a.bufs ⊆ tcRefs τ sig) (hf : a.fresh = ∅)
    (hl : AllOk l) : AllOk (a :: l) :=
  List.forall_mem_cons.mpr ⟨⟨hb, hf⟩, hl⟩

theorem AllOk.append {l₁ l₂ : List (HloOp τ sig (Elt F))} (h₁ : AllOk l₁) (h₂ : AllOk l₂) : AllOk (l₁ ++ l₂) :=
  fun x hx => (List.mem_append.mp hx).elim (h₁ x) (h₂ x)

theorem ops_ok : AllOk (refOps (F := F)) := by
  repeat' first
    | with_reducible first
        | exact nullary_bufs_sub .. | exact unary_bufs_sub .. | exact binary_bufs_sub .. | exact ternary_bufs_sub ..
        | exact reshape_bufs_sub .. | exact AllOk.nil | apply AllOk.append | apply AllOk.cons
    | exact rfl

/-- Every weakly fair execution of the reference terminates, each buffer ending at the operations' fold over its first contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after refOps (launchContents m c) (Proc.devRef .tc b) :=
  run_seq scopedRefs_eq scopedSems_eq defs main (fun _ => refOps) main_eq
    (fun _ => List.forall_iff_forall_mem.mpr fun op h => (ops_ok op h).1) m ρ (fun _ op h => (ops_ok op h).2)

end Cert.RRun

end
-- ==== Proof.Stage.lean ====
import proofs.«404850_j82815559401961_3_alg».proof.ReferenceIdeal
import Idealize.ShloMosaic.PureOps.Ideal
import Idealize.ShloMosaic.Lib.ValueIdx

noncomputable section

namespace Cert.Stage

open Idealize.ShloMosaic Cert.ReferenceIdeal Cert.ReferenceIdeal.Facts₀ Cert.ReferenceIdeal.Facts

variable {F : FTy → Type} [FloatOps F] [hR : Cert.ReferenceIdeal.Facts]

def row (v : Vec F S128 .f32) : Vec F S1x128 .f32 := broadcastInDim S1x128 ![1] bcast_S128_S1x128_1 v

def rowsN (r : Vec F S1x128 .f32) : Vec F S50000x128 .f32 := broadcastInDim S50000x128 ![0, 1] bcast_S1x128_S50000x128_0_1 r

def rowsE (r : Vec F S1x128 .f32) : Vec F S800000x128 .f32 := broadcastInDim S800000x128 ![0, 1] bcast_S1x128_S800000x128_0_1 r

def splatRow (b : BitVec 32) : Vec F S1x128 .f32 := broadcastInDim S1x128 ![] bcast_S_S1x128 (constant S_ .f32 b)

def splatVec (b : BitVec 32) : Vec F S128 .f32 := broadcastInDim S128 ![] bcast_S_S128 (constant S_ .f32 b)

def reluN (x : Vec F S50000x128 .f32) : Vec F S50000x128 .f32 :=
  maximumf x (broadcastInDim S50000x128 ![] bcast_S_S50000x128 (constant S_ .f32 0x00000000#32))

def reluE (x : Vec F S800000x128 .f32) : Vec F S800000x128 .f32 :=
  maximumf x (broadcastInDim S800000x128 ![] bcast_S_S800000x128 (constant S_ .f32 0x00000000#32))

def reluH (x : Vec F S512x256 .f32) : Vec F S512x256 .f32 :=
  maximumf x (broadcastInDim S512x256 ![] bcast_S_S512x256 (constant S_ .f32 0x00000000#32))

def srcOf (ei : Vec F S2x800000 .i32) : Vec F S800000 .i32 :=
  shapeCast S800000 (extractStridedSlice S1x800000 ![0, 0] ei slices_S2x800000_S1x800000_0_0) shapeCasts_S1x800000_S800000

def dstOf (ei : Vec F S2x800000 .i32) : Vec F S800000 .i32 :=
  shapeCast S800000 (extractStridedSlice S1x800000 ![1, 0] ei slices_S2x800000_S1x800000_1_0) shapeCasts_S1x800000_S800000

def edgeLin (ea : Vec F S800000x16 .f32) (lwT : Vec F S16x128 .f32) (lbRow : Vec F S1x128 .f32) : Vec F S800000x128 .f32 :=
  addf (Host.dotGeneral dot_S800000x16_S16x128_S800000x128_1_0_0_1_n_n none ea lwT) (rowsE lbRow)

def aggregate (x : Vec F S50000x128 .f32) (src dst : Vec F S800000 .i32) (e : Vec F S800000x128 .f32) : Vec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (reluE (addf (Host.gather gather_S50000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src))) e))

def scaled (eps : Vec F S_ .f32) (x : Vec F S50000x128 .f32) : Vec F S50000x128 .f32 :=
  mulf (broadcastInDim S50000x128 ![] bcast_S_S50000x128 (addf (constant S_ .f32 0x3F800000#32) eps)) x

def lin (x : Vec F S50000x128 .f32) (WT : Vec F S128x128 .f32) (bRow : Vec F S1x128 .f32) : Vec F S50000x128 .f32 :=
  addf (Host.dotGeneral dot_S50000x128_S128x128_S50000x128_1_0_0_1_n_n none x WT) (rowsN bRow)

def linSum (a s : Vec F S50000x128 .f32) (WT : Vec F S128x128 .f32) (bRow : Vec F S1x128 .f32) : Vec F S50000x128 .f32 :=
  lin (addf a s) WT bRow

def colSum (z : Vec F S50000x128 .f32) : Vec F S128 .f32 :=
  Host.reduceAdd z (constant S_ .f32 0x00000000#32) reducesTo_S50000x128_S128_d0 h_S_

def meanVec (z : Vec F S50000x128 .f32) : Vec F S128 .f32 := Host.divf (colSum z) (splatVec 0x47435000#32)

def meanRow (z : Vec F S50000x128 .f32) : Vec F S1x128 .f32 := Host.divf (row (colSum z)) (splatRow 0x47435000#32)

def sqDev (z : Vec F S50000x128 .f32) (mRow : Vec F S1x128 .f32) : Vec F S50000x128 .f32 :=
  mulf (subf z (rowsN mRow)) (subf z (rowsN mRow))

def varCount : Vec F S_ .f32 := subf (constant S_ .f32 0x47435000#32) (sitofp .f32 (constantI S_ 32 0#32))

def varVec (z : Vec F S50000x128 .f32) : Vec F S128 .f32 :=
  select (broadcastInDim S128 ![] bcast_S_S128 (cmpf .ogt (varCount (F := F)) (constant S_ .f32 0x00000000#32)))
    (Host.divf (colSum (sqDev z (meanRow z))) (broadcastInDim S128 ![] bcast_S_S128 (varCount (F := F))))
    (broadcastInDim S128 ![] bcast_S_S128 (id (constant S_ .f32 0x7FC00000#32)))

def invStdVec (v : Vec F S128 .f32) : Vec F S128 .f32 := Host.rsqrt (addf v (splatVec 0x3727C5AC#32))

def invStdRow (v : Vec F S1x128 .f32) : Vec F S1x128 .f32 := Host.rsqrt (addf v (splatRow 0x3727C5AC#32))

def bnApply (z : Vec F S50000x128 .f32) (mRow iRow gRow beRow : Vec F S1x128 .f32) : Vec F S50000x128 .f32 :=
  addf (mulf (mulf (subf z (rowsN mRow)) (rowsN iRow)) (rowsN gRow)) (rowsN beRow)

def pool (batch : Vec F S50000 .i32) (x : Vec F S50000x128 .f32) : Vec F S512x128 .f32 :=
  Host.scatterAdd scatter_S512x128_S50000x1_S50000x128_1_0_0_1
    (broadcastInDim S512x128 ![] bcast_S_S512x128 (constant S_ .f32 0x00000000#32))
    (broadcastInDim S50000x1 ![0] bcast_S50000_S50000x1_0 batch) x

def cat (a b : Vec F S512x128 .f32) : Vec F S512x256 .f32 :=
  concatenate S512x256 1 [⟨S512x128, a⟩, ⟨S512x128, b⟩] concatenates_S512x128_S512x128_S512x256_d1

def head (h : Vec F S512x256 .f32) (W1T : Vec F S256x256 .f32) (b1Row : Vec F S1x256 .f32) (W2T : Vec F S256x1 .f32)
    (b2 : Vec F S1x1 .f32) : Vec F S512x1 .f32 :=
  Host.divf (broadcastInDim S512x1 ![] bcast_S_S512x1 (constant S_ .f32 0x3F800000#32))
    (addf (broadcastInDim S512x1 ![] bcast_S_S512x1 (constant S_ .f32 0x3F800000#32))
      (Host.exp (Host.negf (addf
        (Host.dotGeneral dot_S512x256_S256x1_S512x1_1_0_0_1_n_n none
          (reluH (addf (Host.dotGeneral dot_S512x256_S256x256_S512x256_1_0_0_1_n_n none h W1T)
            (broadcastInDim S512x256 ![0, 1] bcast_S1x256_S512x256_0_1 b1Row))) W2T)
        (broadcastInDim S512x1 ![0, 1] bcast_S1x1_S512x1_0_1 b2)))))

def tr16 (w : Vec F S128x16 .f32) : Vec F S16x128 .f32 := transpose S16x128 [1, 0] w transposes_S128x16_S16x128_1_0

def tr128 (w : Vec F S128x128 .f32) : Vec F S128x128 .f32 := transpose S128x128 [1, 0] w transposes_S128x128_S128x128_1_0

def tr256 (w : Vec F S256x256 .f32) : Vec F S256x256 .f32 := transpose S256x256 [1, 0] w transposes_S256x256_S256x256_1_0

def tr256x1 (w : Vec F S1x256 .f32) : Vec F S256x1 .f32 := transpose S256x1 [1, 0] w transposes_S1x256_S256x1_1_0

def row256 (v : Vec F S256 .f32) : Vec F S1x256 .f32 := broadcastInDim S1x256 ![1] bcast_S256_S1x256_1 v

def row1 (v : Vec F S1 .f32) : Vec F S1x1 .f32 := broadcastInDim S1x1 ![1] bcast_S1_S1x1_1 v

def tileSums (z : Vec Ideal S50000x128 .f32) : Vec Ideal (⟨2, ![80, 128]⟩ : Shape) .f32 :=
  fun i => ∑ r : Fin 5000, z (ValueIdx.ix2 (⟨5000 * ((i 0).val / 8) + r.val, by
    have h : (i 0).val < 80 := (i 0).isLt
    have hr := r.isLt
    omega⟩ : Fin 50000) (⟨(i 1).val, (i 1).isLt⟩ : Fin 128))

end Cert.Stage

end
-- ==== Proof.KStage.lean ====
import proofs.«404850_j82815559401961_3_alg».proof.KernelIdeal
import proofs.«404850_j82815559401961_3_alg».proof.Proof.Stage

noncomputable section

namespace Cert.KStage

open Idealize.ShloMosaic Cert.KernelIdeal Cert.KernelIdeal.Facts₀ Cert.KernelIdeal.Facts

variable {F : FTy → Type} [FloatOps F] [hK : Cert.KernelIdeal.Facts]

def rowK (v : Vec F S128 .f32) : Vec F S1x128 .f32 := shapeCast S1x128 v shapeCasts_S128_S1x128

def rowK256 (v : Vec F S256 .f32) : Vec F S1x256 .f32 := shapeCast S1x256 v shapeCasts_S256_S1x256

def rowK1 (v : Vec F S1 .f32) : Vec F S1x1 .f32 := shapeCast S1x1 v shapeCasts_S1_S1x1

def tr16 (w : Vec F S128x16 .f32) : Vec F S16x128 .f32 := transpose S16x128 [1, 0] w transposes_S128x16_S16x128_1_0

def tr128 (w : Vec F S128x128 .f32) : Vec F S128x128 .f32 := transpose S128x128 [1, 0] w transposes_S128x128_S128x128_1_0

def tr256 (w : Vec F S256x256 .f32) : Vec F S256x256 .f32 := transpose S256x256 [1, 0] w transposes_S256x256_S256x256_1_0

def tr256x1 (w : Vec F S1x256 .f32) : Vec F S256x1 .f32 := transpose S256x1 [1, 0] w transposes_S1x256_S256x1_1_0

def kSumRow (ps : Vec F S80x128 .f32) : Vec F S1x128 .f32 :=
  broadcastInDim S1x128 ![1] bcast_S128_S1x128_1 (Host.reduceAdd ps (constant S_ .f32 0x00000000#32) reducesTo_S80x128_S128_d0 h_S_)

def kMeanRow (ps : Vec F S80x128 .f32) : Vec F S1x128 .f32 :=
  Host.divf (kSumRow ps) (broadcastInDim S1x128 ![] bcast_S_S1x128 (constant S_ .f32 0x48C35000#32))

def kVarRow (pq : Vec F S80x128 .f32) : Vec F S1x128 .f32 :=
  maximumf (kMeanRow pq) (broadcastInDim S1x128 ![] bcast_S_S1x128 (constant S_ .f32 0x00000000#32))

end Cert.KStage

end
-- ==== Proof.KHost.lean ====
import proofs.«404850_j82815559401961_3_alg».proof.Proof.Gen.KernelIdeal.Launch
import proofs.«404850_j82815559401961_3_alg».proof.Proof.Stage
import proofs.«404850_j82815559401961_3_alg».proof.Proof.KStage
import Idealize.ShloMosaic.Lib.StableHlo.Run

noncomputable section

namespace Cert.KHost

open Idealize.ShloMosaic Idealize.ShloMosaic.TcCoe Idealize.SL.Sem Idealize.ShloMosaic.StableHlo Cert.KernelIdeal Cert.KernelIdeal.Gen

variable [hR : Cert.ReferenceIdeal.Facts]
variable (W : Valuation τ sig (Elt Ideal))

theorem h0_src :
    after hostOps0 W (Proc.devRef .tc main_v1) = Stage.srcOf (W (Proc.devRef .tc main_arg1)) := by
  after_results
  rfl

theorem h0_dst :
    after hostOps0 W (Proc.devRef .tc main_v3) = Stage.dstOf (W (Proc.devRef .tc main_arg1)) := by
  after_results
  rfl

theorem h0_lwT :
    after hostOps0 W (Proc.devRef .tc main_v4) = KStage.tr16 (W (Proc.devRef .tc main_arg4)) := by
  after_results
  rfl

theorem h0_lb :
    after hostOps0 W (Proc.devRef .tc main_v5) = KStage.rowK (W (Proc.devRef .tc main_arg5)) := by
  after_results
  rfl

attribute [local irreducible] Host.scatterAdd Host.gather Host.reduceAdd in

theorem h1_agg :
    after hostOps1_2 (after hostOps1_1 (after hostOps1 W)) (Proc.devRef .tc main_v18) = Stage.aggregate (W (Proc.devRef .tc main_arg0)) (W (Proc.devRef .tc main_v1)) (W (Proc.devRef .tc main_v3)) (W (Proc.devRef .tc main_v6)) := by
  simp only [after_cons, after_nil]
  rfl

attribute [local irreducible] Host.scatterAdd Host.gather Host.reduceAdd in

theorem h1_sx :
    after hostOps1_2 (after hostOps1_1 (after hostOps1 W)) (Proc.devRef .tc main_v21) = Stage.scaled (W (Proc.devRef .tc main_arg6)) (W (Proc.devRef .tc main_arg0)) := by
  simp only [after_cons, after_nil]
  rfl

attribute [local irreducible] Host.scatterAdd Host.gather Host.reduceAdd in

theorem h1_W1T :
    after hostOps1_2 (after hostOps1_1 (after hostOps1 W)) (Proc.devRef .tc main_v22) = KStage.tr128 (W (Proc.devRef .tc main_arg7)) := by
  simp only [after_cons, after_nil]
  rfl

attribute [local irreducible] Host.scatterAdd Host.gather Host.reduceAdd in

theorem h1_W2T :
    after hostOps1_2 (after hostOps1_1 (after hostOps1 W)) (Proc.devRef .tc main_v23) = KStage.tr128 (W (Proc.devRef .tc main_arg11)) := by
  simp only [after_cons, after_nil]
  rfl

attribute [local irreducible] Host.scatterAdd Host.gather Host.reduceAdd in

theorem h1_b1 :
    after hostOps1_2 (after hostOps1_1 (after hostOps1 W)) (Proc.devRef .tc main_v24) = KStage.rowK (W (Proc.devRef .tc main_arg8)) := by
  simp only [after_cons, after_nil]
  rfl

attribute [local irreducible] Host.scatterAdd Host.gather Host.reduceAdd in

theorem h2_mean :
    after hostOps2 W (Proc.devRef .tc main_v29) = KStage.kMeanRow (W (Proc.devRef .tc main_v25_1)) := by
  after_results
  rfl

attribute [local irreducible] Host.scatterAdd Host.gather Host.reduceAdd in

theorem h3_var :
    after hostOps3 W (Proc.devRef .tc main_v36) = KStage.kVarRow (W (Proc.devRef .tc main_v30)) := by
  after_results
  rfl

theorem h3_g :
    after hostOps3 W (Proc.devRef .tc main_v37) = KStage.rowK (W (Proc.devRef .tc main_arg9)) := by
  after_results
  rfl

theorem h3_be :
    after hostOps3 W (Proc.devRef .tc main_v38) = KStage.rowK (W (Proc.devRef .tc main_arg10)) := by
  after_results
  rfl

theorem h3_b2 :
    after hostOps3 W (Proc.devRef .tc main_v39) = KStage.rowK (W (Proc.devRef .tc main_arg12)) := by
  after_results
  rfl

attribute [local irreducible] Host.scatterAdd Host.gather Host.reduceAdd in

theorem h4_mean :
    after hostOps4 W (Proc.devRef .tc main_v44) = KStage.kMeanRow (W (Proc.devRef .tc main_v40_1)) := by
  after_results
  rfl

attribute [local irreducible] Host.scatterAdd Host.gather Host.reduceAdd in

theorem h5_var :
    after hostOps5 W (Proc.devRef .tc main_v51) = KStage.kVarRow (W (Proc.devRef .tc main_v45)) := by
  after_results
  rfl

theorem h5_g :
    after hostOps5 W (Proc.devRef .tc main_v52) = KStage.rowK (W (Proc.devRef .tc main_arg13)) := by
  after_results
  rfl

theorem h5_be :
    after hostOps5 W (Proc.devRef .tc main_v53) = KStage.rowK (W (Proc.devRef .tc main_arg14)) := by
  after_results
  rfl

theorem h6_lwT :
    after hostOps6 W (Proc.devRef .tc main_v55) = KStage.tr16 (W (Proc.devRef .tc main_arg15)) := by
  after_results
  rfl

theorem h6_lb :
    after hostOps6 W (Proc.devRef .tc main_v56) = KStage.rowK (W (Proc.devRef .tc main_arg16)) := by
  after_results
  rfl

attribute [local irreducible] Host.scatterAdd Host.gather Host.reduceAdd in

theorem h7_agg :
    after hostOps7_2 (after hostOps7_1 (after hostOps7 W)) (Proc.devRef .tc main_v69) = Stage.aggregate (W (Proc.devRef .tc main_v54)) (W (Proc.devRef .tc main_v1)) (W (Proc.devRef .tc main_v3)) (W (Proc.devRef .tc main_v57)) := by
  simp only [after_cons, after_nil]
  rfl

attribute [local irreducible] Host.scatterAdd Host.gather Host.reduceAdd in

theorem h7_sx :
    after hostOps7_2 (after hostOps7_1 (after hostOps7 W)) (Proc.devRef .tc main_v72) = Stage.scaled (W (Proc.devRef .tc main_arg17)) (W (Proc.devRef .tc main_v54)) := by
  simp only [after_cons, after_nil]
  rfl

attribute [local irreducible] Host.scatterAdd Host.gather Host.reduceAdd in

theorem h7_W1T :
    after hostOps7_2 (after hostOps7_1 (after hostOps7 W)) (Proc.devRef .tc main_v73) = KStage.tr128 (W (Proc.devRef .tc main_arg18)) := by
  simp only [after_cons, after_nil]
  rfl

attribute [local irreducible] Host.scatterAdd Host.gather Host.reduceAdd in

theorem h7_W2T :
    after hostOps7_2 (after hostOps7_1 (after hostOps7 W)) (Proc.devRef .tc main_v74) = KStage.tr128 (W (Proc.devRef .tc main_arg22)) := by
  simp only [after_cons, after_nil]
  rfl

attribute [local irreducible] Host.scatterAdd Host.gather Host.reduceAdd in

theorem h7_b1 :
    after hostOps7_2 (after hostOps7_1 (after hostOps7 W)) (Proc.devRef .tc main_v75) = KStage.rowK (W (Proc.devRef .tc main_arg19)) := by
  simp only [after_cons, after_nil]
  rfl

attribute [local irreducible] Host.scatterAdd Host.gather Host.reduceAdd in

theorem h8_mean :
    after hostOps8 W (Proc.devRef .tc main_v80) = KStage.kMeanRow (W (Proc.devRef .tc main_v76_1)) := by
  after_results
  rfl

attribute [local irreducible] Host.scatterAdd Host.gather Host.reduceAdd in

theorem h9_var :
    after hostOps9 W (Proc.devRef .tc main_v87) = KStage.kVarRow (W (Proc.devRef .tc main_v81)) := by
  after_results
  rfl

theorem h9_g :
    after hostOps9 W (Proc.devRef .tc main_v88) = KStage.rowK (W (Proc.devRef .tc main_arg20)) := by
  after_results
  rfl

theorem h9_be :
    after hostOps9 W (Proc.devRef .tc main_v89) = KStage.rowK (W (Proc.devRef .tc main_arg21)) := by
  after_results
  rfl

theorem h9_b2 :
    after hostOps9 W (Proc.devRef .tc main_v90) = KStage.rowK (W (Proc.devRef .tc main_arg23)) := by
  after_results
  rfl

attribute [local irreducible] Host.scatterAdd Host.gather Host.reduceAdd in

theorem h10_mean :
    after hostOps10 W (Proc.devRef .tc main_v95) = KStage.kMeanRow (W (Proc.devRef .tc main_v91_1)) := by
  after_results
  rfl

attribute [local irreducible] Host.scatterAdd Host.gather Host.reduceAdd in

theorem h11_var :
    after hostOps11 W (Proc.devRef .tc main_v102) = KStage.kVarRow (W (Proc.devRef .tc main_v96)) := by
  after_results
  rfl

theorem h11_g :
    after hostOps11 W (Proc.devRef .tc main_v103) = KStage.rowK (W (Proc.devRef .tc main_arg24)) := by
  after_results
  rfl

theorem h11_be :
    after hostOps11 W (Proc.devRef .tc main_v104) = KStage.rowK (W (Proc.devRef .tc main_arg25)) := by
  after_results
  rfl

attribute [local irreducible] Host.scatterAdd Host.gather Host.reduceAdd in

theorem h12_pooled :
    after hostOps12 W (Proc.devRef .tc main_v112) = Stage.cat (Stage.pool (W (Proc.devRef .tc main_arg3)) (W (Proc.devRef .tc main_v54))) (Stage.pool (W (Proc.devRef .tc main_arg3)) (W (Proc.devRef .tc main_v105))) := by
  after_results
  rfl

theorem h12_W1T :
    after hostOps12 W (Proc.devRef .tc main_v113) = KStage.tr256 (W (Proc.devRef .tc main_arg26)) := by
  after_results
  rfl

theorem h12_W2T :
    after hostOps12 W (Proc.devRef .tc main_v114) = KStage.tr256x1 (W (Proc.devRef .tc main_arg28)) := by
  after_results
  rfl

theorem h12_b1 :
    after hostOps12 W (Proc.devRef .tc main_v115) = KStage.rowK256 (W (Proc.devRef .tc main_arg27)) := by
  after_results
  rfl

theorem h12_b2 :
    after hostOps12 W (Proc.devRef .tc main_v116) = KStage.rowK1 (W (Proc.devRef .tc main_arg29)) := by
  after_results
  rfl

end Cert.KHost

end
-- ==== Proof.LibChain.lean ====
import Idealize.ShloMosaic.Lib.StableHlo.Run
import Mathlib.Data.List.Forall2

namespace Idealize.ShloMosaic.StableHlo

variable {τ : Topo} {sig : RefSig} {Val : EltTy → Type}

/-- `W'` holds what `W` holds at every buffer outside the list `w`. -/
def KeepsOff (w : List (Ref sig .tc)) (W W' : Valuation τ sig Val) : Prop :=
  ∀ b, b ∉ w → W' (Proc.devRef .tc b) = W (Proc.devRef .tc b)

/-- Operation k of the line writes exactly the k-th listed buffer. -/
abbrev WritesList (s : List (HloOp τ sig Val)) (w : List (Ref sig .tc)) : Prop :=
  List.Forall₂ (fun op r => op.writes = {Proc.devRef (τ := τ) .tc r}) s w

/-- A line changes nothing outside the buffers its operations write. -/
theorem keepsOff_after : ∀ {s : List (HloOp τ sig Val)} {w : List (Ref sig .tc)}, WritesList s w →
    ∀ V : Valuation τ sig Val, KeepsOff w V (after s V)
  | _, _, .nil, _ => fun _ _ => rfl
  | op :: _, _, .cons hw h, V => fun b hb => by
    rw [after_cons, keepsOff_after h _ b fun hm => hb (List.mem_cons_of_mem _ hm),
      op.result_of_not_mem V (by
        rw [hw, Finset.mem_singleton]
        exact fun e => hb (Proc.devRef_injective _ e ▸ List.mem_cons_self))]

/-- Contents that change only at the buffers `ar w`, and there only where `ar w` is listed, keep everything off the list. -/
theorem keepsOff_of_arrays {n : ℕ} (ar : Fin n → Ref sig .tc) {w : List (Ref sig .tc)} {W W' : Valuation τ sig Val}
    (hne : ∀ b, (∀ k, ar k ≠ b) → W' (Proc.devRef .tc b) = W (Proc.devRef .tc b))
    (har : ∀ k, ar k ∉ w → W' (Proc.devRef .tc (ar k)) = W (Proc.devRef .tc (ar k))) : KeepsOff w W W' := fun b hb => by
  by_cases h : ∃ k, ar k = b
  · obtain ⟨k, rfl⟩ := h
    exact har k hb
  · exact hne b fun k e => h ⟨k, e⟩

/-- A chain of contents: each differs from the one before it only on the buffers listed for that link. -/
inductive Chain : List (Valuation τ sig Val) → List (List (Ref sig .tc)) → Prop
  | one (W : Valuation τ sig Val) : Chain [W] []
  | cons {W W' : Valuation τ sig Val} {Ws w ws} : KeepsOff w W W' → Chain (W' :: Ws) ws → Chain (W :: W' :: Ws) (w :: ws)

/-- Two contents of a chain agree on every buffer that no link between them lists. -/
theorem Chain.stable {Ws : List (Valuation τ sig Val)} {ws} (h : Chain Ws ws) :
    ∀ (i j : ℕ) {W W' : Valuation τ sig Val}, Ws[i]? = some W → Ws[j]? = some W' → i ≤ j →
      ∀ b, b ∉ ((ws.take j).drop i).flatten → W' (Proc.devRef .tc b) = W (Proc.devRef .tc b) := by
  induction h with
  | one W =>
    intro i j W₁ W₂ hi hj hij b _
    obtain rfl : j = 0 := by cases j <;> simp_all
    obtain rfl : i = 0 := Nat.le_zero.mp hij
    simp only [List.getElem?_cons_zero, Option.some.injEq] at hi hj
    rw [← hi, ← hj]
  | cons hk _ ih =>
    intro i j W₁ W₂ hi hj hij b hb
    match i, j with
    | 0, 0 =>
      simp only [List.getElem?_cons_zero, Option.some.injEq] at hi hj
      rw [← hi, ← hj]
    | 0, j + 1 =>
      simp only [List.getElem?_cons_zero, Option.some.injEq, List.getElem?_cons_succ] at hi hj
      simp only [List.take_succ_cons, List.drop_zero, List.flatten_cons, List.mem_append, not_or] at hb
      rw [← hi, ih 0 j rfl hj (Nat.zero_le _) b (by simpa using hb.2), hk b hb.1]
    | i + 1, 0 => exact absurd hij (Nat.not_succ_le_zero _)
    | i + 1, j + 1 =>
      simp only [List.getElem?_cons_succ] at hi hj
      exact ih i j hi hj (Nat.le_of_succ_le_succ hij) b (by simpa using hb)

/-- The contents after each of a run of lines. -/
def bounds : List (List (HloOp τ sig Val)) → Valuation τ sig Val → List (Valuation τ sig Val)
  | [], _ => []
  | s :: ss, V => after s V :: bounds ss (after s V)

/-- The boundary contents of a run of lines form a chain over the buffers the lines write. -/
theorem chain_bounds : ∀ {ss : List (List (HloOp τ sig Val))} {ws}, List.Forall₂ WritesList ss ws →
    ∀ V : Valuation τ sig Val, Chain (V :: bounds ss V) ws
  | _, _, .nil, V => .one V
  | _, _, .cons hs h, V => .cons (keepsOff_after hs V) (chain_bounds h _)

end Idealize.ShloMosaic.StableHlo
-- ==== Proof.KTrack.lean ====
import proofs.«404850_j82815559401961_3_alg».proof.Proof.Gen.KernelIdeal.Frame
import proofs.«404850_j82815559401961_3_alg».proof.Proof.LibChain

noncomputable section

namespace Cert.KTrack

open Idealize.ShloMosaic Idealize.ShloMosaic.TcCoe Idealize.SL.Sem Idealize.ShloMosaic.StableHlo Cert.KernelIdeal Cert.KernelIdeal.Gen

variable {F : FTy → Type} [FloatOps F]
variable (m : (ℓ : Loc nD τ sig) → Buf (Elt F) ℓ) (ρ : Dev nD → PrngReg)

/-- The buffers each of the program's 30 segments writes (a kernel region: the arrays of its outputs). -/
abbrev kouts : List (List (Ref sig .tc)) :=
  [[main_v0, main_v1, main_v2, main_v3, main_v4, main_v5],
   [main_v6],
   [main_c, main_v7, main_v8, main_c_0, main_v9, main_v10, main_v11, main_v12, main_v13, main_v14],
   [main_call0_cst, main_call0_v0, main_v15],
   [main_cst, main_v16, main_v17, main_v18, main_cst_1, main_v19, main_v20, main_v21, main_v22, main_v23, main_v24],
   [main_v25_0, main_v25_1],
   [main_cst_2, main_v26, main_v27, main_cst_3, main_v28, main_v29],
   [main_v30],
   [main_cst_4, main_v31, main_v32, main_cst_5, main_v33, main_v34, main_cst_6, main_v35, main_v36, main_v37, main_v38, main_v39],
   [main_v40_0, main_v40_1],
   [main_cst_7, main_v41, main_v42, main_cst_8, main_v43, main_v44],
   [main_v45],
   [main_cst_9, main_v46, main_v47, main_cst_10, main_v48, main_v49, main_cst_11, main_v50, main_v51, main_v52, main_v53],
   [main_v54],
   [main_v55, main_v56],
   [main_v57],
   [main_c_12, main_v58, main_v59, main_c_13, main_v60, main_v61, main_v62, main_v63, main_v64, main_v65],
   [main_call1_cst, main_call1_v0, main_v66],
   [main_cst_14, main_v67, main_v68, main_v69, main_cst_15, main_v70, main_v71, main_v72, main_v73, main_v74, main_v75],
   [main_v76_0, main_v76_1],
   [main_cst_16, main_v77, main_v78, main_cst_17, main_v79, main_v80],
   [main_v81],
   [main_cst_18, main_v82, main_v83, main_cst_19, main_v84, main_v85, main_cst_20, main_v86, main_v87, main_v88, main_v89, main_v90],
   [main_v91_0, main_v91_1],
   [main_cst_21, main_v92, main_v93, main_cst_22, main_v94, main_v95],
   [main_v96],
   [main_cst_23, main_v97, main_v98, main_cst_24, main_v99, main_v100, main_cst_25, main_v101, main_v102, main_v103, main_v104],
   [main_v105],
   [main_cst_26, main_v106, main_v107, main_v108, main_cst_27, main_v109, main_v110, main_v111, main_v112, main_v113, main_v114, main_v115, main_v116],
   [main_v117]]

theorem host {s : List (HloOp τ sig (Elt F))} {w : List (Ref sig .tc)} (V : Valuation τ sig (Elt F))
    (h : WritesList s w := by repeat' first | rfl | constructor) : KeepsOff w V (after s V) :=
  keepsOff_after h V

theorem step2 (c : Dev nD) : KeepsOff (kouts[1]) (W1 m ρ c) (W2 m ρ c) :=
  keepsOff_of_arrays (Pipeline.arrRef spec0) (W2_of_ne m ρ c) fun w hw =>
    (W2_arr m ρ c w).trans (((dat0 (V1 m ρ) c).arrAt_in w
      ((by decide : ∀ w : Fin cfg0.W, Pipeline.arrRef spec0 w ∉ kouts[1] → (cfg0.win w).isOut = false) w hw) _).trans
      (A_eq0 (V1 m ρ) c w))

theorem step6 (c : Dev nD) : KeepsOff (kouts[5]) (W5 m ρ c) (W6 m ρ c) :=
  keepsOff_of_arrays (Pipeline.arrRef spec1) (W6_of_ne m ρ c) fun w hw =>
    (W6_arr m ρ c w).trans (((dat1 (V5 m ρ) c).arrAt_in w
      ((by decide : ∀ w : Fin cfg1.W, Pipeline.arrRef spec1 w ∉ kouts[5] → (cfg1.win w).isOut = false) w hw) _).trans
      (A_eq1 (V5 m ρ) c w))

theorem step8 (c : Dev nD) : KeepsOff (kouts[7]) (W7 m ρ c) (W8 m ρ c) :=
  keepsOff_of_arrays (Pipeline.arrRef spec2) (W8_of_ne m ρ c) fun w hw =>
    (W8_arr m ρ c w).trans (((dat2 (V7 m ρ) c).arrAt_in w
      ((by decide : ∀ w : Fin cfg2.W, Pipeline.arrRef spec2 w ∉ kouts[7] → (cfg2.win w).isOut = false) w hw) _).trans
      (A_eq2 (V7 m ρ) c w))

theorem step10 (c : Dev nD) : KeepsOff (kouts[9]) (W9 m ρ c) (W10 m ρ c) :=
  keepsOff_of_arrays (Pipeline.arrRef spec3) (W10_of_ne m ρ c) fun w hw =>
    (W10_arr m ρ c w).trans (((dat3 (V9 m ρ) c).arrAt_in w
      ((by decide : ∀ w : Fin cfg3.W, Pipeline.arrRef spec3 w ∉ kouts[9] → (cfg3.win w).isOut = false) w hw) _).trans
      (A_eq3 (V9 m ρ) c w))

theorem step12 (c : Dev nD) : KeepsOff (kouts[11]) (W11 m ρ c) (W12 m ρ c) :=
  keepsOff_of_arrays (Pipeline.arrRef spec4) (W12_of_ne m ρ c) fun w hw =>
    (W12_arr m ρ c w).trans (((dat4 (V11 m ρ) c).arrAt_in w
      ((by decide : ∀ w : Fin cfg4.W, Pipeline.arrRef spec4 w ∉ kouts[11] → (cfg4.win w).isOut = false) w hw) _).trans
      (A_eq4 (V11 m ρ) c w))

theorem step14 (c : Dev nD) : KeepsOff (kouts[13]) (W13 m ρ c) (W14 m ρ c) :=
  keepsOff_of_arrays (Pipeline.arrRef spec5) (W14_of_ne m ρ c) fun w hw =>
    (W14_arr m ρ c w).trans (((dat5 (V13 m ρ) c).arrAt_in w
      ((by decide : ∀ w : Fin cfg5.W, Pipeline.arrRef spec5 w ∉ kouts[13] → (cfg5.win w).isOut = false) w hw) _).trans
      (A_eq5 (V13 m ρ) c w))

theorem step16 (c : Dev nD) : KeepsOff (kouts[15]) (W15 m ρ c) (W16 m ρ c) :=
  keepsOff_of_arrays (Pipeline.arrRef spec6) (W16_of_ne m ρ c) fun w hw =>
    (W16_arr m ρ c w).trans (((dat6 (V15 m ρ) c).arrAt_in w
      ((by decide : ∀ w : Fin cfg6.W, Pipeline.arrRef spec6 w ∉ kouts[15] → (cfg6.win w).isOut = false) w hw) _).trans
      (A_eq6 (V15 m ρ) c w))

theorem step20 (c : Dev nD) : KeepsOff (kouts[19]) (W19 m ρ c) (W20 m ρ c) :=
  keepsOff_of_arrays (Pipeline.arrRef spec7) (W20_of_ne m ρ c) fun w hw =>
    (W20_arr m ρ c w).trans (((dat7 (V19 m ρ) c).arrAt_in w
      ((by decide : ∀ w : Fin cfg7.W, Pipeline.arrRef spec7 w ∉ kouts[19] → (cfg7.win w).isOut = false) w hw) _).trans
      (A_eq7 (V19 m ρ) c w))

theorem step22 (c : Dev nD) : KeepsOff (kouts[21]) (W21 m ρ c) (W22 m ρ c) :=
  keepsOff_of_arrays (Pipeline.arrRef spec8) (W22_of_ne m ρ c) fun w hw =>
    (W22_arr m ρ c w).trans (((dat8 (V21 m ρ) c).arrAt_in w
      ((by decide : ∀ w : Fin cfg8.W, Pipeline.arrRef spec8 w ∉ kouts[21] → (cfg8.win w).isOut = false) w hw) _).trans
      (A_eq8 (V21 m ρ) c w))

theorem step24 (c : Dev nD) : KeepsOff (kouts[23]) (W23 m ρ c) (W24 m ρ c) :=
  keepsOff_of_arrays (Pipeline.arrRef spec9) (W24_of_ne m ρ c) fun w hw =>
    (W24_arr m ρ c w).trans (((dat9 (V23 m ρ) c).arrAt_in w
      ((by decide : ∀ w : Fin cfg9.W, Pipeline.arrRef spec9 w ∉ kouts[23] → (cfg9.win w).isOut = false) w hw) _).trans
      (A_eq9 (V23 m ρ) c w))

theorem step26 (c : Dev nD) : KeepsOff (kouts[25]) (W25 m ρ c) (W26 m ρ c) :=
  keepsOff_of_arrays (Pipeline.arrRef spec10) (W26_of_ne m ρ c) fun w hw =>
    (W26_arr m ρ c w).trans (((dat10 (V25 m ρ) c).arrAt_in w
      ((by decide : ∀ w : Fin cfg10.W, Pipeline.arrRef spec10 w ∉ kouts[25] → (cfg10.win w).isOut = false) w hw) _).trans
      (A_eq10 (V25 m ρ) c w))

theorem step28 (c : Dev nD) : KeepsOff (kouts[27]) (W27 m ρ c) (W28 m ρ c) :=
  keepsOff_of_arrays (Pipeline.arrRef spec11) (W28_of_ne m ρ c) fun w hw =>
    (W28_arr m ρ c w).trans (((dat11 (V27 m ρ) c).arrAt_in w
      ((by decide : ∀ w : Fin cfg11.W, Pipeline.arrRef spec11 w ∉ kouts[27] → (cfg11.win w).isOut = false) w hw) _).trans
      (A_eq11 (V27 m ρ) c w))

theorem step30 (c : Dev nD) : KeepsOff (kouts[29]) (W29 m ρ c) (W30 m ρ c) :=
  keepsOff_of_arrays (Pipeline.arrRef spec12) (W30_of_ne m ρ c) fun w hw =>
    (W30_arr m ρ c w).trans (((dat12 (V29 m ρ) c).arrAt_in w
      ((by decide : ∀ w : Fin cfg12.W, Pipeline.arrRef spec12 w ∉ kouts[29] → (cfg12.win w).isOut = false) w hw) _).trans
      (A_eq12 (V29 m ρ) c w))

/-- The contents at the run's 31 boundaries, first to last. -/
abbrev bnds (c : Dev nD) : List (Valuation τ sig (Elt F)) := [W0 m ρ c, W1 m ρ c, W2 m ρ c, W3 m ρ c, W4 m ρ c, W5 m ρ c, W6 m ρ c, W7 m ρ c, W8 m ρ c, W9 m ρ c, W10 m ρ c, W11 m ρ c, W12 m ρ c, W13 m ρ c, W14 m ρ c, W15 m ρ c, W16 m ρ c, W17 m ρ c, W18 m ρ c, W19 m ρ c, W20 m ρ c, W21 m ρ c, W22 m ρ c, W23 m ρ c, W24 m ρ c, W25 m ρ c, W26 m ρ c, W27 m ρ c, W28 m ρ c, W29 m ρ c, W30 m ρ c]

theorem chain (c : Dev nD) : Chain (bnds m ρ c) kouts :=
  .cons (host _) <| .cons (step2 m ρ c) <| .cons (host _) <| .cons (host _) <| .cons (host _) <| .cons (step6 m ρ c) <| .cons (host _) <| .cons (step8 m ρ c) <| .cons (host _) <| .cons (step10 m ρ c) <| .cons (host _) <| .cons (step12 m ρ c) <| .cons (host _) <| .cons (step14 m ρ c) <| .cons (host _) <| .cons (step16 m ρ c) <| .cons (host _) <| .cons (host _) <| .cons (host _) <| .cons (step20 m ρ c) <| .cons (host _) <| .cons (step22 m ρ c) <| .cons (host _) <| .cons (step24 m ρ c) <| .cons (host _) <| .cons (step26 m ρ c) <| .cons (host _) <| .cons (step28 m ρ c) <| .cons (host _) <| .cons (step30 m ρ c) <| .one _

/-- A buffer no segment after boundary k writes holds at the end what it held at boundary k. -/
theorem rest (c : Dev nD) (k : ℕ) (b : Ref sig .tc) {W : Valuation τ sig (Elt F)}
    (hb : b ∉ ((kouts.take 30).drop k).flatten := by decide) (hk : k ≤ 30 := by decide)
    (hW : (bnds m ρ c)[k]? = some W := by rfl) :
    W30 m ρ c (Proc.devRef .tc b) = W (Proc.devRef .tc b) :=
  (chain m ρ c).stable k 30 hW rfl hk b hb

end Cert.KTrack

end
-- ==== Proof.RegEdge.lean ====
import proofs.«404850_j82815559401961_3_alg».proof.Proof.Gen.KernelIdeal.Frame
import proofs.«404850_j82815559401961_3_alg».proof.Proof.Stage
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember

noncomputable section

namespace Cert.KVal

open Idealize.ShloMosaic Idealize.ShloMosaic.TcCoe Idealize.SL.Sem Cert.KernelIdeal Cert.KernelIdeal.Gen
open Idealize.ShloMosaic.Pipeline (Dat)
open Idealize.ShloMosaic.ValueIdx

variable [hR : Cert.ReferenceIdeal.Facts]
variable (V : (c : Dev nD) → (b : Ref sig .tc) → Buf (Elt Ideal) ((c : Thread nD τ).loc b))

private theorem matmul_zero_plain_apply {m k n : Nat} (A : FVec Ideal ⟨2, ![m, k]⟩ .f32) (B : FVec Ideal ⟨2, ![k, n]⟩ .f32)
    (a : Fin m) (b : Fin n) :
    matmul (DotDims.plain m k n) none A B (constant ⟨2, ![m, n]⟩ .f32 0x00000000#32) (ix2 a b)
      = ∑ c : Fin k, A (ix2 a c) * B (ix2 c b) :=
  (congrFun (matmul_zero_eq_dotGeneral (DotDims.plain m k n) none A B) (ix2 a b)).trans
    (StackMember.dotGeneral_plain_apply none A B a b)

private theorem edgePay_apply (x0 : Vec Ideal S16000x16 .f32) (x1 : Vec Ideal S16x128 .f32) (x2 : Vec Ideal S1x128 .f32)
    (a : Fin 16000) (b : Fin 128) :
    k0_pay1 x0 x1 x2 (ix2 a b) = (∑ k : Fin 16, x0 (ix2 a k) * x1 (ix2 k b)) + x2 (ix2 (0 : Fin 1) b) := by
  unfold k0_pay1
  rw [shapeCast_self, shapeCast_self]
  show matmul (F := Ideal) (DotDims.plain 16000 16 128) none x0 x1 (constant ⟨2, ![16000, 128]⟩ .f32 0x00000000#32) (ix2 a b)
      + broadcastTo ⟨2, ![16000, 128]⟩ x2 broadcasts_S1x128_S16000x128 (ix2 a b) = _
  rw [matmul_zero_plain_apply, broadcastTo_1b_ab_apply]

private theorem edgePay6_apply (x0 : Vec Ideal S16000x16 .f32) (x1 : Vec Ideal S16x128 .f32) (x2 : Vec Ideal S1x128 .f32)
    (a : Fin 16000) (b : Fin 128) :
    k6_pay1 x0 x1 x2 (ix2 a b) = (∑ k : Fin 16, x0 (ix2 a k) * x1 (ix2 k b)) + x2 (ix2 (0 : Fin 1) b) :=
  edgePay_apply x0 x1 x2 a b

private theorem edgeLin_apply (ea : Vec Ideal S800000x16 .f32) (lwT : Vec Ideal S16x128 .f32) (lb : Vec Ideal S1x128 .f32)
    (r : Fin 800000) (b : Fin 128) :
    Stage.edgeLin ea lwT lb (ix2 r b) = (∑ k : Fin 16, ea (ix2 r k) * lwT (ix2 k b)) + lb (ix2 (0 : Fin 1) b) := by
  unfold Stage.edgeLin Stage.rowsE
  show Host.dotGeneral (F := Ideal) (DotDims.plain 800000 16 128) none ea lwT (ix2 r b)
      + broadcastInDim ⟨2, ![800000, 128]⟩ ![0, 1] _ lb (ix2 r b) = _
  rw [StackMember.dotGeneral_plain_apply, broadcastInDim_oneRow_apply]

private theorem origin2 : (![0, 0] : Fin 2 → Nat) = fun _ => 0 := funext fun a => by fin_cases a <;> rfl

private theorem blocks0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

private theorem flushed0_eq (c : Dev nD) (t : Fin cfg0.N) :
    (dat0 (F := Ideal) V c).flushed 3 t
      = ((cfg0.win 3).blk t).view.read (Elt Ideal) (Stage.edgeLin (V c main_arg2) (V c main_v4) (V c main_v5)) := by
  show (cfg0.win 3).cut (grid0.coords t) ((dat0 (F := Ideal) V c).after 3 t) = _
  rw [after0_3]
  unfold out0_3
  rw [View.canon_unit_zero origin2]
  simp only [View.ld_unit_zero (S := S16000x16) origin2, View.ld_unit_zero (S := S16x128) origin2,
    View.ld_unit_zero (S := S1x128) origin2]
  obtain ⟨e00, e01, e10, e11, e20, e21, e30, e31⟩ := blocks0 t
  have ht : t.val < 50 := lt_of_lt_of_eq (show t.val < grid0.N from t.isLt) N_0
  funext j
  obtain ⟨a, b, rfl⟩ : ∃ (a : Fin 16000) (b : Fin 128), j = ix2 a b := ⟨j 0, j 1, eq_ix2 j⟩
  have hr : t.val * 16000 + a.val < 800000 := by have := a.isLt; omega
  have emb3 : ((cfg0.win 3).blk t).view.emb (ix2 a b) = ix2 (⟨t.val * 16000 + a.val, hr⟩ : Fin 800000) b := by
    funext ax; apply Fin.ext
    match ax with
    | ⟨0, _⟩ => show win0_3.index t (0 : Fin 2) * 16000 + 1 * a.val = t.val * 16000 + a.val; rw [e30]; omega
    | ⟨1, _⟩ => show win0_3.index t (1 : Fin 2) * 128 + 1 * b.val = b.val; rw [e31]; omega
  have emb0 : ∀ k : Fin 16, ((cfg0.win 0).blk t).view.emb (ix2 a k) = ix2 (⟨t.val * 16000 + a.val, hr⟩ : Fin 800000) k := by
    intro k; funext ax; apply Fin.ext
    match ax with
    | ⟨0, _⟩ => show win0_0.index t (0 : Fin 2) * 16000 + 1 * a.val = t.val * 16000 + a.val; rw [e00]; omega
    | ⟨1, _⟩ => show win0_0.index t (1 : Fin 2) * 16 + 1 * k.val = k.val; rw [e01]; omega
  have emb1 : ∀ k : Fin 16, ((cfg0.win 1).blk t).view.emb (ix2 k b) = ix2 k b := by
    intro k; funext ax; apply Fin.ext
    match ax with
    | ⟨0, _⟩ => show win0_1.index t (0 : Fin 2) * 16 + 1 * k.val = k.val; rw [e10]; omega
    | ⟨1, _⟩ => show win0_1.index t (1 : Fin 2) * 128 + 1 * b.val = b.val; rw [e11]; omega
  have emb2 : ((cfg0.win 2).blk t).view.emb (ix2 (0 : Fin 1) b) = ix2 (0 : Fin 1) b := by
    funext ax; apply Fin.ext
    match ax with
    | ⟨0, _⟩ => show win0_2.index t (0 : Fin 2) * 1 + 1 * 0 = 0; rw [e20]
    | ⟨1, _⟩ => show win0_2.index t (1 : Fin 2) * 128 + 1 * b.val = b.val; rw [e21]; omega
  refine (edgePay_apply _ _ _ a b).trans ?_
  show _ = Stage.edgeLin (V c main_arg2) (V c main_v4) (V c main_v5) (((cfg0.win 3).blk t).view.emb (ix2 a b))
  rw [emb3, edgeLin_apply]
  refine congrArg₂ (fun x y : EReal => x + y) (Finset.sum_congr rfl fun k _ => ?_) (congrArg (V c main_v5) emb2)
  exact congrArg₂ (fun x y : EReal => x * y) (congrArg (V c main_arg2) (emb0 k)) (congrArg (V c main_v4) (emb1 k))

private theorem mem_blk0 (t : Fin cfg0.N) (i : S800000x128.Idx) :
    i ∈ ((cfg0.win 3).blk t).view.set ↔ ∀ a : Fin 2, win0_3.index t a * S16000x128.size a ≤ (i a).val
      ∧ (i a).val < win0_3.index t a * S16000x128.size a + S16000x128.size a := by
  show i ∈ ((View.whole main_v6).slice (win0_3.rect t)).set ↔ _
  rw [View.set_slice_whole, Rect.mem_set_unit]
  exact Iff.rfl

private theorem cover0 (i : S800000x128.Idx) :
    ∃ t : Fin cfg0.N, (cfg0.win 3).flush t = true ∧ i ∈ ((cfg0.win 3).blk t).view.set := by
  have hi0 : (i 0).val < 800000 := idx2_lt0 i
  have hi1 : (i 1).val < 128 := idx2_lt1 i
  have hN : (i 0).val / 16000 < cfg0.N := by rw [show cfg0.N = grid0.N from rfl, N_0]; omega
  obtain ⟨-, -, -, -, -, -, e30, e31⟩ := blocks0 ⟨(i 0).val / 16000, hN⟩
  refine ⟨⟨(i 0).val / 16000, hN⟩, flush0_3 _, ?_⟩
  rw [mem_blk0]
  intro a
  match a with
  | ⟨0, _⟩ =>
    show win0_3.index ⟨(i 0).val / 16000, hN⟩ (0 : Fin 2) * 16000 ≤ (i 0).val
      ∧ (i 0).val < win0_3.index ⟨(i 0).val / 16000, hN⟩ (0 : Fin 2) * 16000 + 16000
    rw [e30]; show (i 0).val / 16000 * 16000 ≤ (i 0).val ∧ (i 0).val < (i 0).val / 16000 * 16000 + 16000; omega
  | ⟨1, _⟩ =>
    show win0_3.index ⟨(i 0).val / 16000, hN⟩ (1 : Fin 2) * 128 ≤ (i 1).val
      ∧ (i 1).val < win0_3.index ⟨(i 0).val / 16000, hN⟩ (1 : Fin 2) * 128 + 128
    rw [e31]; omega

theorem edgeLin0 (c : Dev nD) :
    (dat0 (F := Ideal) V c).arrAt 3 cfg0.N = Stage.edgeLin (V c main_arg2) (V c main_v4) (V c main_v5) :=
  (dat0 (F := Ideal) V c).arrAt_eq_of_cover 3 _ (fun t _ => flushed0_eq V c t) cover0

private theorem blocks6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

private theorem flushed6_eq (c : Dev nD) (t : Fin cfg6.N) :
    (dat6 (F := Ideal) V c).flushed 3 t
      = ((cfg6.win 3).blk t).view.read (Elt Ideal) (Stage.edgeLin (V c main_arg2) (V c main_v55) (V c main_v56)) := by
  show (cfg6.win 3).cut (grid6.coords t) ((dat6 (F := Ideal) V c).after 3 t) = _
  rw [after6_3]
  unfold out6_3
  rw [View.canon_unit_zero origin2]
  simp only [View.ld_unit_zero (S := S16000x16) origin2, View.ld_unit_zero (S := S16x128) origin2,
    View.ld_unit_zero (S := S1x128) origin2]
  obtain ⟨e00, e01, e10, e11, e20, e21, e30, e31⟩ := blocks6 t
  have ht : t.val < 50 := lt_of_lt_of_eq (show t.val < grid6.N from t.isLt) N_6
  funext j
  obtain ⟨a, b, rfl⟩ : ∃ (a : Fin 16000) (b : Fin 128), j = ix2 a b := ⟨j 0, j 1, eq_ix2 j⟩
  have hr : t.val * 16000 + a.val < 800000 := by have := a.isLt; omega
  have embOut : ((cfg6.win 3).blk t).view.emb (ix2 a b) = ix2 (⟨t.val * 16000 + a.val, hr⟩ : Fin 800000) b := by
    funext ax; apply Fin.ext
    match ax with
    | ⟨0, _⟩ => show win6_3.index t (0 : Fin 2) * 16000 + 1 * a.val = t.val * 16000 + a.val; rw [e30]; omega
    | ⟨1, _⟩ => show win6_3.index t (1 : Fin 2) * 128 + 1 * b.val = b.val; rw [e31]; omega
  have embEa : ∀ k : Fin 16, ((cfg6.win 0).blk t).view.emb (ix2 a k) = ix2 (⟨t.val * 16000 + a.val, hr⟩ : Fin 800000) k := by
    intro k; funext ax; apply Fin.ext
    match ax with
    | ⟨0, _⟩ => show win6_0.index t (0 : Fin 2) * 16000 + 1 * a.val = t.val * 16000 + a.val; rw [e00]; omega
    | ⟨1, _⟩ => show win6_0.index t (1 : Fin 2) * 16 + 1 * k.val = k.val; rw [e01]; omega
  have embW : ∀ k : Fin 16, ((cfg6.win 1).blk t).view.emb (ix2 k b) = ix2 k b := by
    intro k; funext ax; apply Fin.ext
    match ax with
    | ⟨0, _⟩ => show win6_1.index t (0 : Fin 2) * 16 + 1 * k.val = k.val; rw [e10]; omega
    | ⟨1, _⟩ => show win6_1.index t (1 : Fin 2) * 128 + 1 * b.val = b.val; rw [e11]; omega
  have embB : ((cfg6.win 2).blk t).view.emb (ix2 (0 : Fin 1) b) = ix2 (0 : Fin 1) b := by
    funext ax; apply Fin.ext
    match ax with
    | ⟨0, _⟩ => show win6_2.index t (0 : Fin 2) * 1 + 1 * 0 = 0; rw [e20]
    | ⟨1, _⟩ => show win6_2.index t (1 : Fin 2) * 128 + 1 * b.val = b.val; rw [e21]; omega
  refine (edgePay6_apply _ _ _ a b).trans ?_
  show _ = Stage.edgeLin (V c main_arg2) (V c main_v55) (V c main_v56) (((cfg6.win 3).blk t).view.emb (ix2 a b))
  rw [embOut, edgeLin_apply]
  refine congrArg₂ (fun x y : EReal => x + y) (Finset.sum_congr rfl fun k _ => ?_) (congrArg (V c main_v56) embB)
  exact congrArg₂ (fun x y : EReal => x * y) (congrArg (V c main_arg2) (embEa k)) (congrArg (V c main_v55) (embW k))

private theorem mem_blk6 (t : Fin cfg6.N) (i : S800000x128.Idx) :
    i ∈ ((cfg6.win 3).blk t).view.set ↔ ∀ a : Fin 2, win6_3.index t a * S16000x128.size a ≤ (i a).val
      ∧ (i a).val < win6_3.index t a * S16000x128.size a + S16000x128.size a := by
  show i ∈ ((View.whole main_v57).slice (win6_3.rect t)).set ↔ _
  rw [View.set_slice_whole, Rect.mem_set_unit]
  exact Iff.rfl

private theorem cover6 (i : S800000x128.Idx) :
    ∃ t : Fin cfg6.N, (cfg6.win 3).flush t = true ∧ i ∈ ((cfg6.win 3).blk t).view.set := by
  have hi0 : (i 0).val < 800000 := idx2_lt0 i
  have hi1 : (i 1).val < 128 := idx2_lt1 i
  have hN : (i 0).val / 16000 < cfg6.N := by rw [show cfg6.N = grid6.N from rfl, N_6]; omega
  obtain ⟨-, -, -, -, -, -, e30, e31⟩ := blocks6 ⟨(i 0).val / 16000, hN⟩
  refine ⟨⟨(i 0).val / 16000, hN⟩, flush6_3 _, ?_⟩
  rw [mem_blk6]
  intro a
  match a with
  | ⟨0, _⟩ =>
    show win6_3.index ⟨(i 0).val / 16000, hN⟩ (0 : Fin 2) * 16000 ≤ (i 0).val
      ∧ (i 0).val < win6_3.index ⟨(i 0).val / 16000, hN⟩ (0 : Fin 2) * 16000 + 16000
    rw [e30]; show (i 0).val / 16000 * 16000 ≤ (i 0).val ∧ (i 0).val < (i 0).val / 16000 * 16000 + 16000; omega
  | ⟨1, _⟩ =>
    show win6_3.index ⟨(i 0).val / 16000, hN⟩ (1 : Fin 2) * 128 ≤ (i 1).val
      ∧ (i 1).val < win6_3.index ⟨(i 0).val / 16000, hN⟩ (1 : Fin 2) * 128 + 128
    rw [e31]; omega

theorem edgeLin6 (c : Dev nD) :
    (dat6 (F := Ideal) V c).arrAt 3 cfg6.N = Stage.edgeLin (V c main_arg2) (V c main_v55) (V c main_v56) :=
  (dat6 (F := Ideal) V c).arrAt_eq_of_cover 3 _ (fun t _ => flushed6_eq V c t) cover6

end Cert.KVal

end
-- ==== Proof.RegHead.lean ====
import proofs.«404850_j82815559401961_3_alg».proof.Proof.Gen.KernelIdeal.Frame
import proofs.«404850_j82815559401961_3_alg».proof.Proof.Stage
import Idealize.ShloMosaic.Lib.Pipeline.Value
import Idealize.ShloMosaic.Lib.KernelVsHost
import Idealize.ShloMosaic.Lib.IdealHost

noncomputable section

namespace Cert.KVal

open Idealize.ShloMosaic Idealize.ShloMosaic.TcCoe Idealize.SL.Sem Cert.KernelIdeal Cert.KernelIdeal.Gen
open Idealize.ShloMosaic.Pipeline (Dat)
open Idealize.ShloMosaic.ValueIdx (ix2 eq_ix2)

variable [hR : Cert.ReferenceIdeal.Facts]
variable (V : (c : Dev nD) → (b : Ref sig .tc) → Buf (Elt Ideal) ((c : Thread nD τ).loc b))

private theorem broadcastTo_oneRow {α : Type} {m n : Nat} (x : (⟨2, ![1, n]⟩ : Shape).Idx → α)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ x hb = broadcastInDim ⟨2, ![m, n]⟩ ![0, 1] hd x := by
  funext i
  obtain ⟨r, t, rfl⟩ : ∃ (r : Fin m) (t : Fin n), i = ix2 r t := ⟨i 0, i 1, eq_ix2 i⟩
  rw [broadcastInDim_oneRow_apply hd x r t]
  refine broadcastTo_apply x hb (ix2 r t) (ix2 (0 : Fin 1) t) ?_
  intro a
  match a with
  | ⟨0, _⟩ => rfl
  | ⟨1, _⟩ =>
    show t.val = if n = 1 then 0 else t.val
    split
    · have := t.isLt; omega
    · rfl

private theorem logistic_eq_host {s : Shape} (y : FVec Ideal s .f32)
    (hb : (⟨0, ![]⟩ : Shape).BroadcastsInDim s ![]) :
    logistic y = Host.divf (broadcastInDim s ![] hb (constant (F := Ideal) ⟨0, ![]⟩ .f32 0x3F800000#32))
      (addf (broadcastInDim s ![] hb (constant (F := Ideal) ⟨0, ![]⟩ .f32 0x3F800000#32)) (Host.exp (Host.negf y))) := by
  funext j
  show Ideal.logistic (y j) = Ideal.div (Ideal.ofBits .f32 0x3F800000#32) (Ideal.ofBits .f32 0x3F800000#32 + Ideal.exp (-(y j)))
  rw [Ideal.ofBits_one_f32]
  rfl

private theorem headPay_eq (h : Vec Ideal S512x256 .f32) (W1T : Vec Ideal S256x256 .f32) (b1 : Vec Ideal S1x256 .f32)
    (W2T : Vec Ideal S256x1 .f32) (b2 : Vec Ideal S1x1 .f32) :
    k12_pay1 h W1T b1 W2T b2 = Stage.head h W1T b1 W2T b2 := by
  unfold k12_pay1 Stage.head Stage.reluH
  simp only [shapeCast_self]
  rw [matmul_zero_eq_dotGeneral, matmul_zero_eq_dotGeneral]
  rw [broadcastTo_oneRow (m := 512) (n := 256) b1 broadcasts_S1x256_S512x256 Cert.ReferenceIdeal.Facts₀.bcast_S1x256_S512x256_0_1]
  rw [broadcastTo_oneRow (m := 512) (n := 1) b2 broadcasts_S1x1_S512x1 Cert.ReferenceIdeal.Facts₀.bcast_S1x1_S512x1_0_1]
  rw [logistic_eq_host _ Cert.ReferenceIdeal.Facts₀.bcast_S_S512x1]
  have hd1 : (dot_S512x256_S256x256_S512x256_1_0_0_1_n_n : DotDims S512x256 S256x256 S512x256)
      = Cert.ReferenceIdeal.dot_S512x256_S256x256_S512x256_1_0_0_1_n_n := rfl
  have hd2 : (dot_S512x256_S256x1_S512x1_1_0_0_1_n_n : DotDims S512x256 S256x1 S512x1)
      = Cert.ReferenceIdeal.dot_S512x256_S256x1_S512x1_1_0_0_1_n_n := rfl
  rw [hd1, hd2]
  rfl

private theorem origin2 : (![0, 0] : Fin 2 → Nat) = fun _ => 0 := funext fun a => by fin_cases a <;> rfl

private theorem headBlk0 (c : Dev nD) (t : Fin cfg12.N) : (iblk12 (F := Ideal) V c 0 t : Vec Ideal S512x256 .f32) = V c main_v112 := by
  obtain rfl : t = t12_0 := fin_N12 t
  unfold iblk12
  have hz' : (fun a => win12_0.index t12_0 a * main_v112.ty.shape.size a) = fun _ => 0 := funext fun a => by fin_cases a <;> decide
  exact Memref.read_access_unit_zero (Elt Ideal) main_v112 hz' (fun a => by rw [congrFun hz' a]; simp) (V c main_v112)

private theorem headBlk1 (c : Dev nD) (t : Fin cfg12.N) : (iblk12 (F := Ideal) V c 1 t : Vec Ideal S256x256 .f32) = V c main_v113 := by
  obtain rfl : t = t12_0 := fin_N12 t
  unfold iblk12
  have hz' : (fun a => win12_1.index t12_0 a * main_v113.ty.shape.size a) = fun _ => 0 := funext fun a => by fin_cases a <;> decide
  exact Memref.read_access_unit_zero (Elt Ideal) main_v113 hz' (fun a => by rw [congrFun hz' a]; simp) (V c main_v113)

private theorem headBlk2 (c : Dev nD) (t : Fin cfg12.N) : (iblk12 (F := Ideal) V c 2 t : Vec Ideal S1x256 .f32) = V c main_v115 := by
  obtain rfl : t = t12_0 := fin_N12 t
  unfold iblk12
  have hz' : (fun a => win12_2.index t12_0 a * main_v115.ty.shape.size a) = fun _ => 0 := funext fun a => by fin_cases a <;> decide
  exact Memref.read_access_unit_zero (Elt Ideal) main_v115 hz' (fun a => by rw [congrFun hz' a]; simp) (V c main_v115)

private theorem headBlk3 (c : Dev nD) (t : Fin cfg12.N) : (iblk12 (F := Ideal) V c 3 t : Vec Ideal S256x1 .f32) = V c main_v114 := by
  obtain rfl : t = t12_0 := fin_N12 t
  unfold iblk12
  have hz' : (fun a => win12_3.index t12_0 a * main_v114.ty.shape.size a) = fun _ => 0 := funext fun a => by fin_cases a <;> decide
  exact Memref.read_access_unit_zero (Elt Ideal) main_v114 hz' (fun a => by rw [congrFun hz' a]; simp) (V c main_v114)

private theorem headBlk4 (c : Dev nD) (t : Fin cfg12.N) : (iblk12 (F := Ideal) V c 4 t : Vec Ideal S1x1 .f32) = V c main_v116 := by
  obtain rfl : t = t12_0 := fin_N12 t
  unfold iblk12
  have hz' : (fun a => win12_4.index t12_0 a * main_v116.ty.shape.size a) = fun _ => 0 := funext fun a => by fin_cases a <;> decide
  exact Memref.read_access_unit_zero (Elt Ideal) main_v116 hz' (fun a => by rw [congrFun hz' a]; simp) (V c main_v116)

private theorem headOut_read (t : Fin cfg12.N) (G : Vec Ideal S512x1 .f32) : ((cfg12.win 5).blk t).view.read (Elt Ideal) G = G := by
  obtain rfl : t = t12_0 := fin_N12 t
  have hz' : (fun a => win12_5.index t12_0 a * main_v117.ty.shape.size a) = fun _ => 0 := funext fun a => by fin_cases a <;> decide
  exact Memref.read_access_unit_zero (Elt Ideal) main_v117 hz' (fun a => by rw [congrFun hz' a]; simp) G

private theorem flushedHead (c : Dev nD) (t : Fin cfg12.N) :
    (dat12 (F := Ideal) V c).flushed 5 t = ((cfg12.win 5).blk t).view.read (Elt Ideal)
      (Stage.head (V c main_v112) (V c main_v113) (V c main_v115) (V c main_v114) (V c main_v116)) := by
  show (cfg12.win 5).cut (grid12.coords t) ((dat12 V c).after 5 t) = _
  rw [after12_5]
  unfold out12_5
  rw [View.canon_unit_zero origin2]
  simp only [View.ld_unit_zero (S := S512x256) origin2, View.ld_unit_zero (S := S256x256) origin2, View.ld_unit_zero (S := S1x256) origin2,
    View.ld_unit_zero (S := S256x1) origin2, View.ld_unit_zero (S := S1x1) origin2]
  rw [headBlk0 V c t, headBlk1 V c t, headBlk2 V c t, headBlk3 V c t, headBlk4 V c t, headOut_read t]
  exact headPay_eq (V c main_v112) (V c main_v113) (V c main_v115) (V c main_v114) (V c main_v116)

theorem head12 (c : Dev nD) :
    (dat12 (F := Ideal) V c).arrAt 5 cfg12.N = Stage.head (V c main_v112) (V c main_v113) (V c main_v115) (V c main_v114) (V c main_v116) :=
  (dat12 (F := Ideal) V c).arrAt_eq_of_cover 5 _ (fun t _ => flushedHead V c t) fun i =>
    ⟨t12_0, flush12_5 t12_0, by
      show i ∈ ((View.whole main_v117).slice (win12_5.rect t12_0)).set
      rw [View.set_slice_whole, Rect.mem_set_unit]
      intro a
      have h0 : (i 0 : Nat) < 512 := (i 0).isLt
      have h1 : (i 1 : Nat) < 1 := (i 1).isLt
      match a with
      | ⟨0, _⟩ =>
        show win12_5.index t12_0 0 * win12_5.size 0 ≤ (i 0 : Nat) ∧ (i 0 : Nat) < win12_5.index t12_0 0 * win12_5.size 0 + win12_5.xsize (grid12.coords t12_0) 0
        rw [show win12_5.index t12_0 0 * win12_5.size 0 = 0 from by decide +kernel, show win12_5.xsize (grid12.coords t12_0) 0 = 512 from by decide +kernel]; omega
      | ⟨1, _⟩ =>
        show win12_5.index t12_0 1 * win12_5.size 1 ≤ (i 1 : Nat) ∧ (i 1 : Nat) < win12_5.index t12_0 1 * win12_5.size 1 + win12_5.xsize (grid12.coords t12_0) 1
        rw [show win12_5.index t12_0 1 * win12_5.size 1 = 0 from by decide +kernel, show win12_5.xsize (grid12.coords t12_0) 1 = 1 from by decide +kernel]; omega⟩

end Cert.KVal

end
-- ==== Proof.RegLinTile.lean ====
import proofs.«404850_j82815559401961_3_alg».proof.Proof.Gen.KernelIdeal.Frame
import proofs.«404850_j82815559401961_3_alg».proof.Proof.Stage
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.KVal

open Idealize.ShloMosaic Idealize.ShloMosaic.TcCoe Idealize.SL.Sem Cert.KernelIdeal Cert.KernelIdeal.Gen
open Idealize.ShloMosaic.ValueIdx
open Idealize.ShloMosaic.Pipeline (Dat)

variable [hR : Cert.ReferenceIdeal.Facts]
variable (V : (c : Dev nD) → (b : Ref sig .tc) → Buf (Elt Ideal) ((c : Thread nD τ).loc b))

theorem linOrigin : (![0, 0] : Fin 2 → Nat) = fun _ => 0 := funext fun a => by fin_cases a <;> rfl

theorem linSum_apply (a s : Vec Ideal Cert.ReferenceIdeal.S50000x128 .f32) (WT : Vec Ideal Cert.ReferenceIdeal.S128x128 .f32)
    (b : Vec Ideal Cert.ReferenceIdeal.S1x128 .f32) (r : Fin 50000) (q : Fin 128) :
    Stage.linSum a s WT b (ix2 r q)
      = (∑ k : Fin 128, (a (ix2 r k) + s (ix2 r k)) * WT (ix2 k q)) + b (ix2 (0 : Fin 1) q) := by
  unfold Stage.linSum Stage.lin Stage.rowsN
  exact congrArg₂ (· + ·) (StackMember.dotGeneral_plain_apply none (addf a s) WT r q)
    (broadcastInDim_oneRow_apply _ b r q)

theorem linEntry1 (x0 x1 : Vec Ideal S5000x128 .f32) (x2 : Vec Ideal S128x128 .f32) (x3 : Vec Ideal S1x128 .f32)
    (r : Fin 5000) (q : Fin 128) :
    k1_pay1 x0 x1 x2 x3 (ix2 r q)
      = (∑ k : Fin 128, (x0 (ix2 r k) + x1 (ix2 r k)) * x2 (ix2 k q)) + x3 (ix2 (0 : Fin 1) q) := by
  unfold k1_pay1
  simp only [shapeCast_self]
  rw [matmul_zero_eq_dotGeneral]
  exact congrArg₂ (· + ·) (StackMember.dotGeneral_plain_apply none (addf x0 x1) x2 r q)
    (broadcastTo_1b_ab_apply x3 _ r q)

theorem linColSum1 (x0 x1 : Vec Ideal S5000x128 .f32) (x2 : Vec Ideal S128x128 .f32) (x3 : Vec Ideal S1x128 .f32)
    (p : Fin 8) (q : Fin 128) :
    k1_pay2 x0 x1 x2 x3 (ix2 p q) = ∑ r : Fin 5000, k1_pay1 x0 x1 x2 x3 (ix2 r q) := by
  unfold k1_pay2
  simp only [shapeCast_self]
  refine (broadcastTo_1b_ab_apply _ _ p q).trans ?_
  refine (shapeCast_a_1a_apply _ _ (0 : Fin 1) q).trans ?_
  exact Ideal.multiReduction_add_single (k1_pay1 x0 x1 x2 x3) 0x00000000#32 _ _ _ (ix1 q)

theorem linPlace1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem linPoints1 (t : Fin cfg1.N) : t.val < 10 := by
  have h : cfg1.N = 10 := N_1
  have := t.isLt
  omega

abbrev linAgg1 (c : Dev nD) : Vec Ideal Cert.ReferenceIdeal.S50000x128 .f32 := V c main_v18
abbrev linSx1 (c : Dev nD) : Vec Ideal Cert.ReferenceIdeal.S50000x128 .f32 := V c main_v21
abbrev linWt1 (c : Dev nD) : Vec Ideal Cert.ReferenceIdeal.S128x128 .f32 := V c main_v22
abbrev linBias1 (c : Dev nD) : Vec Ideal Cert.ReferenceIdeal.S1x128 .f32 := V c main_v24
abbrev linZ1 (c : Dev nD) : Vec Ideal Cert.ReferenceIdeal.S50000x128 .f32 :=
  Stage.linSum (linAgg1 V c) (linSx1 V c) (linWt1 V c) (linBias1 V c)

abbrev linAggT1 (c : Dev nD) (t : Fin cfg1.N) : Vec Ideal S5000x128 .f32 := iblk1 V c 0 t
abbrev linSxT1 (c : Dev nD) (t : Fin cfg1.N) : Vec Ideal S5000x128 .f32 := iblk1 V c 1 t
abbrev linWtT1 (c : Dev nD) (t : Fin cfg1.N) : Vec Ideal S128x128 .f32 := iblk1 V c 2 t
abbrev linBiasT1 (c : Dev nD) (t : Fin cfg1.N) : Vec Ideal S1x128 .f32 := iblk1 V c 3 t

def linRow1 (t : Fin cfg1.N) (r : Fin 5000) : Fin 50000 := ⟨5000 * t.val + r.val, by have := linPoints1 t; omega⟩

theorem linAggT1_apply (c : Dev nD) (t : Fin cfg1.N) (r : Fin 5000) (k : Fin 128) :
    linAggT1 V c t (ix2 r k) = linAgg1 V c (ix2 (linRow1 t r) k) := by
  obtain ⟨e0, e1, -⟩ := linPlace1 t
  show V c main_v18 (((cfg1.win 0).blk t).view.emb (ix2 r k)) = V c main_v18 (ix2 (linRow1 t r) k)
  refine congrArg (V c main_v18) (funext fun a => Fin.ext ?_)
  match a with
  | ⟨0, _⟩ => show win1_0.index t (0 : Fin 2) * 5000 + 1 * r.val = 5000 * t.val + r.val; omega
  | ⟨1, _⟩ => show win1_0.index t (1 : Fin 2) * 128 + 1 * k.val = k.val; omega

theorem linSxT1_apply (c : Dev nD) (t : Fin cfg1.N) (r : Fin 5000) (k : Fin 128) :
    linSxT1 V c t (ix2 r k) = linSx1 V c (ix2 (linRow1 t r) k) := by
  obtain ⟨-, -, e0, e1, -⟩ := linPlace1 t
  show V c main_v21 (((cfg1.win 1).blk t).view.emb (ix2 r k)) = V c main_v21 (ix2 (linRow1 t r) k)
  refine congrArg (V c main_v21) (funext fun a => Fin.ext ?_)
  match a with
  | ⟨0, _⟩ => show win1_1.index t (0 : Fin 2) * 5000 + 1 * r.val = 5000 * t.val + r.val; omega
  | ⟨1, _⟩ => show win1_1.index t (1 : Fin 2) * 128 + 1 * k.val = k.val; omega

theorem linWtT1_apply (c : Dev nD) (t : Fin cfg1.N) (k q : Fin 128) :
    linWtT1 V c t (ix2 k q) = linWt1 V c (ix2 k q) := by
  obtain ⟨-, -, -, -, e0, e1, -⟩ := linPlace1 t
  show V c main_v22 (((cfg1.win 2).blk t).view.emb (ix2 k q)) = V c main_v22 (ix2 k q)
  refine congrArg (V c main_v22) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem linBiasT1_apply (c : Dev nD) (t : Fin cfg1.N) (q : Fin 128) :
    linBiasT1 V c t (ix2 (0 : Fin 1) q) = linBias1 V c (ix2 (0 : Fin 1) q) := by
  obtain ⟨-, -, -, -, -, -, e0, e1, -⟩ := linPlace1 t
  show V c main_v24 (((cfg1.win 3).blk t).view.emb (ix2 (0 : Fin 1) q)) = V c main_v24 (ix2 (0 : Fin 1) q)
  refine congrArg (V c main_v24) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

theorem linTile1_eq (c : Dev nD) (t : Fin cfg1.N) (r : Fin 5000) (q : Fin 128) :
    k1_pay1 (linAggT1 V c t) (linSxT1 V c t) (linWtT1 V c t) (linBiasT1 V c t) (ix2 r q)
      = linZ1 V c (ix2 (linRow1 t r) q) := by
  refine (linEntry1 (linAggT1 V c t) (linSxT1 V c t) (linWtT1 V c t) (linBiasT1 V c t) r q).trans ?_
  refine Eq.trans ?_ (linSum_apply (linAgg1 V c) (linSx1 V c) (linWt1 V c) (linBias1 V c) (linRow1 t r) q).symm
  refine congrArg₂ (· + ·) (Finset.sum_congr rfl fun k _ => ?_) (linBiasT1_apply V c t q)
  rw [linAggT1_apply, linSxT1_apply, linWtT1_apply]

theorem linWrote1_z (c : Dev nD) (t : Fin cfg1.N) :
    (dat1 (F := Ideal) V c).flushed 4 t = ((cfg1.win 4).blk t).view.read (Elt Ideal) (linZ1 V c) := by
  show (cfg1.win 4).cut (grid1.coords t) ((dat1 (F := Ideal) V c).after 4 t) = _
  rw [after1_4]
  unfold out1_4
  rw [View.canon_unit_zero linOrigin]
  simp only [View.ld_unit_zero (S := S5000x128) linOrigin, View.ld_unit_zero (S := S128x128) linOrigin,
    View.ld_unit_zero (S := S1x128) linOrigin]
  obtain ⟨-, -, -, -, -, -, -, -, e0, e1, -⟩ := linPlace1 t
  funext j
  obtain ⟨r, q, rfl⟩ : ∃ (r : Fin 5000) (q : Fin 128), j = ix2 r q := ⟨j 0, j 1, eq_ix2 j⟩
  show k1_pay1 (linAggT1 V c t) (linSxT1 V c t) (linWtT1 V c t) (linBiasT1 V c t) (ix2 r q)
    = linZ1 V c (((cfg1.win 4).blk t).view.emb (ix2 r q))
  refine (linTile1_eq V c t r q).trans (congrArg (linZ1 V c) (funext fun a => Fin.ext ?_))
  match a with
  | ⟨0, _⟩ => show 5000 * t.val + r.val = win1_4.index t (0 : Fin 2) * 5000 + 1 * r.val; omega
  | ⟨1, _⟩ => show q.val = win1_4.index t (1 : Fin 2) * 128 + 1 * q.val; omega

theorem linWrote1_ps (c : Dev nD) (t : Fin cfg1.N) :
    (dat1 (F := Ideal) V c).flushed 5 t
      = ((cfg1.win 5).blk t).view.read (Elt Ideal) (Stage.tileSums (linZ1 V c)) := by
  show (cfg1.win 5).cut (grid1.coords t) ((dat1 (F := Ideal) V c).after 5 t) = _
  rw [after1_5]
  unfold out1_5
  rw [View.canon_unit_zero linOrigin]
  simp only [View.ld_unit_zero (S := S5000x128) linOrigin, View.ld_unit_zero (S := S128x128) linOrigin,
    View.ld_unit_zero (S := S1x128) linOrigin]
  obtain ⟨-, -, -, -, -, -, -, -, -, -, e0, e1⟩ := linPlace1 t
  funext j
  obtain ⟨p, q, rfl⟩ : ∃ (p : Fin 8) (q : Fin 128), j = ix2 p q := ⟨j 0, j 1, eq_ix2 j⟩
  show k1_pay2 (linAggT1 V c t) (linSxT1 V c t) (linWtT1 V c t) (linBiasT1 V c t) (ix2 p q)
    = Stage.tileSums (linZ1 V c) (((cfg1.win 5).blk t).view.emb (ix2 p q))
  refine (linColSum1 (linAggT1 V c t) (linSxT1 V c t) (linWtT1 V c t) (linBiasT1 V c t) p q).trans ?_
  unfold Stage.tileSums
  refine Finset.sum_congr rfl fun r _ => ?_
  refine (linTile1_eq V c t r q).trans (congrArg (linZ1 V c) (funext fun a => Fin.ext ?_))
  have hp := p.isLt
  match a with
  | ⟨0, _⟩ => show 5000 * t.val + r.val = 5000 * ((win1_5.index t (0 : Fin 2) * 8 + 1 * p.val) / 8) + r.val; omega
  | ⟨1, _⟩ => show q.val = win1_5.index t (1 : Fin 2) * 128 + 1 * q.val; omega

theorem linIn1_z (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v25_0).slice (win1_4.rect t)).set ↔ _
  rw [View.set_slice_whole, Rect.mem_set_unit]
  exact Iff.rfl

theorem linIn1_ps (t : Fin cfg1.N) (i : S80x128.Idx) :
    i ∈ ((cfg1.win 5).blk t).view.set ↔ ∀ a : Fin 2, win1_5.index t a * S8x128.size a ≤ (i a).val
      ∧ (i a).val < win1_5.index t a * S8x128.size a + S8x128.size a := by
  show i ∈ ((View.whole main_v25_1).slice (win1_5.rect t)).set ↔ _
  rw [View.set_slice_whole, Rect.mem_set_unit]
  exact Iff.rfl

theorem linCover1_z (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  let t : Fin cfg1.N := ⟨(i 0).val / 5000, by omega⟩
  obtain ⟨-, -, -, -, -, -, -, -, e0, e1, -⟩ := linPlace1 t
  have ht : t.val = (i 0).val / 5000 := rfl
  refine ⟨t, flush1_4 t, ?_⟩
  rw [linIn1_z]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

theorem linCover1_ps (i : S80x128.Idx) :
    ∃ t : Fin cfg1.N, (cfg1.win 5).flush t = true ∧ i ∈ ((cfg1.win 5).blk t).view.set := by
  have hi0 : (i 0).val < 80 := (i 0).isLt
  have hi1 : (i 1).val < 128 := (i 1).isLt
  have hN : cfg1.N = 10 := N_1
  let t : Fin cfg1.N := ⟨(i 0).val / 8, by omega⟩
  obtain ⟨-, -, -, -, -, -, -, -, -, -, e0, e1⟩ := linPlace1 t
  have ht : t.val = (i 0).val / 8 := rfl
  refine ⟨t, flush1_5 t, ?_⟩
  rw [linIn1_ps]
  intro a
  match a with
  | ⟨0, _⟩ =>
    show win1_5.index t (0 : Fin 2) * 8 ≤ (i 0).val ∧ (i 0).val < win1_5.index t (0 : Fin 2) * 8 + 8
    omega
  | ⟨1, _⟩ =>
    show win1_5.index t (1 : Fin 2) * 128 ≤ (i 1).val ∧ (i 1).val < win1_5.index t (1 : Fin 2) * 128 + 128
    omega

theorem lin1_z (c : Dev nD) :
    (dat1 (F := Ideal) V c).arrAt 4 cfg1.N = Stage.linSum (V c main_v18) (V c main_v21) (V c main_v22) (V c main_v24) :=
  (dat1 (F := Ideal) V c).arrAt_eq_of_cover 4 (linZ1 V c) (fun t _ => linWrote1_z V c t) linCover1_z

theorem lin1_ps (c : Dev nD) :
    (dat1 (F := Ideal) V c).arrAt 5 cfg1.N = Stage.tileSums (Stage.linSum (V c main_v18) (V c main_v21) (V c main_v22) (V c main_v24)) :=
  (dat1 (F := Ideal) V c).arrAt_eq_of_cover 5 (Stage.tileSums (linZ1 V c)) (fun t _ => linWrote1_ps V c t) linCover1_ps

end Cert.KVal

end
-- ==== Proof.RegLinSiblings.lean ====
/- Region 7, the same dense layer in the second block: the passage from the ten tiles to the whole arrays, as for region 1, at the names of region 7. -/
import proofs.«404850_j82815559401961_3_alg».proof.Proof.RegLinTile

noncomputable section

namespace Cert.KVal

open Idealize.ShloMosaic Idealize.ShloMosaic.TcCoe Idealize.SL.Sem Cert.KernelIdeal Cert.KernelIdeal.Gen
open Idealize.ShloMosaic.ValueIdx
open Idealize.ShloMosaic.Pipeline (Dat)

variable [hR : Cert.ReferenceIdeal.Facts]
variable (V : (c : Dev nD) → (b : Ref sig .tc) → Buf (Elt Ideal) ((c : Thread nD τ).loc b))

/-! ## Region 7: the ten row tiles against the whole arrays -/

/-- Entry (r, q) of a tile's dense layer: the same expression over the tile's 5000 rows. The product into a
    zero accumulator is the plain product. -/
theorem linEntry7 (x0 x1 : Vec Ideal S5000x128 .f32) (x2 : Vec Ideal S128x128 .f32) (x3 : Vec Ideal S1x128 .f32)
    (r : Fin 5000) (q : Fin 128) :
    k7_pay1 x0 x1 x2 x3 (ix2 r q)
      = (∑ k : Fin 128, (x0 (ix2 r k) + x1 (ix2 r k)) * x2 (ix2 k q)) + x3 (ix2 (0 : Fin 1) q) := by
  unfold k7_pay1
  simp only [shapeCast_self]
  rw [matmul_zero_eq_dotGeneral]
  exact congrArg₂ (· + ·) (StackMember.dotGeneral_plain_apply none (addf x0 x1) x2 r q)
    (broadcastTo_1b_ab_apply x3 _ r q)

/-- Every row of a tile's 8-row block of sums holds, at column q, the sum down the tile's 5000 rows. -/
theorem linColSum7 (x0 x1 : Vec Ideal S5000x128 .f32) (x2 : Vec Ideal S128x128 .f32) (x3 : Vec Ideal S1x128 .f32)
    (p : Fin 8) (q : Fin 128) :
    k7_pay2 x0 x1 x2 x3 (ix2 p q) = ∑ r : Fin 5000, k7_pay1 x0 x1 x2 x3 (ix2 r q) := by
  unfold k7_pay2
  simp only [shapeCast_self]
  refine (broadcastTo_1b_ab_apply _ _ p q).trans ?_
  refine (shapeCast_a_1a_apply _ _ (0 : Fin 1) q).trans ?_
  exact Ideal.multiReduction_add_single (k7_pay1 x0 x1 x2 x3) 0x00000000#32 _ _ _ (ix1 q)

/-- Where each window's block sits at grid point t: the two operand tiles, the output tile and the block of
    sums move with t along the rows; the weights and the bias row stay at the origin. -/
theorem linPlace7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0 :=
  (by decide +kernel : ∀ t : Fin grid7.N, _)

/-- The grid has 10 points. -/
theorem linPoints7 (t : Fin cfg7.N) : t.val < 10 := by
  have h : cfg7.N = 10 := N_7
  have := t.isLt
  omega

/-- The operand arrays as the region finds them, and the dense layer of them. -/
abbrev linAgg7 (c : Dev nD) : Vec Ideal Cert.ReferenceIdeal.S50000x128 .f32 := V c main_v69
abbrev linSx7 (c : Dev nD) : Vec Ideal Cert.ReferenceIdeal.S50000x128 .f32 := V c main_v72
abbrev linWt7 (c : Dev nD) : Vec Ideal Cert.ReferenceIdeal.S128x128 .f32 := V c main_v73
abbrev linBias7 (c : Dev nD) : Vec Ideal Cert.ReferenceIdeal.S1x128 .f32 := V c main_v75
abbrev linZ7 (c : Dev nD) : Vec Ideal Cert.ReferenceIdeal.S50000x128 .f32 :=
  Stage.linSum (linAgg7 V c) (linSx7 V c) (linWt7 V c) (linBias7 V c)

/-- The blocks the body reads at point t. -/
abbrev linAggT7 (c : Dev nD) (t : Fin cfg7.N) : Vec Ideal S5000x128 .f32 := iblk7 V c 0 t
abbrev linSxT7 (c : Dev nD) (t : Fin cfg7.N) : Vec Ideal S5000x128 .f32 := iblk7 V c 1 t
abbrev linWtT7 (c : Dev nD) (t : Fin cfg7.N) : Vec Ideal S128x128 .f32 := iblk7 V c 2 t
abbrev linBiasT7 (c : Dev nD) (t : Fin cfg7.N) : Vec Ideal S1x128 .f32 := iblk7 V c 3 t

/-- Row r of tile t is row 5000 t + r of the array. -/
def linRow7 (t : Fin cfg7.N) (r : Fin 5000) : Fin 50000 := ⟨5000 * t.val + r.val, by have := linPoints7 t; omega⟩

theorem linAggT7_apply (c : Dev nD) (t : Fin cfg7.N) (r : Fin 5000) (k : Fin 128) :
    linAggT7 V c t (ix2 r k) = linAgg7 V c (ix2 (linRow7 t r) k) := by
  obtain ⟨e0, e1, -⟩ := linPlace7 t
  show V c main_v69 (((cfg7.win 0).blk t).view.emb (ix2 r k)) = V c main_v69 (ix2 (linRow7 t r) k)
  refine congrArg (V c main_v69) (funext fun a => Fin.ext ?_)
  match a with
  | ⟨0, _⟩ => show win7_0.index t (0 : Fin 2) * 5000 + 1 * r.val = 5000 * t.val + r.val; omega
  | ⟨1, _⟩ => show win7_0.index t (1 : Fin 2) * 128 + 1 * k.val = k.val; omega

theorem linSxT7_apply (c : Dev nD) (t : Fin cfg7.N) (r : Fin 5000) (k : Fin 128) :
    linSxT7 V c t (ix2 r k) = linSx7 V c (ix2 (linRow7 t r) k) := by
  obtain ⟨-, -, e0, e1, -⟩ := linPlace7 t
  show V c main_v72 (((cfg7.win 1).blk t).view.emb (ix2 r k)) = V c main_v72 (ix2 (linRow7 t r) k)
  refine congrArg (V c main_v72) (funext fun a => Fin.ext ?_)
  match a with
  | ⟨0, _⟩ => show win7_1.index t (0 : Fin 2) * 5000 + 1 * r.val = 5000 * t.val + r.val; omega
  | ⟨1, _⟩ => show win7_1.index t (1 : Fin 2) * 128 + 1 * k.val = k.val; omega

theorem linWtT7_apply (c : Dev nD) (t : Fin cfg7.N) (k q : Fin 128) :
    linWtT7 V c t (ix2 k q) = linWt7 V c (ix2 k q) := by
  obtain ⟨-, -, -, -, e0, e1, -⟩ := linPlace7 t
  show V c main_v73 (((cfg7.win 2).blk t).view.emb (ix2 k q)) = V c main_v73 (ix2 k q)
  refine congrArg (V c main_v73) (funext fun a => Fin.ext ?_)
  match a with
  | ⟨0, _⟩ => show win7_2.index t (0 : Fin 2) * 128 + 1 * k.val = k.val; omega
  | ⟨1, _⟩ => show win7_2.index t (1 : Fin 2) * 128 + 1 * q.val = q.val; omega

theorem linBiasT7_apply (c : Dev nD) (t : Fin cfg7.N) (q : Fin 128) :
    linBiasT7 V c t (ix2 (0 : Fin 1) q) = linBias7 V c (ix2 (0 : Fin 1) q) := by
  obtain ⟨-, -, -, -, -, -, e0, e1, -⟩ := linPlace7 t
  show V c main_v75 (((cfg7.win 3).blk t).view.emb (ix2 (0 : Fin 1) q)) = V c main_v75 (ix2 (0 : Fin 1) q)
  refine congrArg (V c main_v75) (funext fun a => Fin.ext ?_)
  match a with
  | ⟨0, _⟩ => show win7_3.index t (0 : Fin 2) * 1 + 1 * 0 = 0; omega
  | ⟨1, _⟩ => show win7_3.index t (1 : Fin 2) * 128 + 1 * q.val = q.val; omega

/-- THE TILE IS THE ARRAY'S ROWS: entry (r, q) of tile t's dense layer is entry (5000 t + r, q) of the
    whole arrays'. -/
theorem linTile7_eq (c : Dev nD) (t : Fin cfg7.N) (r : Fin 5000) (q : Fin 128) :
    k7_pay1 (linAggT7 V c t) (linSxT7 V c t) (linWtT7 V c t) (linBiasT7 V c t) (ix2 r q)
      = linZ7 V c (ix2 (linRow7 t r) q) := by
  refine (linEntry7 (linAggT7 V c t) (linSxT7 V c t) (linWtT7 V c t) (linBiasT7 V c t) r q).trans ?_
  refine Eq.trans ?_ (linSum_apply (linAgg7 V c) (linSx7 V c) (linWt7 V c) (linBias7 V c) (linRow7 t r) q).symm
  refine congrArg₂ (· + ·) (Finset.sum_congr rfl fun k _ => ?_) (linBiasT7_apply V c t q)
  rw [linAggT7_apply, linSxT7_apply, linWtT7_apply]

/-- WHAT POINT t WRITES BACK into the first output: rows 5000 t … 5000 t + 4999 of the whole arrays' dense layer. -/
theorem linWrote7_z (c : Dev nD) (t : Fin cfg7.N) :
    (dat7 (F := Ideal) V c).flushed 4 t = ((cfg7.win 4).blk t).view.read (Elt Ideal) (linZ7 V c) := by
  show (cfg7.win 4).cut (grid7.coords t) ((dat7 (F := Ideal) V c).after 4 t) = _
  rw [after7_4]
  unfold out7_4
  rw [View.canon_unit_zero linOrigin]
  simp only [View.ld_unit_zero (S := S5000x128) linOrigin, View.ld_unit_zero (S := S128x128) linOrigin,
    View.ld_unit_zero (S := S1x128) linOrigin]
  obtain ⟨-, -, -, -, -, -, -, -, e0, e1, -⟩ := linPlace7 t
  funext j
  obtain ⟨r, q, rfl⟩ : ∃ (r : Fin 5000) (q : Fin 128), j = ix2 r q := ⟨j 0, j 1, eq_ix2 j⟩
  show k7_pay1 (linAggT7 V c t) (linSxT7 V c t) (linWtT7 V c t) (linBiasT7 V c t) (ix2 r q)
    = linZ7 V c (((cfg7.win 4).blk t).view.emb (ix2 r q))
  refine (linTile7_eq V c t r q).trans (congrArg (linZ7 V c) (funext fun a => Fin.ext ?_))
  match a with
  | ⟨0, _⟩ => show 5000 * t.val + r.val = win7_4.index t (0 : Fin 2) * 5000 + 1 * r.val; omega
  | ⟨1, _⟩ => show q.val = win7_4.index t (1 : Fin 2) * 128 + 1 * q.val; omega

/-- WHAT POINT t WRITES BACK into the second output: rows 8 t … 8 t + 7 of the array of tile sums. -/
theorem linWrote7_ps (c : Dev nD) (t : Fin cfg7.N) :
    (dat7 (F := Ideal) V c).flushed 5 t
      = ((cfg7.win 5).blk t).view.read (Elt Ideal) (Stage.tileSums (linZ7 V c)) := by
  show (cfg7.win 5).cut (grid7.coords t) ((dat7 (F := Ideal) V c).after 5 t) = _
  rw [after7_5]
  unfold out7_5
  rw [View.canon_unit_zero linOrigin]
  simp only [View.ld_unit_zero (S := S5000x128) linOrigin, View.ld_unit_zero (S := S128x128) linOrigin,
    View.ld_unit_zero (S := S1x128) linOrigin]
  obtain ⟨-, -, -, -, -, -, -, -, -, -, e0, e1⟩ := linPlace7 t
  funext j
  obtain ⟨p, q, rfl⟩ : ∃ (p : Fin 8) (q : Fin 128), j = ix2 p q := ⟨j 0, j 1, eq_ix2 j⟩
  show k7_pay2 (linAggT7 V c t) (linSxT7 V c t) (linWtT7 V c t) (linBiasT7 V c t) (ix2 p q)
    = Stage.tileSums (linZ7 V c) (((cfg7.win 5).blk t).view.emb (ix2 p q))
  refine (linColSum7 (linAggT7 V c t) (linSxT7 V c t) (linWtT7 V c t) (linBiasT7 V c t) p q).trans ?_
  unfold Stage.tileSums
  refine Finset.sum_congr rfl fun r _ => ?_
  refine (linTile7_eq V c t r q).trans (congrArg (linZ7 V c) (funext fun a => Fin.ext ?_))
  have hp := p.isLt
  match a with
  | ⟨0, _⟩ => show 5000 * t.val + r.val = 5000 * ((win7_5.index t (0 : Fin 2) * 8 + 1 * p.val) / 8) + r.val; omega
  | ⟨1, _⟩ => show q.val = win7_5.index t (1 : Fin 2) * 128 + 1 * q.val; omega

/-- An entry of the first output array is in point t's block iff each coordinate is in the block's range. -/
theorem linIn7_z (t : Fin cfg7.N) (i : S50000x128.Idx) :
    i ∈ ((cfg7.win 4).blk t).view.set ↔ ∀ a : Fin 2, win7_4.index t a * S5000x128.size a ≤ (i a).val
      ∧ (i a).val < win7_4.index t a * S5000x128.size a + S5000x128.size a := by
  show i ∈ ((View.whole main_v76_0).slice (win7_4.rect t)).set ↔ _
  rw [View.set_slice_whole, Rect.mem_set_unit]
  exact Iff.rfl

/-- An entry of the array of tile sums is in point t's block iff each coordinate is in the block's range. -/
theorem linIn7_ps (t : Fin cfg7.N) (i : S80x128.Idx) :
    i ∈ ((cfg7.win 5).blk t).view.set ↔ ∀ a : Fin 2, win7_5.index t a * S8x128.size a ≤ (i a).val
      ∧ (i a).val < win7_5.index t a * S8x128.size a + S8x128.size a := by
  show i ∈ ((View.whole main_v76_1).slice (win7_5.rect t)).set ↔ _
  rw [View.set_slice_whole, Rect.mem_set_unit]
  exact Iff.rfl

/-- Row r of the first output is written by the point of its tile, r / 5000. -/
theorem linCover7_z (i : S50000x128.Idx) :
    ∃ t : Fin cfg7.N, (cfg7.win 4).flush t = true ∧ i ∈ ((cfg7.win 4).blk t).view.set := by
  have hi0 : (i 0).val < 50000 := (i 0).isLt
  have hi1 : (i 1).val < 128 := (i 1).isLt
  have hN : cfg7.N = 10 := N_7
  let t : Fin cfg7.N := ⟨(i 0).val / 5000, by omega⟩
  obtain ⟨-, -, -, -, -, -, -, -, e0, e1, -⟩ := linPlace7 t
  have ht : t.val = (i 0).val / 5000 := rfl
  refine ⟨t, flush7_4 t, ?_⟩
  rw [linIn7_z]
  intro a
  match a with
  | ⟨0, _⟩ =>
    show win7_4.index t (0 : Fin 2) * 5000 ≤ (i 0).val ∧ (i 0).val < win7_4.index t (0 : Fin 2) * 5000 + 5000
    omega
  | ⟨1, _⟩ =>
    show win7_4.index t (1 : Fin 2) * 128 ≤ (i 1).val ∧ (i 1).val < win7_4.index t (1 : Fin 2) * 128 + 128
    omega

/-- Row r of the array of tile sums is written by the point of its block, r / 8. -/
theorem linCover7_ps (i : S80x128.Idx) :
    ∃ t : Fin cfg7.N, (cfg7.win 5).flush t = true ∧ i ∈ ((cfg7.win 5).blk t).view.set := by
  have hi0 : (i 0).val < 80 := (i 0).isLt
  have hi1 : (i 1).val < 128 := (i 1).isLt
  have hN : cfg7.N = 10 := N_7
  let t : Fin cfg7.N := ⟨(i 0).val / 8, by omega⟩
  obtain ⟨-, -, -, -, -, -, -, -, -, -, e0, e1⟩ := linPlace7 t
  have ht : t.val = (i 0).val / 8 := rfl
  refine ⟨t, flush7_5 t, ?_⟩
  rw [linIn7_ps]
  intro a
  match a with
  | ⟨0, _⟩ =>
    show win7_5.index t (0 : Fin 2) * 8 ≤ (i 0).val ∧ (i 0).val < win7_5.index t (0 : Fin 2) * 8 + 8
    omega
  | ⟨1, _⟩ =>
    show win7_5.index t (1 : Fin 2) * 128 ≤ (i 1).val ∧ (i 1).val < win7_5.index t (1 : Fin 2) * 128 + 128
    omega

/-- Region 7, output 0: after its 10 row tiles, the dense layer of the sum of the two operand arrays, whole. -/
theorem lin7_z (c : Dev nD) :
    (dat7 (F := Ideal) V c).arrAt 4 cfg7.N = Stage.linSum (V c main_v69) (V c main_v72) (V c main_v73) (V c main_v75) :=
  (dat7 (F := Ideal) V c).arrAt_eq_of_cover 4 (linZ7 V c) (fun t _ => linWrote7_z V c t) linCover7_z

/-- Region 7, output 1: the tile sums of output 0. -/
theorem lin7_ps (c : Dev nD) :
    (dat7 (F := Ideal) V c).arrAt 5 cfg7.N = Stage.tileSums (Stage.linSum (V c main_v69) (V c main_v72) (V c main_v73) (V c main_v75)) :=
  (dat7 (F := Ideal) V c).arrAt_eq_of_cover 5 (Stage.tileSums (linZ7 V c)) (fun t _ => linWrote7_ps V c t) linCover7_ps

end Cert.KVal

end
-- ==== Proof.RegLin.lean ====
import proofs.«404850_j82815559401961_3_alg».proof.Proof.RegLinTile
import proofs.«404850_j82815559401961_3_alg».proof.Proof.RegLinSiblings
-- ==== Proof.RegVarTile.lean ====
import proofs.«404850_j82815559401961_3_alg».proof.Proof.Gen.KernelIdeal.Frame
import proofs.«404850_j82815559401961_3_alg».proof.Proof.Stage
import Idealize.ShloMosaic.Lib.Pipeline.Value
import Idealize.ShloMosaic.Lib.ValueLayout
import Idealize.ShloMosaic.PureOps.Ideal.Laws

noncomputable section

namespace Cert.KVal

open Idealize.ShloMosaic Idealize.ShloMosaic.TcCoe Idealize.SL.Sem Cert.KernelIdeal Cert.KernelIdeal.Gen
open Idealize.ShloMosaic.ValueIdx
open Idealize.ShloMosaic.Pipeline (Dat)

variable [hR : Cert.ReferenceIdeal.Facts]
variable (V : (c : Dev nD) → (b : Ref sig .tc) → Buf (Elt Ideal) ((c : Thread nD τ).loc b))

private theorem lift_rows (h : S5000x128.Reduces [0] S128) (q : Fin 128)
    (k : Fin (S5000x128.size 0)) : h.lift (ix1 q) k = ix2 (⟨k.val, k.isLt⟩ : Fin 5000) q := by
  funext c; apply Fin.ext
  fin_cases c <;> rfl

private theorem colSum_apply (x : FVec Ideal S5000x128 .f32) (q : Fin 128) :
    multiReduction .add [0] S128 x 0x00000000#32 reduces_S5000x128_S128 (.inl rfl) rfl (ix1 q) = ∑ r : Fin 5000, x (ix2 r q) := by
  refine (Ideal.multiReduction_add_single x 0x00000000#32 reduces_S5000x128_S128 (.inl rfl) rfl (ix1 q)).trans ?_
  exact Finset.sum_congr rfl fun k _ => congrArg x (lift_rows _ q k)

theorem varPartial_apply (x0 : Vec Ideal S5000x128 .f32) (x1 : Vec Ideal S1x128 .f32) (p : Fin 8) (q : Fin 128) :
    k2_pay1 x0 x1 (ix2 p q) = ∑ r : Fin 5000, (x0 (ix2 r q) - x1 (ix2 (0 : Fin 1) q)) * (x0 (ix2 r q) - x1 (ix2 (0 : Fin 1) q)) := by
  unfold k2_pay1
  dsimp only
  refine (broadcastTo_1b_ab_apply _ _ p q).trans ?_
  refine (congrFun (shapeCast_self _ _) _).trans ?_
  refine (shapeCast_a_1a_apply _ _ 0 q).trans ?_
  refine (colSum_apply _ q).trans ?_
  refine Finset.sum_congr rfl fun r _ => ?_
  show (shapeCast S5000x128 x0 shapeCasts_S5000x128_S5000x128 (ix2 r q)
      - broadcastTo S5000x128 (shapeCast S1x128 x1 shapeCasts_S1x128_S1x128) broadcasts_S1x128_S5000x128 (ix2 r q))
    * (shapeCast S5000x128 x0 shapeCasts_S5000x128_S5000x128 (ix2 r q)
      - broadcastTo S5000x128 (shapeCast S1x128 x1 shapeCasts_S1x128_S1x128) broadcasts_S1x128_S5000x128 (ix2 r q)) = _
  rw [shapeCast_self, broadcastTo_1b_ab_apply, shapeCast_self]

theorem rowsN_apply (m : Vec Ideal Cert.ReferenceIdeal.S1x128 .f32) (a : Fin 50000) (b : Fin 128) :
    Stage.rowsN m (ix2 a b) = m (ix2 (0 : Fin 1) b) := by
  unfold Stage.rowsN
  refine broadcastInDim_apply _ _ m (ix2 a b) (ix2 (0 : Fin 1) b) fun ax => ?_
  match ax with
  | ⟨0, _⟩ => rfl
  | ⟨1, _⟩ => rfl

theorem sqDev_apply (z : Vec Ideal Cert.ReferenceIdeal.S50000x128 .f32) (m : Vec Ideal Cert.ReferenceIdeal.S1x128 .f32) (a : Fin 50000) (b : Fin 128) :
    Stage.sqDev z m (ix2 a b) = (z (ix2 a b) - m (ix2 (0 : Fin 1) b)) * (z (ix2 a b) - m (ix2 (0 : Fin 1) b)) := by
  show (z (ix2 a b) - Stage.rowsN m (ix2 a b)) * (z (ix2 a b) - Stage.rowsN m (ix2 a b)) = _
  rw [rowsN_apply]

theorem tileSums_apply (z : Vec Ideal Cert.ReferenceIdeal.S50000x128 .f32) (i : (⟨2, ![80, 128]⟩ : Shape).Idx) (tt : Fin 10) (q : Fin 128)
    (ht : (i 0).val / 8 = tt.val) (hq : (i 1).val = q.val) :
    Stage.tileSums z i = ∑ r : Fin 5000, z (ix2 (⟨5000 * tt.val + r.val, by have := tt.isLt; have := r.isLt; omega⟩ : Fin 50000) q) := by
  unfold Stage.tileSums
  refine Finset.sum_congr rfl fun r _ => congrArg z ?_
  funext a; apply Fin.ext
  match a with
  | ⟨0, _⟩ => show 5000 * ((i 0).val / 8) + r.val = 5000 * tt.val + r.val; rw [ht]
  | ⟨1, _⟩ => show (i 1).val = q.val; exact hq

theorem zeroOff2 : (![0, 0] : Fin 2 → Nat) = fun _ => 0 := funext fun a => by fin_cases a <;> rfl

theorem tileIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem zTile2_apply (c : Dev nD) (t : Fin cfg2.N) (r : Fin 5000) (q : Fin 128) (k : S50000x128.Idx)
    (hk0 : (k 0).val = 5000 * t.val + r.val) (hk1 : (k 1).val = q.val) :
    (iblk2 V c 0 t : Vec Ideal S5000x128 .f32) (ix2 r q) = (V c main_v25_0 : Vec Ideal S50000x128 .f32) k := by
  obtain ⟨e0, e1, -⟩ := tileIdx2 t
  unfold iblk2
  rw [View.read_apply]
  show V c main_v25_0 _ = V c main_v25_0 k
  congr 1
  funext a
  apply Fin.ext
  match a with
  | ⟨0, _⟩ => show win2_0.index t (0 : Fin 2) * 5000 + 1 * r.val = (k 0).val; rw [e0, hk0]; omega
  | ⟨1, _⟩ => show win2_0.index t (1 : Fin 2) * 128 + 1 * q.val = (k 1).val; rw [e1, hk1]; omega

theorem mRow2_apply (c : Dev nD) (t : Fin cfg2.N) (q : Fin 128) :
    (iblk2 V c 1 t : Vec Ideal S1x128 .f32) (ix2 (0 : Fin 1) q) = (V c main_v29 : Vec Ideal S1x128 .f32) (ix2 (0 : Fin 1) q) := by
  obtain ⟨-, -, e2, e3, -⟩ := tileIdx2 t
  unfold iblk2
  rw [View.read_apply]
  show V c main_v29 _ = V c main_v29 _
  congr 1
  funext a
  apply Fin.ext
  match a with
  | ⟨0, _⟩ => show win2_1.index t (0 : Fin 2) * 1 + 1 * 0 = 0; rw [e2]
  | ⟨1, _⟩ => show win2_1.index t (1 : Fin 2) * 128 + 1 * q.val = q.val; rw [e3]; omega

theorem flushedVar2 (c : Dev nD) (t : Fin cfg2.N) :
    (dat2 (F := Ideal) V c).flushed 2 t = ((cfg2.win 2).blk t).view.read (Elt Ideal) (Stage.tileSums (Stage.sqDev (V c main_v25_0) (V c main_v29))) := by
  show (cfg2.win 2).cut (grid2.coords t) ((dat2 V c).after 2 t) = _
  rw [after2_2]
  unfold out2_2
  rw [View.canon_unit_zero zeroOff2]
  simp only [View.ld_unit_zero (S := S5000x128) zeroOff2, View.ld_unit_zero (S := S1x128) zeroOff2]
  have hN : cfg2.N = 10 := N_2
  have ht : t.val < 10 := by have := t.isLt; omega
  obtain ⟨-, -, -, -, e4, e5⟩ := tileIdx2 t
  funext j
  obtain ⟨p, q, rfl⟩ : ∃ (p : Fin 8) (q : Fin 128), j = ix2 p q := ⟨j 0, j 1, eq_ix2 j⟩
  show k2_pay1 (iblk2 V c 0 t) (iblk2 V c 1 t) (ix2 p q)
    = Stage.tileSums (Stage.sqDev (V c main_v25_0) (V c main_v29)) (((cfg2.win 2).blk t).view.emb (ix2 p q))
  refine (varPartial_apply (iblk2 V c 0 t) (iblk2 V c 1 t) p q).trans ?_
  refine Eq.trans ?_ (tileSums_apply (Stage.sqDev (V c main_v25_0) (V c main_v29)) (((cfg2.win 2).blk t).view.emb (ix2 p q)) ⟨t.val, ht⟩ q ?_ ?_).symm
  · refine Finset.sum_congr rfl fun r _ => ?_
    refine Eq.trans ?_ (sqDev_apply (V c main_v25_0) (V c main_v29) _ q).symm
    rw [zTile2_apply V c t r q (ix2 (⟨5000 * t.val + r.val, by have := r.isLt; omega⟩ : Fin 50000) q) rfl rfl, mRow2_apply V c t q]
  · show (win2_2.index t (0 : Fin 2) * 8 + 1 * p.val) / 8 = t.val
    rw [e4]; have := p.isLt; omega
  · show win2_2.index t (1 : Fin 2) * 128 + 1 * q.val = q.val
    rw [e5]; omega

theorem memTile2 (t : Fin cfg2.N) (i : S80x128.Idx) :
    i ∈ ((cfg2.win 2).blk t).view.set ↔ ∀ a : Fin 2, win2_2.index t a * S8x128.size a ≤ (i a).val ∧ (i a).val < win2_2.index t a * S8x128.size a + S8x128.size a := by
  show i ∈ ((View.whole main_v30).slice (win2_2.rect t)).set ↔ _
  rw [View.set_slice_whole, Rect.mem_set_unit]
  exact Iff.rfl

theorem coverVar2 (i : S80x128.Idx) : ∃ t : Fin cfg2.N, (cfg2.win 2).flush t = true ∧ i ∈ ((cfg2.win 2).blk t).view.set := by
  have hN : cfg2.N = 10 := N_2
  have hi0 : (i 0).val < 80 := (i 0).isLt
  have hi1 : (i 1).val < 128 := (i 1).isLt
  refine ⟨⟨(i 0).val / 8, by omega⟩, flush2_2 _, ?_⟩
  obtain ⟨-, -, -, -, e4, e5⟩ := tileIdx2 ⟨(i 0).val / 8, by omega⟩
  rw [memTile2]
  intro a
  match a with
  | ⟨0, _⟩ => show win2_2.index _ (0 : Fin 2) * 8 ≤ (i 0).val ∧ (i 0).val < win2_2.index _ (0 : Fin 2) * 8 + 8; rw [e4]; show (i 0).val / 8 * 8 ≤ (i 0).val ∧ (i 0).val < (i 0).val / 8 * 8 + 8; omega
  | ⟨1, _⟩ => show win2_2.index _ (1 : Fin 2) * 128 ≤ (i 1).val ∧ (i 1).val < win2_2.index _ (1 : Fin 2) * 128 + 128; rw [e5]; omega

end Cert.KVal

end
-- ==== Proof.RegVarSiblings.lean ====
/- Regions 4, 8 and 10 of the row-tiled variance kernel: the passage from the ten tiles to the 80×128 array, as for region 2, over the buffers of each region. -/
import proofs.«404850_j82815559401961_3_alg».proof.Proof.RegVarTile

noncomputable section

namespace Cert.KVal

open Idealize.ShloMosaic Idealize.ShloMosaic.TcCoe Idealize.SL.Sem Cert.KernelIdeal Cert.KernelIdeal.Gen
open Idealize.ShloMosaic.ValueIdx
open Idealize.ShloMosaic.Pipeline (Dat)

variable [hR : Cert.ReferenceIdeal.Facts]
variable (V : (c : Dev nD) → (b : Ref sig .tc) → Buf (Elt Ideal) ((c : Thread nD τ).loc b))

/-! ## Region 4: from the tiles to the array -/

theorem zeroOff4 : (![0, 0] : Fin 2 → Nat) = fun _ => 0 := funext fun a => by fin_cases a <;> rfl

/-- The printed index maps over the grid of 10 row tiles: the z tile and the output's 8-row block move with the point,
    the row of centres stays at block 0. -/
theorem tileIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row `r` of the z tile at point `t` is row `5000 t + r` of the array. -/
theorem zTile4_apply (c : Dev nD) (t : Fin cfg4.N) (r : Fin 5000) (q : Fin 128) (k : S50000x128.Idx)
    (hk0 : (k 0).val = 5000 * t.val + r.val) (hk1 : (k 1).val = q.val) :
    (iblk4 V c 0 t : Vec Ideal S5000x128 .f32) (ix2 r q) = (V c main_v40_0 : Vec Ideal S50000x128 .f32) k := by
  obtain ⟨e0, e1, -⟩ := tileIdx4 t
  unfold iblk4
  rw [View.read_apply]
  show V c main_v40_0 _ = V c main_v40_0 k
  congr 1
  funext a
  apply Fin.ext
  match a with
  | ⟨0, _⟩ => show win4_0.index t (0 : Fin 2) * 5000 + 1 * r.val = (k 0).val; rw [e0, hk0]; omega
  | ⟨1, _⟩ => show win4_0.index t (1 : Fin 2) * 128 + 1 * q.val = (k 1).val; rw [e1, hk1]; omega

/-- The row of centres' block at any point is the row. -/
theorem mRow4_apply (c : Dev nD) (t : Fin cfg4.N) (q : Fin 128) :
    (iblk4 V c 1 t : Vec Ideal S1x128 .f32) (ix2 (0 : Fin 1) q) = (V c main_v44 : Vec Ideal S1x128 .f32) (ix2 (0 : Fin 1) q) := by
  obtain ⟨-, -, e2, e3, -⟩ := tileIdx4 t
  unfold iblk4
  rw [View.read_apply]
  show V c main_v44 _ = V c main_v44 _
  congr 1
  funext a
  apply Fin.ext
  match a with
  | ⟨0, _⟩ => show win4_1.index t (0 : Fin 2) * 1 + 1 * 0 = 0; rw [e2]
  | ⟨1, _⟩ => show win4_1.index t (1 : Fin 2) * 128 + 1 * q.val = q.val; rw [e3]; omega

/-- What point `t` writes back is block `t` of the tile sums of the squared deviations. -/
theorem flushedVar4 (c : Dev nD) (t : Fin cfg4.N) :
    (dat4 (F := Ideal) V c).flushed 2 t = ((cfg4.win 2).blk t).view.read (Elt Ideal) (Stage.tileSums (Stage.sqDev (V c main_v40_0) (V c main_v44))) := by
  show (cfg4.win 2).cut (grid4.coords t) ((dat4 V c).after 2 t) = _
  rw [after4_2]
  unfold out4_2
  rw [View.canon_unit_zero zeroOff4]
  simp only [View.ld_unit_zero (S := S5000x128) zeroOff4, View.ld_unit_zero (S := S1x128) zeroOff4]
  have hN : cfg4.N = 10 := N_4
  have ht : t.val < 10 := by have := t.isLt; omega
  obtain ⟨-, -, -, -, e4, e5⟩ := tileIdx4 t
  funext j
  obtain ⟨p, q, rfl⟩ : ∃ (p : Fin 8) (q : Fin 128), j = ix2 p q := ⟨j 0, j 1, eq_ix2 j⟩
  show k4_pay1 (iblk4 V c 0 t) (iblk4 V c 1 t) (ix2 p q)
    = Stage.tileSums (Stage.sqDev (V c main_v40_0) (V c main_v44)) (((cfg4.win 2).blk t).view.emb (ix2 p q))
  refine (varPartial_apply (iblk4 V c 0 t) (iblk4 V c 1 t) p q).trans ?_
  refine Eq.trans ?_ (tileSums_apply (Stage.sqDev (V c main_v40_0) (V c main_v44)) (((cfg4.win 2).blk t).view.emb (ix2 p q)) ⟨t.val, ht⟩ q ?_ ?_).symm
  · refine Finset.sum_congr rfl fun r _ => ?_
    refine Eq.trans ?_ (sqDev_apply (V c main_v40_0) (V c main_v44) _ q).symm
    rw [zTile4_apply V c t r q (ix2 (⟨5000 * t.val + r.val, by have := r.isLt; omega⟩ : Fin 50000) q) rfl rfl, mRow4_apply V c t q]
  · show (win4_2.index t (0 : Fin 2) * 8 + 1 * p.val) / 8 = t.val
    rw [e4]; have := p.isLt; omega
  · show win4_2.index t (1 : Fin 2) * 128 + 1 * q.val = q.val
    rw [e5]; omega

/-- An index of the 80×128 array is in point `t`'s block iff each coordinate is in the block's range on its axis. -/
theorem memTile4 (t : Fin cfg4.N) (i : S80x128.Idx) :
    i ∈ ((cfg4.win 2).blk t).view.set ↔ ∀ a : Fin 2, win4_2.index t a * S8x128.size a ≤ (i a).val ∧ (i a).val < win4_2.index t a * S8x128.size a + S8x128.size a := by
  show i ∈ ((View.whole main_v45).slice (win4_2.rect t)).set ↔ _
  rw [View.set_slice_whole, Rect.mem_set_unit]
  exact Iff.rfl

/-- Row `r` of the 80 lies in the block of point `r / 8`. -/
theorem coverVar4 (i : S80x128.Idx) : ∃ t : Fin cfg4.N, (cfg4.win 2).flush t = true ∧ i ∈ ((cfg4.win 2).blk t).view.set := by
  have hN : cfg4.N = 10 := N_4
  have hi0 : (i 0).val < 80 := (i 0).isLt
  have hi1 : (i 1).val < 128 := (i 1).isLt
  refine ⟨⟨(i 0).val / 8, by omega⟩, flush4_2 _, ?_⟩
  obtain ⟨-, -, -, -, e4, e5⟩ := tileIdx4 ⟨(i 0).val / 8, by omega⟩
  rw [memTile4]
  intro a
  match a with
  | ⟨0, _⟩ => show win4_2.index _ (0 : Fin 2) * 8 ≤ (i 0).val ∧ (i 0).val < win4_2.index _ (0 : Fin 2) * 8 + 8; rw [e4]; show (i 0).val / 8 * 8 ≤ (i 0).val ∧ (i 0).val < (i 0).val / 8 * 8 + 8; omega
  | ⟨1, _⟩ => show win4_2.index _ (1 : Fin 2) * 128 ≤ (i 1).val ∧ (i 1).val < win4_2.index _ (1 : Fin 2) * 128 + 128; rw [e5]; omega

/-! ## Region 8: from the tiles to the array -/

theorem zeroOff8 : (![0, 0] : Fin 2 → Nat) = fun _ => 0 := funext fun a => by fin_cases a <;> rfl

/-- The printed index maps over the grid of 10 row tiles: the z tile and the output's 8-row block move with the point,
    the row of centres stays at block 0. -/
theorem tileIdx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- Row `r` of the z tile at point `t` is row `5000 t + r` of the array. -/
theorem zTile8_apply (c : Dev nD) (t : Fin cfg8.N) (r : Fin 5000) (q : Fin 128) (k : S50000x128.Idx)
    (hk0 : (k 0).val = 5000 * t.val + r.val) (hk1 : (k 1).val = q.val) :
    (iblk8 V c 0 t : Vec Ideal S5000x128 .f32) (ix2 r q) = (V c main_v76_0 : Vec Ideal S50000x128 .f32) k := by
  obtain ⟨e0, e1, -⟩ := tileIdx8 t
  unfold iblk8
  rw [View.read_apply]
  show V c main_v76_0 _ = V c main_v76_0 k
  congr 1
  funext a
  apply Fin.ext
  match a with
  | ⟨0, _⟩ => show win8_0.index t (0 : Fin 2) * 5000 + 1 * r.val = (k 0).val; rw [e0, hk0]; omega
  | ⟨1, _⟩ => show win8_0.index t (1 : Fin 2) * 128 + 1 * q.val = (k 1).val; rw [e1, hk1]; omega

/-- The row of centres' block at any point is the row. -/
theorem mRow8_apply (c : Dev nD) (t : Fin cfg8.N) (q : Fin 128) :
    (iblk8 V c 1 t : Vec Ideal S1x128 .f32) (ix2 (0 : Fin 1) q) = (V c main_v80 : Vec Ideal S1x128 .f32) (ix2 (0 : Fin 1) q) := by
  obtain ⟨-, -, e2, e3, -⟩ := tileIdx8 t
  unfold iblk8
  rw [View.read_apply]
  show V c main_v80 _ = V c main_v80 _
  congr 1
  funext a
  apply Fin.ext
  match a with
  | ⟨0, _⟩ => show win8_1.index t (0 : Fin 2) * 1 + 1 * 0 = 0; rw [e2]
  | ⟨1, _⟩ => show win8_1.index t (1 : Fin 2) * 128 + 1 * q.val = q.val; rw [e3]; omega

/-- What point `t` writes back is block `t` of the tile sums of the squared deviations. -/
theorem flushedVar8 (c : Dev nD) (t : Fin cfg8.N) :
    (dat8 (F := Ideal) V c).flushed 2 t = ((cfg8.win 2).blk t).view.read (Elt Ideal) (Stage.tileSums (Stage.sqDev (V c main_v76_0) (V c main_v80))) := by
  show (cfg8.win 2).cut (grid8.coords t) ((dat8 V c).after 2 t) = _
  rw [after8_2]
  unfold out8_2
  rw [View.canon_unit_zero zeroOff8]
  simp only [View.ld_unit_zero (S := S5000x128) zeroOff8, View.ld_unit_zero (S := S1x128) zeroOff8]
  have hN : cfg8.N = 10 := N_8
  have ht : t.val < 10 := by have := t.isLt; omega
  obtain ⟨-, -, -, -, e4, e5⟩ := tileIdx8 t
  funext j
  obtain ⟨p, q, rfl⟩ : ∃ (p : Fin 8) (q : Fin 128), j = ix2 p q := ⟨j 0, j 1, eq_ix2 j⟩
  show k8_pay1 (iblk8 V c 0 t) (iblk8 V c 1 t) (ix2 p q)
    = Stage.tileSums (Stage.sqDev (V c main_v76_0) (V c main_v80)) (((cfg8.win 2).blk t).view.emb (ix2 p q))
  refine (varPartial_apply (iblk8 V c 0 t) (iblk8 V c 1 t) p q).trans ?_
  refine Eq.trans ?_ (tileSums_apply (Stage.sqDev (V c main_v76_0) (V c main_v80)) (((cfg8.win 2).blk t).view.emb (ix2 p q)) ⟨t.val, ht⟩ q ?_ ?_).symm
  · refine Finset.sum_congr rfl fun r _ => ?_
    refine Eq.trans ?_ (sqDev_apply (V c main_v76_0) (V c main_v80) _ q).symm
    rw [zTile8_apply V c t r q (ix2 (⟨5000 * t.val + r.val, by have := r.isLt; omega⟩ : Fin 50000) q) rfl rfl, mRow8_apply V c t q]
  · show (win8_2.index t (0 : Fin 2) * 8 + 1 * p.val) / 8 = t.val
    rw [e4]; have := p.isLt; omega
  · show win8_2.index t (1 : Fin 2) * 128 + 1 * q.val = q.val
    rw [e5]; omega

/-- An index of the 80×128 array is in point `t`'s block iff each coordinate is in the block's range on its axis. -/
theorem memTile8 (t : Fin cfg8.N) (i : S80x128.Idx) :
    i ∈ ((cfg8.win 2).blk t).view.set ↔ ∀ a : Fin 2, win8_2.index t a * S8x128.size a ≤ (i a).val ∧ (i a).val < win8_2.index t a * S8x128.size a + S8x128.size a := by
  show i ∈ ((View.whole main_v81).slice (win8_2.rect t)).set ↔ _
  rw [View.set_slice_whole, Rect.mem_set_unit]
  exact Iff.rfl

/-- Row `r` of the 80 lies in the block of point `r / 8`. -/
theorem coverVar8 (i : S80x128.Idx) : ∃ t : Fin cfg8.N, (cfg8.win 2).flush t = true ∧ i ∈ ((cfg8.win 2).blk t).view.set := by
  have hN : cfg8.N = 10 := N_8
  have hi0 : (i 0).val < 80 := (i 0).isLt
  have hi1 : (i 1).val < 128 := (i 1).isLt
  refine ⟨⟨(i 0).val / 8, by omega⟩, flush8_2 _, ?_⟩
  obtain ⟨-, -, -, -, e4, e5⟩ := tileIdx8 ⟨(i 0).val / 8, by omega⟩
  rw [memTile8]
  intro a
  match a with
  | ⟨0, _⟩ => show win8_2.index _ (0 : Fin 2) * 8 ≤ (i 0).val ∧ (i 0).val < win8_2.index _ (0 : Fin 2) * 8 + 8; rw [e4]; show (i 0).val / 8 * 8 ≤ (i 0).val ∧ (i 0).val < (i 0).val / 8 * 8 + 8; omega
  | ⟨1, _⟩ => show win8_2.index _ (1 : Fin 2) * 128 ≤ (i 1).val ∧ (i 1).val < win8_2.index _ (1 : Fin 2) * 128 + 128; rw [e5]; omega

/-! ## Region 10: from the tiles to the array -/

theorem zeroOff10 : (![0, 0] : Fin 2 → Nat) = fun _ => 0 := funext fun a => by fin_cases a <;> rfl

/-- The printed index maps over the grid of 10 row tiles: the z tile and the output's 8-row block move with the point,
    the row of centres stays at block 0. -/
theorem tileIdx10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- Row `r` of the z tile at point `t` is row `5000 t + r` of the array. -/
theorem zTile10_apply (c : Dev nD) (t : Fin cfg10.N) (r : Fin 5000) (q : Fin 128) (k : S50000x128.Idx)
    (hk0 : (k 0).val = 5000 * t.val + r.val) (hk1 : (k 1).val = q.val) :
    (iblk10 V c 0 t : Vec Ideal S5000x128 .f32) (ix2 r q) = (V c main_v91_0 : Vec Ideal S50000x128 .f32) k := by
  obtain ⟨e0, e1, -⟩ := tileIdx10 t
  unfold iblk10
  rw [View.read_apply]
  show V c main_v91_0 _ = V c main_v91_0 k
  congr 1
  funext a
  apply Fin.ext
  match a with
  | ⟨0, _⟩ => show win10_0.index t (0 : Fin 2) * 5000 + 1 * r.val = (k 0).val; rw [e0, hk0]; omega
  | ⟨1, _⟩ => show win10_0.index t (1 : Fin 2) * 128 + 1 * q.val = (k 1).val; rw [e1, hk1]; omega

/-- The row of centres' block at any point is the row. -/
theorem mRow10_apply (c : Dev nD) (t : Fin cfg10.N) (q : Fin 128) :
    (iblk10 V c 1 t : Vec Ideal S1x128 .f32) (ix2 (0 : Fin 1) q) = (V c main_v95 : Vec Ideal S1x128 .f32) (ix2 (0 : Fin 1) q) := by
  obtain ⟨-, -, e2, e3, -⟩ := tileIdx10 t
  unfold iblk10
  rw [View.read_apply]
  show V c main_v95 _ = V c main_v95 _
  congr 1
  funext a
  apply Fin.ext
  match a with
  | ⟨0, _⟩ => show win10_1.index t (0 : Fin 2) * 1 + 1 * 0 = 0; rw [e2]
  | ⟨1, _⟩ => show win10_1.index t (1 : Fin 2) * 128 + 1 * q.val = q.val; rw [e3]; omega

/-- What point `t` writes back is block `t` of the tile sums of the squared deviations. -/
theorem flushedVar10 (c : Dev nD) (t : Fin cfg10.N) :
    (dat10 (F := Ideal) V c).flushed 2 t = ((cfg10.win 2).blk t).view.read (Elt Ideal) (Stage.tileSums (Stage.sqDev (V c main_v91_0) (V c main_v95))) := by
  show (cfg10.win 2).cut (grid10.coords t) ((dat10 V c).after 2 t) = _
  rw [after10_2]
  unfold out10_2
  rw [View.canon_unit_zero zeroOff10]
  simp only [View.ld_unit_zero (S := S5000x128) zeroOff10, View.ld_unit_zero (S := S1x128) zeroOff10]
  have hN : cfg10.N = 10 := N_10
  have ht : t.val < 10 := by have := t.isLt; omega
  obtain ⟨-, -, -, -, e4, e5⟩ := tileIdx10 t
  funext j
  obtain ⟨p, q, rfl⟩ : ∃ (p : Fin 8) (q : Fin 128), j = ix2 p q := ⟨j 0, j 1, eq_ix2 j⟩
  show k10_pay1 (iblk10 V c 0 t) (iblk10 V c 1 t) (ix2 p q)
    = Stage.tileSums (Stage.sqDev (V c main_v91_0) (V c main_v95)) (((cfg10.win 2).blk t).view.emb (ix2 p q))
  refine (varPartial_apply (iblk10 V c 0 t) (iblk10 V c 1 t) p q).trans ?_
  refine Eq.trans ?_ (tileSums_apply (Stage.sqDev (V c main_v91_0) (V c main_v95)) (((cfg10.win 2).blk t).view.emb (ix2 p q)) ⟨t.val, ht⟩ q ?_ ?_).symm
  · refine Finset.sum_congr rfl fun r _ => ?_
    refine Eq.trans ?_ (sqDev_apply (V c main_v91_0) (V c main_v95) _ q).symm
    rw [zTile10_apply V c t r q (ix2 (⟨5000 * t.val + r.val, by have := r.isLt; omega⟩ : Fin 50000) q) rfl rfl, mRow10_apply V c t q]
  · show (win10_2.index t (0 : Fin 2) * 8 + 1 * p.val) / 8 = t.val
    rw [e4]; have := p.isLt; omega
  · show win10_2.index t (1 : Fin 2) * 128 + 1 * q.val = q.val
    rw [e5]; omega

/-- An index of the 80×128 array is in point `t`'s block iff each coordinate is in the block's range on its axis. -/
theorem memTile10 (t : Fin cfg10.N) (i : S80x128.Idx) :
    i ∈ ((cfg10.win 2).blk t).view.set ↔ ∀ a : Fin 2, win10_2.index t a * S8x128.size a ≤ (i a).val ∧ (i a).val < win10_2.index t a * S8x128.size a + S8x128.size a := by
  show i ∈ ((View.whole main_v96).slice (win10_2.rect t)).set ↔ _
  rw [View.set_slice_whole, Rect.mem_set_unit]
  exact Iff.rfl

/-- Row `r` of the 80 lies in the block of point `r / 8`. -/
theorem coverVar10 (i : S80x128.Idx) : ∃ t : Fin cfg10.N, (cfg10.win 2).flush t = true ∧ i ∈ ((cfg10.win 2).blk t).view.set := by
  have hN : cfg10.N = 10 := N_10
  have hi0 : (i 0).val < 80 := (i 0).isLt
  have hi1 : (i 1).val < 128 := (i 1).isLt
  refine ⟨⟨(i 0).val / 8, by omega⟩, flush10_2 _, ?_⟩
  obtain ⟨-, -, -, -, e4, e5⟩ := tileIdx10 ⟨(i 0).val / 8, by omega⟩
  rw [memTile10]
  intro a
  match a with
  | ⟨0, _⟩ => show win10_2.index _ (0 : Fin 2) * 8 ≤ (i 0).val ∧ (i 0).val < win10_2.index _ (0 : Fin 2) * 8 + 8; rw [e4]; show (i 0).val / 8 * 8 ≤ (i 0).val ∧ (i 0).val < (i 0).val / 8 * 8 + 8; omega
  | ⟨1, _⟩ => show win10_2.index _ (1 : Fin 2) * 128 ≤ (i 1).val ∧ (i 1).val < win10_2.index _ (1 : Fin 2) * 128 + 128; rw [e5]; omega

end Cert.KVal

end
-- ==== Proof.RegVar.lean ====
import proofs.«404850_j82815559401961_3_alg».proof.Proof.RegVarTile
import proofs.«404850_j82815559401961_3_alg».proof.Proof.RegVarSiblings

noncomputable section

namespace Cert.KVal

open Idealize.ShloMosaic Idealize.ShloMosaic.TcCoe Idealize.SL.Sem Cert.KernelIdeal Cert.KernelIdeal.Gen
open Idealize.ShloMosaic.Pipeline (Dat)

variable [hR : Cert.ReferenceIdeal.Facts]
variable (V : (c : Dev nD) → (b : Ref sig .tc) → Buf (Elt Ideal) ((c : Thread nD τ).loc b))

theorem var2 (c : Dev nD) :
    (dat2 (F := Ideal) V c).arrAt 2 cfg2.N = Stage.tileSums (Stage.sqDev (V c main_v25_0) (V c main_v29)) :=
  (dat2 (F := Ideal) V c).arrAt_eq_of_cover 2 (Stage.tileSums (Stage.sqDev (V c main_v25_0) (V c main_v29)))
    (fun t _ => flushedVar2 V c t) coverVar2

theorem var4 (c : Dev nD) :
    (dat4 (F := Ideal) V c).arrAt 2 cfg4.N = Stage.tileSums (Stage.sqDev (V c main_v40_0) (V c main_v44)) :=
  (dat4 (F := Ideal) V c).arrAt_eq_of_cover 2 (Stage.tileSums (Stage.sqDev (V c main_v40_0) (V c main_v44)))
    (fun t _ => flushedVar4 V c t) coverVar4

theorem var8 (c : Dev nD) :
    (dat8 (F := Ideal) V c).arrAt 2 cfg8.N = Stage.tileSums (Stage.sqDev (V c main_v76_0) (V c main_v80)) :=
  (dat8 (F := Ideal) V c).arrAt_eq_of_cover 2 (Stage.tileSums (Stage.sqDev (V c main_v76_0) (V c main_v80)))
    (fun t _ => flushedVar8 V c t) coverVar8

theorem var10 (c : Dev nD) :
    (dat10 (F := Ideal) V c).arrAt 2 cfg10.N = Stage.tileSums (Stage.sqDev (V c main_v91_0) (V c main_v95)) :=
  (dat10 (F := Ideal) V c).arrAt_eq_of_cover 2 (Stage.tileSums (Stage.sqDev (V c main_v91_0) (V c main_v95)))
    (fun t _ => flushedVar10 V c t) coverVar10

end Cert.KVal

end
-- ==== Proof.RegBnFin.lean ====
import proofs.«404850_j82815559401961_3_alg».proof.Proof.Gen.KernelIdeal.Frame
import proofs.«404850_j82815559401961_3_alg».proof.Proof.Stage
import Idealize.ShloMosaic.Lib.Pipeline.Value

noncomputable section

namespace Cert.KVal

open Idealize.ShloMosaic Idealize.ShloMosaic.TcCoe Idealize.SL.Sem Cert.KernelIdeal Cert.KernelIdeal.Gen
open Idealize.ShloMosaic.Pipeline (Dat)
open Idealize.ShloMosaic.ValueIdx

variable [hR : Cert.ReferenceIdeal.Facts]
variable (V : (c : Dev nD) → (b : Ref sig .tc) → Buf (Elt Ideal) ((c : Thread nD τ).loc b))

namespace BnFin

theorem zeros2 : (![0, 0] : Fin 2 → Nat) = fun _ => 0 := funext fun a => by fin_cases a <;> rfl

theorem rowDownTile (x : FVec Ideal S1x128 .f32) (r : Fin 5000) (k : Fin 128) :
    broadcastTo S5000x128 x broadcasts_S1x128_S5000x128 (ix2 r k) = x (ix2 0 k) :=
  broadcastTo_apply x _ (ix2 r k) (ix2 0 k) (fun a => by match a with | ⟨0, _⟩ => rfl | ⟨1, _⟩ => rfl)

theorem pay_apply (vr : FVec Ideal S1x128 .f32) (z : FVec Ideal S5000x128 .f32) (m g be : FVec Ideal S1x128 .f32) (r : Fin 5000) (k : Fin 128) :
    k5_pay1 vr z m g be (ix2 r k)
      = (z (ix2 r k) - m (ix2 0 k)) * Ideal.rsqrt (vr (ix2 0 k) + Ideal.ofBits .f32 0x3727C5AC#32) * g (ix2 0 k) + be (ix2 0 k) := by
  unfold k5_pay1
  simp only [shapeCast_self]
  show (z (ix2 r k) - broadcastTo S5000x128 m broadcasts_S1x128_S5000x128 (ix2 r k))
        * broadcastTo S5000x128 (rsqrt (addf vr (broadcast S1x128 (Scalar.ofBits .f32 0x3727C5AC#32)))) broadcasts_S1x128_S5000x128 (ix2 r k)
        * broadcastTo S5000x128 g broadcasts_S1x128_S5000x128 (ix2 r k)
        + broadcastTo S5000x128 be broadcasts_S1x128_S5000x128 (ix2 r k) = _
  rw [rowDownTile, rowDownTile, rowDownTile, rowDownTile]
  rfl

theorem rowDownAll (x : FVec Ideal Cert.ReferenceIdeal.S1x128 .f32) (R : Fin 50000) (k : Fin 128) :
    Stage.rowsN (F := Ideal) x (ix2 R k) = x (ix2 0 k) :=
  broadcastInDim_apply _ _ x (ix2 R k) (ix2 0 k) (fun a => by match a with | ⟨0, _⟩ => rfl | ⟨1, _⟩ => rfl)

theorem bn_apply (z : FVec Ideal Cert.ReferenceIdeal.S50000x128 .f32) (m vr g be : FVec Ideal Cert.ReferenceIdeal.S1x128 .f32) (R : Fin 50000) (k : Fin 128) :
    Stage.bnApply (F := Ideal) z m (Stage.invStdRow vr) g be (ix2 R k)
      = (z (ix2 R k) - m (ix2 0 k)) * Ideal.rsqrt (vr (ix2 0 k) + Ideal.ofBits .f32 0x3727C5AC#32) * g (ix2 0 k) + be (ix2 0 k) := by
  show (z (ix2 R k) - Stage.rowsN (F := Ideal) m (ix2 R k)) * Stage.rowsN (F := Ideal) (Stage.invStdRow vr) (ix2 R k) * Stage.rowsN (F := Ideal) g (ix2 R k)
        + Stage.rowsN (F := Ideal) be (ix2 R k) = _
  rw [rowDownAll, rowDownAll, rowDownAll, rowDownAll]
  rfl

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem tile_row_lt5 (t : Fin cfg5.N) (r : Fin 5000) : t.val * 5000 + r.val < 50000 := by
  have ht : t.val < 10 := N_5 ▸ t.isLt
  have := r.isLt; omega

abbrev zblk5 (c : Dev nD) (t : Fin cfg5.N) : FVec Ideal S5000x128 .f32 := iblk5 V c 0 t

abbrev mblk5 (c : Dev nD) (t : Fin cfg5.N) : FVec Ideal S1x128 .f32 := iblk5 V c 1 t

abbrev vblk5 (c : Dev nD) (t : Fin cfg5.N) : FVec Ideal S1x128 .f32 := iblk5 V c 2 t

abbrev gblk5 (c : Dev nD) (t : Fin cfg5.N) : FVec Ideal S1x128 .f32 := iblk5 V c 3 t

abbrev bblk5 (c : Dev nD) (t : Fin cfg5.N) : FVec Ideal S1x128 .f32 := iblk5 V c 4 t

abbrev zarr5 (c : Dev nD) : FVec Ideal S50000x128 .f32 := V c main_v40_0
abbrev marr5 (c : Dev nD) : FVec Ideal S1x128 .f32 := V c main_v44
abbrev varr5 (c : Dev nD) : FVec Ideal S1x128 .f32 := V c main_v51
abbrev garr5 (c : Dev nD) : FVec Ideal S1x128 .f32 := V c main_v52
abbrev barr5 (c : Dev nD) : FVec Ideal S1x128 .f32 := V c main_v53

theorem zblk5_apply (c : Dev nD) (t : Fin cfg5.N) (r : Fin 5000) (k : Fin 128) :
    zblk5 V c t (ix2 r k) = zarr5 V c (ix2 ⟨t.val * 5000 + r.val, tile_row_lt5 t r⟩ k) := by
  obtain ⟨e00, e01, -⟩ := idx_facts5 t
  show V c main_v40_0 (((cfg5.win 0).blk t).view.emb (ix2 r k)) = V c main_v40_0 (ix2 ⟨t.val * 5000 + r.val, tile_row_lt5 t r⟩ k)
  refine congrArg (V c main_v40_0) (funext fun a => Fin.ext ?_)
  match a with
  | ⟨0, _⟩ => show win5_0.index t (0 : Fin 2) * 5000 + 1 * r.val = t.val * 5000 + r.val; omega
  | ⟨1, _⟩ => show win5_0.index t (1 : Fin 2) * 128 + 1 * k.val = k.val; omega

theorem mblk5_apply (c : Dev nD) (t : Fin cfg5.N) (k : Fin 128) : mblk5 V c t (ix2 0 k) = marr5 V c (ix2 0 k) := by
  obtain ⟨-, -, e0, e1, -⟩ := idx_facts5 t
  show V c main_v44 (((cfg5.win 1).blk t).view.emb (ix2 0 k)) = V c main_v44 (ix2 0 k)
  refine congrArg (V c main_v44) (funext fun a => Fin.ext ?_)
  match a with
  | ⟨0, _⟩ => show win5_1.index t (0 : Fin 2) * 1 + 1 * 0 = 0; omega
  | ⟨1, _⟩ => show win5_1.index t (1 : Fin 2) * 128 + 1 * k.val = k.val; omega

theorem vblk5_apply (c : Dev nD) (t : Fin cfg5.N) (k : Fin 128) : vblk5 V c t (ix2 0 k) = varr5 V c (ix2 0 k) := by
  obtain ⟨-, -, -, -, e0, e1, -⟩ := idx_facts5 t
  show V c main_v51 (((cfg5.win 2).blk t).view.emb (ix2 0 k)) = V c main_v51 (ix2 0 k)
  refine congrArg (V c main_v51) (funext fun a => Fin.ext ?_)
  match a with
  | ⟨0, _⟩ => show win5_2.index t (0 : Fin 2) * 1 + 1 * 0 = 0; omega
  | ⟨1, _⟩ => show win5_2.index t (1 : Fin 2) * 128 + 1 * k.val = k.val; omega

theorem gblk5_apply (c : Dev nD) (t : Fin cfg5.N) (k : Fin 128) : gblk5 V c t (ix2 0 k) = garr5 V c (ix2 0 k) := by
  obtain ⟨-, -, -, -, -, -, e0, e1, -⟩ := idx_facts5 t
  show V c main_v52 (((cfg5.win 3).blk t).view.emb (ix2 0 k)) = V c main_v52 (ix2 0 k)
  refine congrArg (V c main_v52) (funext fun a => Fin.ext ?_)
  match a with
  | ⟨0, _⟩ => show win5_3.index t (0 : Fin 2) * 1 + 1 * 0 = 0; omega
  | ⟨1, _⟩ => show win5_3.index t (1 : Fin 2) * 128 + 1 * k.val = k.val; omega

theorem bblk5_apply (c : Dev nD) (t : Fin cfg5.N) (k : Fin 128) : bblk5 V c t (ix2 0 k) = barr5 V c (ix2 0 k) := by
  obtain ⟨-, -, -, -, -, -, -, -, e0, e1, -⟩ := idx_facts5 t
  show V c main_v53 (((cfg5.win 4).blk t).view.emb (ix2 0 k)) = V c main_v53 (ix2 0 k)
  refine congrArg (V c main_v53) (funext fun a => Fin.ext ?_)
  match a with
  | ⟨0, _⟩ => show win5_4.index t (0 : Fin 2) * 1 + 1 * 0 = 0; omega
  | ⟨1, _⟩ => show win5_4.index t (1 : Fin 2) * 128 + 1 * k.val = k.val; omega

theorem oblk5_emb (t : Fin cfg5.N) (r : Fin 5000) (k : Fin 128) :
    ((cfg5.win 5).blk t).view.emb (ix2 r k) = ix2 ⟨t.val * 5000 + r.val, tile_row_lt5 t r⟩ k := by
  obtain ⟨-, -, -, -, -, -, -, -, -, -, e0, e1⟩ := idx_facts5 t
  refine funext fun a => Fin.ext ?_
  match a with
  | ⟨0, _⟩ => show win5_5.index t (0 : Fin 2) * 5000 + 1 * r.val = t.val * 5000 + r.val; omega
  | ⟨1, _⟩ => show win5_5.index t (1 : Fin 2) * 128 + 1 * k.val = k.val; omega

abbrev bnOut5 (c : Dev nD) : FVec Ideal S50000x128 .f32 :=
  Stage.bnApply (F := Ideal) (zarr5 V c) (marr5 V c) (Stage.invStdRow (varr5 V c)) (garr5 V c) (barr5 V c)

theorem flushed5_eq (c : Dev nD) (t : Fin cfg5.N) :
    (dat5 (F := Ideal) V c).flushed 5 t = ((cfg5.win 5).blk t).view.read (Elt Ideal) (bnOut5 V c) := by
  show (cfg5.win 5).cut (grid5.coords t) ((dat5 V c).after 5 t) = _
  rw [after5_5]
  unfold out5_5
  rw [View.canon_unit_zero zeros2]
  simp only [View.ld_unit_zero (S := S1x128) zeros2, View.ld_unit_zero (S := S5000x128) zeros2]
  funext j
  obtain ⟨r, k, rfl⟩ : ∃ (r : Fin 5000) (k : Fin 128), j = ix2 r k := ⟨j 0, j 1, eq_ix2 j⟩
  show k5_pay1 (vblk5 V c t) (zblk5 V c t) (mblk5 V c t) (gblk5 V c t) (bblk5 V c t) (ix2 r k)
    = bnOut5 V c (((cfg5.win 5).blk t).view.emb (ix2 r k))
  refine (pay_apply (vblk5 V c t) (zblk5 V c t) (mblk5 V c t) (gblk5 V c t) (bblk5 V c t) r k).trans ?_
  refine Eq.trans ?_ (congrArg (bnOut5 V c) (oblk5_emb t r k)).symm
  refine Eq.trans ?_ (bn_apply (zarr5 V c) (marr5 V c) (varr5 V c) (garr5 V c) (barr5 V c) ⟨t.val * 5000 + r.val, tile_row_lt5 t r⟩ k).symm
  rw [zblk5_apply V c t r k, mblk5_apply V c t k, vblk5_apply V c t k, gblk5_apply V c t k, bblk5_apply V c t k]

theorem mem_blk5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v54).slice (win5_5.rect t)).set ↔ _
  rw [View.set_slice_whole, Rect.mem_set_unit]
  exact Iff.rfl

theorem cover5 (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 10 := N_5
  obtain ⟨t, ht⟩ : ∃ t : Fin cfg5.N, t.val = (i 0).val / 5000 := ⟨⟨(i 0).val / 5000, by omega⟩, rfl⟩
  obtain ⟨-, -, -, -, -, -, -, -, -, -, e0, e1⟩ := idx_facts5 t
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

theorem pay11_eq (vr : FVec Ideal S1x128 .f32) (z : FVec Ideal S5000x128 .f32) (m g be : FVec Ideal S1x128 .f32) :
    k11_pay1 (F := Ideal) vr z m g be = k5_pay1 (F := Ideal) vr z m g be := rfl

theorem idx_facts11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

theorem tile_row_lt11 (t : Fin cfg11.N) (r : Fin 5000) : t.val * 5000 + r.val < 50000 := by
  have ht : t.val < 10 := N_11 ▸ t.isLt
  have := r.isLt; omega

abbrev zblk11 (c : Dev nD) (t : Fin cfg11.N) : FVec Ideal S5000x128 .f32 := iblk11 V c 0 t

abbrev mblk11 (c : Dev nD) (t : Fin cfg11.N) : FVec Ideal S1x128 .f32 := iblk11 V c 1 t

abbrev vblk11 (c : Dev nD) (t : Fin cfg11.N) : FVec Ideal S1x128 .f32 := iblk11 V c 2 t

abbrev gblk11 (c : Dev nD) (t : Fin cfg11.N) : FVec Ideal S1x128 .f32 := iblk11 V c 3 t

abbrev bblk11 (c : Dev nD) (t : Fin cfg11.N) : FVec Ideal S1x128 .f32 := iblk11 V c 4 t

abbrev zarr11 (c : Dev nD) : FVec Ideal S50000x128 .f32 := V c main_v91_0
abbrev marr11 (c : Dev nD) : FVec Ideal S1x128 .f32 := V c main_v95
abbrev varr11 (c : Dev nD) : FVec Ideal S1x128 .f32 := V c main_v102
abbrev garr11 (c : Dev nD) : FVec Ideal S1x128 .f32 := V c main_v103
abbrev barr11 (c : Dev nD) : FVec Ideal S1x128 .f32 := V c main_v104

theorem zblk11_apply (c : Dev nD) (t : Fin cfg11.N) (r : Fin 5000) (k : Fin 128) :
    zblk11 V c t (ix2 r k) = zarr11 V c (ix2 ⟨t.val * 5000 + r.val, tile_row_lt11 t r⟩ k) := by
  obtain ⟨e00, e01, -⟩ := idx_facts11 t
  show V c main_v91_0 (((cfg11.win 0).blk t).view.emb (ix2 r k)) = V c main_v91_0 (ix2 ⟨t.val * 5000 + r.val, tile_row_lt11 t r⟩ k)
  refine congrArg (V c main_v91_0) (funext fun a => Fin.ext ?_)
  match a with
  | ⟨0, _⟩ => show win11_0.index t (0 : Fin 2) * 5000 + 1 * r.val = t.val * 5000 + r.val; omega
  | ⟨1, _⟩ => show win11_0.index t (1 : Fin 2) * 128 + 1 * k.val = k.val; omega

theorem mblk11_apply (c : Dev nD) (t : Fin cfg11.N) (k : Fin 128) : mblk11 V c t (ix2 0 k) = marr11 V c (ix2 0 k) := by
  obtain ⟨-, -, e0, e1, -⟩ := idx_facts11 t
  show V c main_v95 (((cfg11.win 1).blk t).view.emb (ix2 0 k)) = V c main_v95 (ix2 0 k)
  refine congrArg (V c main_v95) (funext fun a => Fin.ext ?_)
  match a with
  | ⟨0, _⟩ => show win11_1.index t (0 : Fin 2) * 1 + 1 * 0 = 0; omega
  | ⟨1, _⟩ => show win11_1.index t (1 : Fin 2) * 128 + 1 * k.val = k.val; omega

theorem vblk11_apply (c : Dev nD) (t : Fin cfg11.N) (k : Fin 128) : vblk11 V c t (ix2 0 k) = varr11 V c (ix2 0 k) := by
  obtain ⟨-, -, -, -, e0, e1, -⟩ := idx_facts11 t
  show V c main_v102 (((cfg11.win 2).blk t).view.emb (ix2 0 k)) = V c main_v102 (ix2 0 k)
  refine congrArg (V c main_v102) (funext fun a => Fin.ext ?_)
  match a with
  | ⟨0, _⟩ => show win11_2.index t (0 : Fin 2) * 1 + 1 * 0 = 0; omega
  | ⟨1, _⟩ => show win11_2.index t (1 : Fin 2) * 128 + 1 * k.val = k.val; omega

theorem gblk11_apply (c : Dev nD) (t : Fin cfg11.N) (k : Fin 128) : gblk11 V c t (ix2 0 k) = garr11 V c (ix2 0 k) := by
  obtain ⟨-, -, -, -, -, -, e0, e1, -⟩ := idx_facts11 t
  show V c main_v103 (((cfg11.win 3).blk t).view.emb (ix2 0 k)) = V c main_v103 (ix2 0 k)
  refine congrArg (V c main_v103) (funext fun a => Fin.ext ?_)
  match a with
  | ⟨0, _⟩ => show win11_3.index t (0 : Fin 2) * 1 + 1 * 0 = 0; omega
  | ⟨1, _⟩ => show win11_3.index t (1 : Fin 2) * 128 + 1 * k.val = k.val; omega

theorem bblk11_apply (c : Dev nD) (t : Fin cfg11.N) (k : Fin 128) : bblk11 V c t (ix2 0 k) = barr11 V c (ix2 0 k) := by
  obtain ⟨-, -, -, -, -, -, -, -, e0, e1, -⟩ := idx_facts11 t
  show V c main_v104 (((cfg11.win 4).blk t).view.emb (ix2 0 k)) = V c main_v104 (ix2 0 k)
  refine congrArg (V c main_v104) (funext fun a => Fin.ext ?_)
  match a with
  | ⟨0, _⟩ => show win11_4.index t (0 : Fin 2) * 1 + 1 * 0 = 0; omega
  | ⟨1, _⟩ => show win11_4.index t (1 : Fin 2) * 128 + 1 * k.val = k.val; omega

theorem oblk11_emb (t : Fin cfg11.N) (r : Fin 5000) (k : Fin 128) :
    ((cfg11.win 5).blk t).view.emb (ix2 r k) = ix2 ⟨t.val * 5000 + r.val, tile_row_lt11 t r⟩ k := by
  obtain ⟨-, -, -, -, -, -, -, -, -, -, e0, e1⟩ := idx_facts11 t
  refine funext fun a => Fin.ext ?_
  match a with
  | ⟨0, _⟩ => show win11_5.index t (0 : Fin 2) * 5000 + 1 * r.val = t.val * 5000 + r.val; omega
  | ⟨1, _⟩ => show win11_5.index t (1 : Fin 2) * 128 + 1 * k.val = k.val; omega

abbrev bnOut11 (c : Dev nD) : FVec Ideal S50000x128 .f32 :=
  Stage.bnApply (F := Ideal) (zarr11 V c) (marr11 V c) (Stage.invStdRow (varr11 V c)) (garr11 V c) (barr11 V c)

theorem flushed11_eq (c : Dev nD) (t : Fin cfg11.N) :
    (dat11 (F := Ideal) V c).flushed 5 t = ((cfg11.win 5).blk t).view.read (Elt Ideal) (bnOut11 V c) := by
  show (cfg11.win 5).cut (grid11.coords t) ((dat11 V c).after 5 t) = _
  rw [after11_5]
  unfold out11_5
  rw [View.canon_unit_zero zeros2]
  simp only [View.ld_unit_zero (S := S1x128) zeros2, View.ld_unit_zero (S := S5000x128) zeros2]
  funext j
  obtain ⟨r, k, rfl⟩ : ∃ (r : Fin 5000) (k : Fin 128), j = ix2 r k := ⟨j 0, j 1, eq_ix2 j⟩
  show k11_pay1 (vblk11 V c t) (zblk11 V c t) (mblk11 V c t) (gblk11 V c t) (bblk11 V c t) (ix2 r k)
    = bnOut11 V c (((cfg11.win 5).blk t).view.emb (ix2 r k))
  rw [pay11_eq]
  refine (pay_apply (vblk11 V c t) (zblk11 V c t) (mblk11 V c t) (gblk11 V c t) (bblk11 V c t) r k).trans ?_
  refine Eq.trans ?_ (congrArg (bnOut11 V c) (oblk11_emb t r k)).symm
  refine Eq.trans ?_ (bn_apply (zarr11 V c) (marr11 V c) (varr11 V c) (garr11 V c) (barr11 V c) ⟨t.val * 5000 + r.val, tile_row_lt11 t r⟩ k).symm
  rw [zblk11_apply V c t r k, mblk11_apply V c t k, vblk11_apply V c t k, gblk11_apply V c t k, bblk11_apply V c t k]

theorem mem_blk11 (t : Fin cfg11.N) (i : S50000x128.Idx) :
    i ∈ ((cfg11.win 5).blk t).view.set ↔ ∀ a : Fin 2, win11_5.index t a * S5000x128.size a ≤ (i a).val ∧ (i a).val < win11_5.index t a * S5000x128.size a + S5000x128.size a := by
  show i ∈ ((View.whole main_v105).slice (win11_5.rect t)).set ↔ _
  rw [View.set_slice_whole, Rect.mem_set_unit]
  exact Iff.rfl

theorem cover11 (i : S50000x128.Idx) : ∃ t : Fin cfg11.N, (cfg11.win 5).flush t = true ∧ i ∈ ((cfg11.win 5).blk t).view.set := by
  have hi0 : (i 0).val < 50000 := (i 0).isLt
  have hi1 : (i 1).val < 128 := (i 1).isLt
  have hN : cfg11.N = 10 := N_11
  obtain ⟨t, ht⟩ : ∃ t : Fin cfg11.N, t.val = (i 0).val / 5000 := ⟨⟨(i 0).val / 5000, by omega⟩, rfl⟩
  obtain ⟨-, -, -, -, -, -, -, -, -, -, e0, e1⟩ := idx_facts11 t
  refine ⟨t, flush11_5 t, ?_⟩
  rw [mem_blk11]
  intro a
  match a with
  | ⟨0, _⟩ => show win11_5.index t (0 : Fin 2) * 5000 ≤ (i 0).val ∧ (i 0).val < win11_5.index t (0 : Fin 2) * 5000 + 5000; omega
  | ⟨1, _⟩ => show win11_5.index t (1 : Fin 2) * 128 ≤ (i 1).val ∧ (i 1).val < win11_5.index t (1 : Fin 2) * 128 + 128; omega

end BnFin

theorem bnfin5 (c : Dev nD) :
    (dat5 (F := Ideal) V c).arrAt 5 cfg5.N = Stage.bnApply (V c main_v40_0) (V c main_v44) (Stage.invStdRow (V c main_v51)) (V c main_v52) (V c main_v53) :=
  (dat5 V c).arrAt_eq_of_cover 5 (BnFin.bnOut5 V c) (fun t _ => BnFin.flushed5_eq V c t) BnFin.cover5

theorem bnfin11 (c : Dev nD) :
    (dat11 (F := Ideal) V c).arrAt 5 cfg11.N = Stage.bnApply (V c main_v91_0) (V c main_v95) (Stage.invStdRow (V c main_v102)) (V c main_v103) (V c main_v104) :=
  (dat11 V c).arrAt_eq_of_cover 5 (BnFin.bnOut11 V c) (fun t _ => BnFin.flushed11_eq V c t) BnFin.cover11

end Cert.KVal

end
-- ==== Proof.RegBnLinTile.lean ====
import proofs.«404850_j82815559401961_3_alg».proof.Proof.Gen.KernelIdeal.Frame
import proofs.«404850_j82815559401961_3_alg».proof.Proof.Stage
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KVal

open Idealize.ShloMosaic Idealize.ShloMosaic.TcCoe Idealize.SL.Sem Cert.KernelIdeal Cert.KernelIdeal.Gen
open Idealize.ShloMosaic.Pipeline (Dat)
open Idealize.ShloMosaic.ValueIdx
open scoped BigOperators

variable [hR : Cert.ReferenceIdeal.Facts]
variable (V : (c : Dev nD) → (b : Ref sig .tc) → Buf (Elt Ideal) ((c : Thread nD τ).loc b))

namespace BnLin

abbrev dotTile := Cert.KernelIdeal.dot_S5000x128_S128x128_S5000x128_1_0_0_1_n_n

abbrev dotAll := Cert.ReferenceIdeal.dot_S50000x128_S128x128_S50000x128_1_0_0_1_n_n

theorem lhsTile_0 (i : Cert.KernelIdeal.S5000x128.Idx) (q : dotTile.contr.Idx) : (dotTile.lhsIdx i q 0).val = (i 0).val := by
  unfold DotDims.lhsIdx
  rw [dif_neg (show ¬(0 : Fin Cert.KernelIdeal.S5000x128.rank) ∈ dotTile.lhsBatch by decide),
    dif_pos (show (0 : Fin Cert.KernelIdeal.S5000x128.rank) ∈ dotTile.lhsNonContracting by decide)]
  rfl

theorem lhsTile_1 (i : Cert.KernelIdeal.S5000x128.Idx) (q : dotTile.contr.Idx) : (dotTile.lhsIdx i q 1).val = (q ⟨0, by decide⟩).val :=
  dotTile.lhsIdx_val_of_single rfl i q

theorem rhsTile_0 (i : Cert.KernelIdeal.S5000x128.Idx) (q : dotTile.contr.Idx) : (dotTile.rhsIdx i q 0).val = (q ⟨0, by decide⟩).val :=
  dotTile.rhsIdx_val_of_single rfl i q

theorem rhsTile_1 (i : Cert.KernelIdeal.S5000x128.Idx) (q : dotTile.contr.Idx) : (dotTile.rhsIdx i q 1).val = (i 1).val := by
  unfold DotDims.rhsIdx
  rw [dif_neg (show ¬(1 : Fin Cert.KernelIdeal.S128x128.rank) ∈ dotTile.rhsBatch by decide),
    dif_pos (show (1 : Fin Cert.KernelIdeal.S128x128.rank) ∈ dotTile.rhsNonContracting by decide)]
  rfl

theorem matmulTile_apply (A : FVec Ideal Cert.KernelIdeal.S5000x128 .f32) (B : FVec Ideal Cert.KernelIdeal.S128x128 .f32) (p : Fin 5000) (q : Fin 128) :
    matmul dotTile none A B (constant (F := Ideal) Cert.KernelIdeal.S5000x128 .f32 0x00000000#32) (ix2 p q) = ∑ k : Fin 128, A (ix2 p k) * B (ix2 k q) := by
  refine (Ideal.matmul_constant_zero_apply dotTile none A B (ix2 p q)).trans ?_
  rw [← Equiv.sum_comp (contrEquiv1 dotTile 128 rfl rfl).symm]
  refine Finset.sum_congr rfl fun k _ => ?_
  have hk := contrEquiv1_symm_val dotTile 128 rfl rfl k
  have el : dotTile.lhsIdx (ix2 p q) ((contrEquiv1 dotTile 128 rfl rfl).symm k) = ix2 p k := funext fun a => Fin.ext (by
    match a with
    | ⟨0, _⟩ => exact lhsTile_0 _ _
    | ⟨1, _⟩ => exact (lhsTile_1 _ _).trans hk)
  have er : dotTile.rhsIdx (ix2 p q) ((contrEquiv1 dotTile 128 rfl rfl).symm k) = ix2 k q := funext fun a => Fin.ext (by
    match a with
    | ⟨0, _⟩ => exact (rhsTile_0 _ _).trans hk
    | ⟨1, _⟩ => exact rhsTile_1 _ _)
  rw [el, er]

theorem dotAll_rank : dotAll.contr.rank = 1 := rfl

theorem dotAll_lhsBatch : dotAll.lhsBatch = [] := rfl

theorem dotAll_rhsBatch : dotAll.rhsBatch = [] := rfl

theorem dotAll_lhsFree : dotAll.lhsNonContracting = [0] := rfl

theorem dotAll_rhsFree : dotAll.rhsNonContracting = [1] := rfl

theorem lhsAll_0 (i : Cert.ReferenceIdeal.S50000x128.Idx) (q : dotAll.contr.Idx) : (dotAll.lhsIdx i q 0).val = (i 0).val := by
  unfold DotDims.lhsIdx
  rw [dif_neg (show ¬(0 : Fin Cert.ReferenceIdeal.S50000x128.rank) ∈ dotAll.lhsBatch by rw [dotAll_lhsBatch]; exact List.not_mem_nil),
    dif_pos (show (0 : Fin Cert.ReferenceIdeal.S50000x128.rank) ∈ dotAll.lhsNonContracting by rw [dotAll_lhsFree]; exact List.mem_singleton.mpr rfl)]
  rfl

theorem lhsAll_1 (i : Cert.ReferenceIdeal.S50000x128.Idx) (q : dotAll.contr.Idx) :
    (dotAll.lhsIdx i q 1).val = (q ⟨0, by rw [dotAll_rank]; exact Nat.one_pos⟩).val :=
  dotAll.lhsIdx_val_of_single rfl i q

theorem rhsAll_0 (i : Cert.ReferenceIdeal.S50000x128.Idx) (q : dotAll.contr.Idx) :
    (dotAll.rhsIdx i q 0).val = (q ⟨0, by rw [dotAll_rank]; exact Nat.one_pos⟩).val :=
  dotAll.rhsIdx_val_of_single rfl i q

theorem rhsAll_1 (i : Cert.ReferenceIdeal.S50000x128.Idx) (q : dotAll.contr.Idx) : (dotAll.rhsIdx i q 1).val = (i 1).val := by
  unfold DotDims.rhsIdx
  rw [dif_neg (show ¬(1 : Fin Cert.ReferenceIdeal.S128x128.rank) ∈ dotAll.rhsBatch by rw [dotAll_rhsBatch]; exact List.not_mem_nil),
    dif_pos (show (1 : Fin Cert.ReferenceIdeal.S128x128.rank) ∈ dotAll.rhsNonContracting by rw [dotAll_rhsFree]; exact List.mem_singleton.mpr rfl)]
  rfl

theorem dotAll_apply (A : FVec Ideal Cert.ReferenceIdeal.S50000x128 .f32) (B : FVec Ideal Cert.ReferenceIdeal.S128x128 .f32) (r : Fin 50000) (q : Fin 128) :
    Host.dotGeneral (F := Ideal) dotAll none A B (ix2 r q) = ∑ k : Fin 128, A (ix2 r k) * B (ix2 k q) := by
  refine (Ideal.dotGeneral_apply dotAll none _ A B (ix2 r q)).trans ?_
  rw [← Equiv.sum_comp (contrEquiv1 dotAll 128 rfl rfl).symm]
  refine Finset.sum_congr rfl fun k _ => ?_
  have hk := contrEquiv1_symm_val dotAll 128 rfl rfl k
  have el : dotAll.lhsIdx (ix2 r q) ((contrEquiv1 dotAll 128 rfl rfl).symm k) = ix2 r k := funext fun a => Fin.ext (by
    match a with
    | ⟨0, _⟩ => exact lhsAll_0 _ _
    | ⟨1, _⟩ => exact (lhsAll_1 _ _).trans hk)
  have er : dotAll.rhsIdx (ix2 r q) ((contrEquiv1 dotAll 128 rfl rfl).symm k) = ix2 k q := funext fun a => Fin.ext (by
    match a with
    | ⟨0, _⟩ => exact (rhsAll_0 _ _).trans hk
    | ⟨1, _⟩ => exact rhsAll_1 _ _)
  rw [el, er]

def hidElt (z m v g b : EReal) : EReal :=
  max ((z - m) * Ideal.rsqrt (v + Ideal.ofBits .f32 0x3727C5AC#32) * g + b) (Ideal.ofBits .f32 0x00000000#32)

def outElt (h w : Fin 128 → EReal) (b : EReal) : EReal :=
  max ((∑ k : Fin 128, h k * w k) + b) (Ideal.ofBits .f32 0x00000000#32)

theorem rowsN_apply (x : Vec Ideal Cert.ReferenceIdeal.S1x128 .f32) (r : Fin 50000) (k : Fin 128) :
    Stage.rowsN x (ix2 r k) = x (ix2 (0 : Fin 1) k) := by
  unfold Stage.rowsN
  exact broadcastInDim_oneRow_apply _ x r k

theorem stage_apply (Z : Vec Ideal Cert.ReferenceIdeal.S50000x128 .f32) (M Vr G Be : Vec Ideal Cert.ReferenceIdeal.S1x128 .f32)
    (WT : Vec Ideal Cert.ReferenceIdeal.S128x128 .f32) (B : Vec Ideal Cert.ReferenceIdeal.S1x128 .f32) (r : Fin 50000) (q : Fin 128) :
    Stage.reluN (Stage.lin (Stage.reluN (Stage.bnApply Z M (Stage.invStdRow Vr) G Be)) WT B) (ix2 r q)
      = outElt (fun k => hidElt (Z (ix2 r k)) (M (ix2 (0 : Fin 1) k)) (Vr (ix2 (0 : Fin 1) k)) (G (ix2 (0 : Fin 1) k)) (Be (ix2 (0 : Fin 1) k)))
          (fun k => WT (ix2 k q)) (B (ix2 (0 : Fin 1) q)) := by
  unfold Stage.reluN Stage.lin
  refine (maximumf_apply _ _ _).trans ?_
  unfold outElt
  refine congrArg₂ max ?_ rfl
  refine (addf_apply _ _ _).trans ?_
  refine congrArg₂ (· + ·) ?_ (rowsN_apply B r q)
  refine (dotAll_apply _ WT r q).trans ?_
  refine Finset.sum_congr rfl fun k _ => ?_
  refine congrArg (· * WT (ix2 k q)) ?_
  unfold Stage.bnApply
  simp only [maximumf_apply, addf_apply, mulf_apply, subf_apply, rowsN_apply]
  rfl

theorem zeroOff : (![0, 0] : Fin 2 → Nat) = fun _ => 0 := funext fun a => by fin_cases a <;> rfl

theorem tileSums_apply (Gf : Vec Ideal Cert.ReferenceIdeal.S50000x128 .f32) (i : (⟨2, ![80, 128]⟩ : Shape).Idx) (T : ℕ) (hT : T < 10)
    (q : Fin 128) (h0 : (i 0).val / 8 = T) (h1 : (i 1).val = q.val) :
    Stage.tileSums Gf i = ∑ r : Fin 5000, Gf (ix2 (⟨5000 * T + r.val, by have := r.isLt; omega⟩ : Fin 50000) q) := by
  unfold Stage.tileSums
  refine Finset.sum_congr rfl fun r _ => congrArg Gf (funext fun a => Fin.ext ?_)
  match a with
  | ⟨0, _⟩ => show 5000 * ((i 0).val / 8) + r.val = 5000 * T + r.val; rw [h0]
  | ⟨1, _⟩ => exact h1

end BnLin

theorem pay3_apply (v0 : Vec Ideal Cert.KernelIdeal.S1x128 .f32) (v5 : Vec Ideal Cert.KernelIdeal.S5000x128 .f32)
    (v7 v13 v17 : Vec Ideal Cert.KernelIdeal.S1x128 .f32) (v23 : Vec Ideal Cert.KernelIdeal.S128x128 .f32)
    (v26 : Vec Ideal Cert.KernelIdeal.S1x128 .f32) (p : Fin 5000) (q : Fin 128) :
    k3_pay1 v0 v5 v7 v13 v17 v23 v26 (ix2 p q)
      = BnLin.outElt (fun k => BnLin.hidElt (v5 (ix2 p k)) (v7 (ix2 (0 : Fin 1) k)) (v0 (ix2 (0 : Fin 1) k)) (v13 (ix2 (0 : Fin 1) k)) (v17 (ix2 (0 : Fin 1) k)))
          (fun k => v23 (ix2 k q)) (v26 (ix2 (0 : Fin 1) q)) := by
  unfold k3_pay1
  simp only [shapeCast_self]
  refine (maximumf_apply _ _ _).trans ?_
  unfold BnLin.outElt
  refine congrArg₂ max ?_ rfl
  refine (addf_apply _ _ _).trans ?_
  refine congrArg₂ (· + ·) ?_ (broadcastTo_1b_ab_apply v26 _ p q)
  refine (BnLin.matmulTile_apply _ v23 p q).trans ?_
  refine Finset.sum_congr rfl fun k _ => ?_
  refine congrArg (· * v23 (ix2 k q)) ?_
  simp only [maximumf_apply, addf_apply, mulf_apply, subf_apply, broadcast_apply, broadcastTo_1b_ab_apply]
  rfl

theorem paySum3_apply (v0 : Vec Ideal Cert.KernelIdeal.S1x128 .f32) (v5 : Vec Ideal Cert.KernelIdeal.S5000x128 .f32)
    (v7 v13 v17 : Vec Ideal Cert.KernelIdeal.S1x128 .f32) (v23 : Vec Ideal Cert.KernelIdeal.S128x128 .f32)
    (v26 : Vec Ideal Cert.KernelIdeal.S1x128 .f32) (s : Fin 8) (q : Fin 128) :
    k3_pay2 v0 v5 v7 v13 v17 v23 v26 (ix2 s q) = ∑ r : Fin 5000, k3_pay1 v0 v5 v7 v13 v17 v23 v26 (ix2 r q) := by
  unfold k3_pay2
  simp only [shapeCast_self]
  refine (broadcastTo_1b_ab_apply _ _ s q).trans ?_
  refine (shapeCast_a_1a_apply _ _ (0 : Fin 1) q).trans ?_
  refine (Ideal.multiReduction_add_single (k3_pay1 v0 v5 v7 v13 v17 v23 v26) 0x00000000#32 reduces_S5000x128_S128 (.inl rfl) rfl (ix1 q)).trans ?_
  show ∑ r : Fin 5000, _ = ∑ r : Fin 5000, _
  refine Finset.sum_congr rfl fun r _ => ?_
  refine congrArg _ (funext fun a => Fin.ext ?_)
  match a with
  | ⟨0, _⟩ => rfl
  | ⟨1, _⟩ => rfl

theorem tile3_eq (Z : Vec Ideal Cert.ReferenceIdeal.S50000x128 .f32) (M Vr G Be : Vec Ideal Cert.ReferenceIdeal.S1x128 .f32)
    (WT : Vec Ideal Cert.ReferenceIdeal.S128x128 .f32) (B : Vec Ideal Cert.ReferenceIdeal.S1x128 .f32)
    (x0 : Vec Ideal Cert.KernelIdeal.S5000x128 .f32) (x1 x2 x3 x4 : Vec Ideal Cert.KernelIdeal.S1x128 .f32)
    (x5 : Vec Ideal Cert.KernelIdeal.S128x128 .f32) (x6 : Vec Ideal Cert.KernelIdeal.S1x128 .f32)
    (T : ℕ) (hT : T < 10)
    (h0 : ∀ (p : Fin 5000) (k : Fin 128), x0 (ix2 p k) = Z (ix2 (⟨5000 * T + p.val, by have := p.isLt; omega⟩ : Fin 50000) k))
    (h1 : ∀ k : Fin 128, x1 (ix2 (0 : Fin 1) k) = M (ix2 (0 : Fin 1) k))
    (h2 : ∀ k : Fin 128, x2 (ix2 (0 : Fin 1) k) = Vr (ix2 (0 : Fin 1) k))
    (h3 : ∀ k : Fin 128, x3 (ix2 (0 : Fin 1) k) = G (ix2 (0 : Fin 1) k))
    (h4 : ∀ k : Fin 128, x4 (ix2 (0 : Fin 1) k) = Be (ix2 (0 : Fin 1) k))
    (h5 : ∀ k q : Fin 128, x5 (ix2 k q) = WT (ix2 k q))
    (h6 : ∀ k : Fin 128, x6 (ix2 (0 : Fin 1) k) = B (ix2 (0 : Fin 1) k))
    (p : Fin 5000) (q : Fin 128) :
    k3_pay1 x2 x0 x1 x3 x4 x5 x6 (ix2 p q)
      = Stage.reluN (Stage.lin (Stage.reluN (Stage.bnApply Z M (Stage.invStdRow Vr) G Be)) WT B)
          (ix2 (⟨5000 * T + p.val, by have := p.isLt; omega⟩ : Fin 50000) q) := by
  rw [pay3_apply, BnLin.stage_apply]
  simp only [h0, h1, h2, h3, h4, h5, h6]

theorem blockIdx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0
    ∧ win3_8.index t (0 : Fin 2) = t.val ∧ win3_8.index t (1 : Fin 2) = 0 :=
  (by decide +kernel : ∀ t : Fin grid3.N, _)

theorem tileLt3 (t : Fin cfg3.N) : t.val < 10 := by have h := t.isLt; have hN : cfg3.N = 10 := N_3; omega

theorem zBlock3 (c : Dev nD) (t : Fin cfg3.N) (p : Fin 5000) (k : Fin 128) :
    (iblk3 V c 0 t : Vec Ideal Cert.KernelIdeal.S5000x128 .f32) (ix2 p k)
      = (V c main_v25_0 : Vec Ideal Cert.ReferenceIdeal.S50000x128 .f32) (ix2 (⟨5000 * t.val + p.val, by have := p.isLt; have := tileLt3 t; omega⟩ : Fin 50000) k) := by
  obtain ⟨e0, e1, -⟩ := blockIdx3 t
  unfold iblk3
  rw [View.read_apply]
  show V c main_v25_0 _ = V c main_v25_0 _
  congr 1
  funext a
  apply Fin.ext
  match a with
  | ⟨0, _⟩ => show win3_0.index t (0 : Fin 2) * 5000 + 1 * p.val = 5000 * t.val + p.val; rw [e0]; omega
  | ⟨1, _⟩ => show win3_0.index t (1 : Fin 2) * 128 + 1 * k.val = k.val; rw [e1]; omega

theorem meanBlock3 (c : Dev nD) (t : Fin cfg3.N) (k : Fin 128) :
    (iblk3 V c 1 t : Vec Ideal Cert.KernelIdeal.S1x128 .f32) (ix2 (0 : Fin 1) k)
      = (V c main_v29 : Vec Ideal Cert.ReferenceIdeal.S1x128 .f32) (ix2 (0 : Fin 1) k) := by
  have e := blockIdx3 t
  have e0 : win3_1.index t (0 : Fin 2) = 0 := e.2.2.1
  have e1 : win3_1.index t (1 : Fin 2) = 0 := e.2.2.2.1
  unfold iblk3
  rw [View.read_apply]
  show V c main_v29 _ = V c main_v29 _
  congr 1
  funext a
  apply Fin.ext
  match a with
  | ⟨0, _⟩ => show win3_1.index t (0 : Fin 2) * 1 + 1 * 0 = 0; rw [e0]
  | ⟨1, _⟩ => show win3_1.index t (1 : Fin 2) * 128 + 1 * k.val = k.val; rw [e1]; omega

theorem varBlock3 (c : Dev nD) (t : Fin cfg3.N) (k : Fin 128) :
    (iblk3 V c 2 t : Vec Ideal Cert.KernelIdeal.S1x128 .f32) (ix2 (0 : Fin 1) k)
      = (V c main_v36 : Vec Ideal Cert.ReferenceIdeal.S1x128 .f32) (ix2 (0 : Fin 1) k) := by
  have e := blockIdx3 t
  have e0 : win3_2.index t (0 : Fin 2) = 0 := e.2.2.2.2.1
  have e1 : win3_2.index t (1 : Fin 2) = 0 := e.2.2.2.2.2.1
  unfold iblk3
  rw [View.read_apply]
  show V c main_v36 _ = V c main_v36 _
  congr 1
  funext a
  apply Fin.ext
  match a with
  | ⟨0, _⟩ => show win3_2.index t (0 : Fin 2) * 1 + 1 * 0 = 0; rw [e0]
  | ⟨1, _⟩ => show win3_2.index t (1 : Fin 2) * 128 + 1 * k.val = k.val; rw [e1]; omega

theorem scaleBlock3 (c : Dev nD) (t : Fin cfg3.N) (k : Fin 128) :
    (iblk3 V c 3 t : Vec Ideal Cert.KernelIdeal.S1x128 .f32) (ix2 (0 : Fin 1) k)
      = (V c main_v37 : Vec Ideal Cert.ReferenceIdeal.S1x128 .f32) (ix2 (0 : Fin 1) k) := by
  have e := blockIdx3 t
  have e0 : win3_3.index t (0 : Fin 2) = 0 := e.2.2.2.2.2.2.1
  have e1 : win3_3.index t (1 : Fin 2) = 0 := e.2.2.2.2.2.2.2.1
  unfold iblk3
  rw [View.read_apply]
  show V c main_v37 _ = V c main_v37 _
  congr 1
  funext a
  apply Fin.ext
  match a with
  | ⟨0, _⟩ => show win3_3.index t (0 : Fin 2) * 1 + 1 * 0 = 0; rw [e0]
  | ⟨1, _⟩ => show win3_3.index t (1 : Fin 2) * 128 + 1 * k.val = k.val; rw [e1]; omega

theorem shiftBlock3 (c : Dev nD) (t : Fin cfg3.N) (k : Fin 128) :
    (iblk3 V c 4 t : Vec Ideal Cert.KernelIdeal.S1x128 .f32) (ix2 (0 : Fin 1) k)
      = (V c main_v38 : Vec Ideal Cert.ReferenceIdeal.S1x128 .f32) (ix2 (0 : Fin 1) k) := by
  have e := blockIdx3 t
  have e0 : win3_4.index t (0 : Fin 2) = 0 := e.2.2.2.2.2.2.2.2.1
  have e1 : win3_4.index t (1 : Fin 2) = 0 := e.2.2.2.2.2.2.2.2.2.1
  unfold iblk3
  rw [View.read_apply]
  show V c main_v38 _ = V c main_v38 _
  congr 1
  funext a
  apply Fin.ext
  match a with
  | ⟨0, _⟩ => show win3_4.index t (0 : Fin 2) * 1 + 1 * 0 = 0; rw [e0]
  | ⟨1, _⟩ => show win3_4.index t (1 : Fin 2) * 128 + 1 * k.val = k.val; rw [e1]; omega

theorem biasBlock3 (c : Dev nD) (t : Fin cfg3.N) (k : Fin 128) :
    (iblk3 V c 6 t : Vec Ideal Cert.KernelIdeal.S1x128 .f32) (ix2 (0 : Fin 1) k)
      = (V c main_v39 : Vec Ideal Cert.ReferenceIdeal.S1x128 .f32) (ix2 (0 : Fin 1) k) := by
  have e := blockIdx3 t
  have e0 : win3_6.index t (0 : Fin 2) = 0 := e.2.2.2.2.2.2.2.2.2.2.2.2.1
  have e1 : win3_6.index t (1 : Fin 2) = 0 := e.2.2.2.2.2.2.2.2.2.2.2.2.2.1
  unfold iblk3
  rw [View.read_apply]
  show V c main_v39 _ = V c main_v39 _
  congr 1
  funext a
  apply Fin.ext
  match a with
  | ⟨0, _⟩ => show win3_6.index t (0 : Fin 2) * 1 + 1 * 0 = 0; rw [e0]
  | ⟨1, _⟩ => show win3_6.index t (1 : Fin 2) * 128 + 1 * k.val = k.val; rw [e1]; omega

theorem weightBlock3 (c : Dev nD) (t : Fin cfg3.N) (k q : Fin 128) :
    (iblk3 V c 5 t : Vec Ideal Cert.KernelIdeal.S128x128 .f32) (ix2 k q)
      = (V c main_v23 : Vec Ideal Cert.ReferenceIdeal.S128x128 .f32) (ix2 k q) := by
  have e := blockIdx3 t
  have e0 : win3_5.index t (0 : Fin 2) = 0 := e.2.2.2.2.2.2.2.2.2.2.1
  have e1 : win3_5.index t (1 : Fin 2) = 0 := e.2.2.2.2.2.2.2.2.2.2.2.1
  unfold iblk3
  rw [View.read_apply]
  show V c main_v23 _ = V c main_v23 _
  congr 1
  funext a
  apply Fin.ext
  match a with
  | ⟨0, _⟩ => show win3_5.index t (0 : Fin 2) * 128 + 1 * k.val = k.val; rw [e0]; omega
  | ⟨1, _⟩ => show win3_5.index t (1 : Fin 2) * 128 + 1 * q.val = q.val; rw [e1]; omega

theorem outBlock3 (c : Dev nD) (t : Fin cfg3.N) (Gf : Vec Ideal Cert.ReferenceIdeal.S50000x128 .f32) (p : Fin 5000) (q : Fin 128) :
    (((cfg3.win 7).blk t).view.read (Elt Ideal) Gf : Vec Ideal Cert.KernelIdeal.S5000x128 .f32) (ix2 p q)
      = Gf (ix2 (⟨5000 * t.val + p.val, by have := p.isLt; have := tileLt3 t; omega⟩ : Fin 50000) q) := by
  have e := blockIdx3 t
  have e0 : win3_7.index t (0 : Fin 2) = t.val := e.2.2.2.2.2.2.2.2.2.2.2.2.2.2.1
  have e1 : win3_7.index t (1 : Fin 2) = 0 := e.2.2.2.2.2.2.2.2.2.2.2.2.2.2.2.1
  rw [View.read_apply]
  show Gf _ = Gf _
  congr 1
  funext a
  apply Fin.ext
  match a with
  | ⟨0, _⟩ => show win3_7.index t (0 : Fin 2) * 5000 + 1 * p.val = 5000 * t.val + p.val; rw [e0]; omega
  | ⟨1, _⟩ => show win3_7.index t (1 : Fin 2) * 128 + 1 * q.val = q.val; rw [e1]; omega

theorem flushed3_h (c : Dev nD) (t : Fin cfg3.N) :
    (dat3 (F := Ideal) V c).flushed 7 t = ((cfg3.win 7).blk t).view.read (Elt Ideal)
      (Stage.reluN (Stage.lin (Stage.reluN (Stage.bnApply (V c main_v25_0) (V c main_v29) (Stage.invStdRow (V c main_v36)) (V c main_v37) (V c main_v38))) (V c main_v23) (V c main_v39))) := by
  show (cfg3.win 7).cut (grid3.coords t) ((dat3 V c).after 7 t) = _
  rw [after3_7]
  unfold out3_7
  rw [View.canon_unit_zero BnLin.zeroOff]
  simp only [View.ld_unit_zero (S := S1x128) BnLin.zeroOff, View.ld_unit_zero (S := S5000x128) BnLin.zeroOff, View.ld_unit_zero (S := S128x128) BnLin.zeroOff]
  funext j
  obtain ⟨p, q, rfl⟩ : ∃ (p : Fin 5000) (q : Fin 128), j = ix2 p q := ⟨j 0, j 1, eq_ix2 j⟩
  refine Eq.trans ?_ (outBlock3 c t _ p q).symm
  exact tile3_eq (V c main_v25_0) (V c main_v29) (V c main_v36) (V c main_v37) (V c main_v38) (V c main_v23) (V c main_v39)
    (iblk3 V c 0 t) (iblk3 V c 1 t) (iblk3 V c 2 t) (iblk3 V c 3 t) (iblk3 V c 4 t) (iblk3 V c 5 t) (iblk3 V c 6 t)
    t.val (tileLt3 t) (zBlock3 V c t) (meanBlock3 V c t) (varBlock3 V c t) (scaleBlock3 V c t) (shiftBlock3 V c t)
    (weightBlock3 V c t) (biasBlock3 V c t) p q

theorem mem_outBlock3 (t : Fin cfg3.N) (i : Cert.KernelIdeal.S50000x128.Idx) :
    i ∈ ((cfg3.win 7).blk t).view.set ↔ ∀ a : Fin 2, win3_7.index t a * Cert.KernelIdeal.S5000x128.size a ≤ (i a).val ∧ (i a).val < win3_7.index t a * Cert.KernelIdeal.S5000x128.size a + Cert.KernelIdeal.S5000x128.size a := by
  show i ∈ ((View.whole main_v40_0).slice (win3_7.rect t)).set ↔ _
  rw [View.set_slice_whole, Rect.mem_set_unit]
  exact Iff.rfl

theorem covered3_h (i : Cert.KernelIdeal.S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  have hN : grid3.N = 10 := N_3
  obtain ⟨tl, htl⟩ : ∃ tl : Fin cfg3.N, tl.val = (i 0).val / 5000 :=
    ⟨⟨(i 0).val / 5000, by show (i 0).val / 5000 < grid3.N; rw [hN]; omega⟩, rfl⟩
  have e := blockIdx3 tl
  have e0 : win3_7.index tl (0 : Fin 2) = tl.val := e.2.2.2.2.2.2.2.2.2.2.2.2.2.2.1
  have e1 : win3_7.index tl (1 : Fin 2) = 0 := e.2.2.2.2.2.2.2.2.2.2.2.2.2.2.2.1
  refine ⟨tl, flush3_7 tl, ?_⟩
  rw [mem_outBlock3]
  intro a
  match a with
  | ⟨0, _⟩ =>
    show win3_7.index tl (0 : Fin 2) * 5000 ≤ (i 0).val ∧ (i 0).val < win3_7.index tl (0 : Fin 2) * 5000 + 5000
    rw [e0, htl]; omega
  | ⟨1, _⟩ =>
    show win3_7.index tl (1 : Fin 2) * 128 ≤ (i 1).val ∧ (i 1).val < win3_7.index tl (1 : Fin 2) * 128 + 128
    rw [e1]; omega

theorem bnlin3_h (c : Dev nD) :
    (dat3 (F := Ideal) V c).arrAt 7 cfg3.N = Stage.reluN (Stage.lin (Stage.reluN (Stage.bnApply (V c main_v25_0) (V c main_v29) (Stage.invStdRow (V c main_v36)) (V c main_v37) (V c main_v38))) (V c main_v23) (V c main_v39)) :=
  (dat3 V c).arrAt_eq_of_cover 7 _ (fun t _ => flushed3_h V c t) covered3_h

theorem sumBlock3 (c : Dev nD) (t : Fin cfg3.N) (Hf : Vec Ideal (⟨2, ![80, 128]⟩ : Shape) .f32) (s : Fin 8) (q : Fin 128) :
    (((cfg3.win 8).blk t).view.read (Elt Ideal) Hf : Vec Ideal Cert.KernelIdeal.S8x128 .f32) (ix2 s q)
      = Hf (ix2 (⟨8 * t.val + s.val, by have := s.isLt; have := tileLt3 t; omega⟩ : Fin 80) q) := by
  have e := blockIdx3 t
  have e0 : win3_8.index t (0 : Fin 2) = t.val := e.2.2.2.2.2.2.2.2.2.2.2.2.2.2.2.2.1
  have e1 : win3_8.index t (1 : Fin 2) = 0 := e.2.2.2.2.2.2.2.2.2.2.2.2.2.2.2.2.2
  rw [View.read_apply]
  show Hf _ = Hf _
  congr 1
  funext a
  apply Fin.ext
  match a with
  | ⟨0, _⟩ => show win3_8.index t (0 : Fin 2) * 8 + 1 * s.val = 8 * t.val + s.val; rw [e0]; omega
  | ⟨1, _⟩ => show win3_8.index t (1 : Fin 2) * 128 + 1 * q.val = q.val; rw [e1]; omega

theorem flushed3_ps (c : Dev nD) (t : Fin cfg3.N) :
    (dat3 (F := Ideal) V c).flushed 8 t = ((cfg3.win 8).blk t).view.read (Elt Ideal)
      (Stage.tileSums (Stage.reluN (Stage.lin (Stage.reluN (Stage.bnApply (V c main_v25_0) (V c main_v29) (Stage.invStdRow (V c main_v36)) (V c main_v37) (V c main_v38))) (V c main_v23) (V c main_v39)))) := by
  show (cfg3.win 8).cut (grid3.coords t) ((dat3 V c).after 8 t) = _
  rw [after3_8]
  unfold out3_8
  rw [View.canon_unit_zero BnLin.zeroOff]
  simp only [View.ld_unit_zero (S := S1x128) BnLin.zeroOff, View.ld_unit_zero (S := S5000x128) BnLin.zeroOff, View.ld_unit_zero (S := S128x128) BnLin.zeroOff]
  funext j
  obtain ⟨s, q, rfl⟩ : ∃ (s : Fin 8) (q : Fin 128), j = ix2 s q := ⟨j 0, j 1, eq_ix2 j⟩
  refine Eq.trans ?_ (sumBlock3 c t _ s q).symm
  refine Eq.trans ?_ (BnLin.tileSums_apply _ _ t.val (tileLt3 t) q (by show (8 * t.val + s.val) / 8 = t.val; have := s.isLt; omega) rfl).symm
  refine (paySum3_apply _ _ _ _ _ _ _ s q).trans (Finset.sum_congr rfl fun r _ => ?_)
  exact tile3_eq (V c main_v25_0) (V c main_v29) (V c main_v36) (V c main_v37) (V c main_v38) (V c main_v23) (V c main_v39)
    (iblk3 V c 0 t) (iblk3 V c 1 t) (iblk3 V c 2 t) (iblk3 V c 3 t) (iblk3 V c 4 t) (iblk3 V c 5 t) (iblk3 V c 6 t)
    t.val (tileLt3 t) (zBlock3 V c t) (meanBlock3 V c t) (varBlock3 V c t) (scaleBlock3 V c t) (shiftBlock3 V c t)
    (weightBlock3 V c t) (biasBlock3 V c t) r q

theorem mem_sumBlock3 (t : Fin cfg3.N) (i : Cert.KernelIdeal.S80x128.Idx) :
    i ∈ ((cfg3.win 8).blk t).view.set ↔ ∀ a : Fin 2, win3_8.index t a * Cert.KernelIdeal.S8x128.size a ≤ (i a).val ∧ (i a).val < win3_8.index t a * Cert.KernelIdeal.S8x128.size a + Cert.KernelIdeal.S8x128.size a := by
  show i ∈ ((View.whole main_v40_1).slice (win3_8.rect t)).set ↔ _
  rw [View.set_slice_whole, Rect.mem_set_unit]
  exact Iff.rfl

theorem covered3_ps (i : Cert.KernelIdeal.S80x128.Idx) :
    ∃ t : Fin cfg3.N, (cfg3.win 8).flush t = true ∧ i ∈ ((cfg3.win 8).blk t).view.set := by
  have hi0 : (i 0).val < 80 := (i 0).isLt
  have hi1 : (i 1).val < 128 := (i 1).isLt
  have hN : grid3.N = 10 := N_3
  obtain ⟨tl, htl⟩ : ∃ tl : Fin cfg3.N, tl.val = (i 0).val / 8 :=
    ⟨⟨(i 0).val / 8, by show (i 0).val / 8 < grid3.N; rw [hN]; omega⟩, rfl⟩
  have e := blockIdx3 tl
  have e0 : win3_8.index tl (0 : Fin 2) = tl.val := e.2.2.2.2.2.2.2.2.2.2.2.2.2.2.2.2.1
  have e1 : win3_8.index tl (1 : Fin 2) = 0 := e.2.2.2.2.2.2.2.2.2.2.2.2.2.2.2.2.2
  refine ⟨tl, flush3_8 tl, ?_⟩
  rw [mem_sumBlock3]
  intro a
  match a with
  | ⟨0, _⟩ =>
    show win3_8.index tl (0 : Fin 2) * 8 ≤ (i 0).val ∧ (i 0).val < win3_8.index tl (0 : Fin 2) * 8 + 8
    rw [e0, htl]; omega
  | ⟨1, _⟩ =>
    show win3_8.index tl (1 : Fin 2) * 128 ≤ (i 1).val ∧ (i 1).val < win3_8.index tl (1 : Fin 2) * 128 + 128
    rw [e1]; omega

theorem bnlin3_ps (c : Dev nD) :
    (dat3 (F := Ideal) V c).arrAt 8 cfg3.N = Stage.tileSums (Stage.reluN (Stage.lin (Stage.reluN (Stage.bnApply (V c main_v25_0) (V c main_v29) (Stage.invStdRow (V c main_v36)) (V c main_v37) (V c main_v38))) (V c main_v23) (V c main_v39))) :=
  (dat3 V c).arrAt_eq_of_cover 8 _ (fun t _ => flushed3_ps V c t) covered3_ps

end Cert.KVal

end
-- ==== Proof.RegBnLinSibling.lean ====
/- Region 9 of the normalisation and dense-layer kernel: the passage from the ten tiles to the whole arrays, as for region 3, over the buffers of region 9. -/
import proofs.«404850_j82815559401961_3_alg».proof.Proof.RegBnLinTile

noncomputable section

namespace Cert.KVal

open Idealize.ShloMosaic Idealize.ShloMosaic.TcCoe Idealize.SL.Sem Cert.KernelIdeal Cert.KernelIdeal.Gen
open Idealize.ShloMosaic.Pipeline (Dat)
open Idealize.ShloMosaic.ValueIdx
open scoped BigOperators

variable [hR : Cert.ReferenceIdeal.Facts]
variable (V : (c : Dev nD) → (b : Ref sig .tc) → Buf (Elt Ideal) ((c : Thread nD τ).loc b))

/-! ## Region 9: the tile at a grid point against the whole arrays -/

/-- The kernel's tile payload at row p and column q. -/
theorem pay9_apply (v0 : Vec Ideal Cert.KernelIdeal.S1x128 .f32) (v5 : Vec Ideal Cert.KernelIdeal.S5000x128 .f32)
    (v7 v13 v17 : Vec Ideal Cert.KernelIdeal.S1x128 .f32) (v23 : Vec Ideal Cert.KernelIdeal.S128x128 .f32)
    (v26 : Vec Ideal Cert.KernelIdeal.S1x128 .f32) (p : Fin 5000) (q : Fin 128) :
    k9_pay1 v0 v5 v7 v13 v17 v23 v26 (ix2 p q)
      = BnLin.outElt (fun k => BnLin.hidElt (v5 (ix2 p k)) (v7 (ix2 (0 : Fin 1) k)) (v0 (ix2 (0 : Fin 1) k)) (v13 (ix2 (0 : Fin 1) k)) (v17 (ix2 (0 : Fin 1) k)))
          (fun k => v23 (ix2 k q)) (v26 (ix2 (0 : Fin 1) q)) := by
  unfold k9_pay1
  simp only [shapeCast_self]
  refine (maximumf_apply _ _ _).trans ?_
  unfold BnLin.outElt
  refine congrArg₂ max ?_ rfl
  refine (addf_apply _ _ _).trans ?_
  refine congrArg₂ (· + ·) ?_ (broadcastTo_1b_ab_apply v26 _ p q)
  refine (BnLin.matmulTile_apply _ v23 p q).trans ?_
  refine Finset.sum_congr rfl fun k _ => ?_
  refine congrArg (· * v23 (ix2 k q)) ?_
  simp only [maximumf_apply, addf_apply, mulf_apply, subf_apply, broadcast_apply, broadcastTo_1b_ab_apply]
  rfl

/-- The column sums of a tile, laid on 8 rows: every row holds the sums over the tile's 5000 rows. -/
theorem paySum9_apply (v0 : Vec Ideal Cert.KernelIdeal.S1x128 .f32) (v5 : Vec Ideal Cert.KernelIdeal.S5000x128 .f32)
    (v7 v13 v17 : Vec Ideal Cert.KernelIdeal.S1x128 .f32) (v23 : Vec Ideal Cert.KernelIdeal.S128x128 .f32)
    (v26 : Vec Ideal Cert.KernelIdeal.S1x128 .f32) (s : Fin 8) (q : Fin 128) :
    k9_pay2 v0 v5 v7 v13 v17 v23 v26 (ix2 s q) = ∑ r : Fin 5000, k9_pay1 v0 v5 v7 v13 v17 v23 v26 (ix2 r q) := by
  unfold k9_pay2
  simp only [shapeCast_self]
  refine (broadcastTo_1b_ab_apply _ _ s q).trans ?_
  refine (shapeCast_a_1a_apply _ _ (0 : Fin 1) q).trans ?_
  refine (Ideal.multiReduction_add_single (k9_pay1 v0 v5 v7 v13 v17 v23 v26) 0x00000000#32 reduces_S5000x128_S128 (.inl rfl) rfl (ix1 q)).trans ?_
  show ∑ r : Fin 5000, _ = ∑ r : Fin 5000, _
  refine Finset.sum_congr rfl fun r _ => ?_
  refine congrArg _ (funext fun a => Fin.ext ?_)
  match a with
  | ⟨0, _⟩ => rfl
  | ⟨1, _⟩ => rfl

/-- A tile whose blocks are the whole array's at tile T: its payload is the stage's function on the tile's rows. -/
theorem tile9_eq (Z : Vec Ideal Cert.ReferenceIdeal.S50000x128 .f32) (M Vr G Be : Vec Ideal Cert.ReferenceIdeal.S1x128 .f32)
    (WT : Vec Ideal Cert.ReferenceIdeal.S128x128 .f32) (B : Vec Ideal Cert.ReferenceIdeal.S1x128 .f32)
    (x0 : Vec Ideal Cert.KernelIdeal.S5000x128 .f32) (x1 x2 x3 x4 : Vec Ideal Cert.KernelIdeal.S1x128 .f32)
    (x5 : Vec Ideal Cert.KernelIdeal.S128x128 .f32) (x6 : Vec Ideal Cert.KernelIdeal.S1x128 .f32)
    (T : ℕ) (hT : T < 10)
    (h0 : ∀ (p : Fin 5000) (k : Fin 128), x0 (ix2 p k) = Z (ix2 (⟨5000 * T + p.val, by have := p.isLt; omega⟩ : Fin 50000) k))
    (h1 : ∀ k : Fin 128, x1 (ix2 (0 : Fin 1) k) = M (ix2 (0 : Fin 1) k))
    (h2 : ∀ k : Fin 128, x2 (ix2 (0 : Fin 1) k) = Vr (ix2 (0 : Fin 1) k))
    (h3 : ∀ k : Fin 128, x3 (ix2 (0 : Fin 1) k) = G (ix2 (0 : Fin 1) k))
    (h4 : ∀ k : Fin 128, x4 (ix2 (0 : Fin 1) k) = Be (ix2 (0 : Fin 1) k))
    (h5 : ∀ k q : Fin 128, x5 (ix2 k q) = WT (ix2 k q))
    (h6 : ∀ k : Fin 128, x6 (ix2 (0 : Fin 1) k) = B (ix2 (0 : Fin 1) k))
    (p : Fin 5000) (q : Fin 128) :
    k9_pay1 x2 x0 x1 x3 x4 x5 x6 (ix2 p q)
      = Stage.reluN (Stage.lin (Stage.reluN (Stage.bnApply Z M (Stage.invStdRow Vr) G Be)) WT B)
          (ix2 (⟨5000 * T + p.val, by have := p.isLt; omega⟩ : Fin 50000) q) := by
  rw [pay9_apply, BnLin.stage_apply]
  simp only [h0, h1, h2, h3, h4, h5, h6]

/-- The block index of every window at grid point t: the z tile and the two outputs move with t, every other operand sits at block 0. -/
theorem blockIdx9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = t.val ∧ win9_7.index t (1 : Fin 2) = 0
    ∧ win9_8.index t (0 : Fin 2) = t.val ∧ win9_8.index t (1 : Fin 2) = 0 :=
  (by decide +kernel : ∀ t : Fin grid9.N, _)

theorem tileLt9 (t : Fin cfg9.N) : t.val < 10 := by have h := t.isLt; have hN : cfg9.N = 10 := N_9; omega

/-- The z tile at point t is rows 5000t … 5000t + 4999 of z. -/
theorem zBlock9 (c : Dev nD) (t : Fin cfg9.N) (p : Fin 5000) (k : Fin 128) :
    (iblk9 V c 0 t : Vec Ideal Cert.KernelIdeal.S5000x128 .f32) (ix2 p k)
      = (V c main_v76_0 : Vec Ideal Cert.ReferenceIdeal.S50000x128 .f32) (ix2 (⟨5000 * t.val + p.val, by have := p.isLt; have := tileLt9 t; omega⟩ : Fin 50000) k) := by
  obtain ⟨e0, e1, -⟩ := blockIdx9 t
  unfold iblk9
  rw [View.read_apply]
  show V c main_v76_0 _ = V c main_v76_0 _
  congr 1
  funext a
  apply Fin.ext
  match a with
  | ⟨0, _⟩ => show win9_0.index t (0 : Fin 2) * 5000 + 1 * p.val = 5000 * t.val + p.val; rw [e0]; omega
  | ⟨1, _⟩ => show win9_0.index t (1 : Fin 2) * 128 + 1 * k.val = k.val; rw [e1]; omega

/-- The mean row's block is the mean row. -/
theorem meanBlock9 (c : Dev nD) (t : Fin cfg9.N) (k : Fin 128) :
    (iblk9 V c 1 t : Vec Ideal Cert.KernelIdeal.S1x128 .f32) (ix2 (0 : Fin 1) k)
      = (V c main_v80 : Vec Ideal Cert.ReferenceIdeal.S1x128 .f32) (ix2 (0 : Fin 1) k) := by
  have e := blockIdx9 t
  have e0 : win9_1.index t (0 : Fin 2) = 0 := e.2.2.1
  have e1 : win9_1.index t (1 : Fin 2) = 0 := e.2.2.2.1
  unfold iblk9
  rw [View.read_apply]
  show V c main_v80 _ = V c main_v80 _
  congr 1
  funext a
  apply Fin.ext
  match a with
  | ⟨0, _⟩ => show win9_1.index t (0 : Fin 2) * 1 + 1 * 0 = 0; rw [e0]
  | ⟨1, _⟩ => show win9_1.index t (1 : Fin 2) * 128 + 1 * k.val = k.val; rw [e1]; omega

/-- The variance row's block is the variance row. -/
theorem varBlock9 (c : Dev nD) (t : Fin cfg9.N) (k : Fin 128) :
    (iblk9 V c 2 t : Vec Ideal Cert.KernelIdeal.S1x128 .f32) (ix2 (0 : Fin 1) k)
      = (V c main_v87 : Vec Ideal Cert.ReferenceIdeal.S1x128 .f32) (ix2 (0 : Fin 1) k) := by
  have e := blockIdx9 t
  have e0 : win9_2.index t (0 : Fin 2) = 0 := e.2.2.2.2.1
  have e1 : win9_2.index t (1 : Fin 2) = 0 := e.2.2.2.2.2.1
  unfold iblk9
  rw [View.read_apply]
  show V c main_v87 _ = V c main_v87 _
  congr 1
  funext a
  apply Fin.ext
  match a with
  | ⟨0, _⟩ => show win9_2.index t (0 : Fin 2) * 1 + 1 * 0 = 0; rw [e0]
  | ⟨1, _⟩ => show win9_2.index t (1 : Fin 2) * 128 + 1 * k.val = k.val; rw [e1]; omega

/-- The scale row's block is the scale row. -/
theorem scaleBlock9 (c : Dev nD) (t : Fin cfg9.N) (k : Fin 128) :
    (iblk9 V c 3 t : Vec Ideal Cert.KernelIdeal.S1x128 .f32) (ix2 (0 : Fin 1) k)
      = (V c main_v88 : Vec Ideal Cert.ReferenceIdeal.S1x128 .f32) (ix2 (0 : Fin 1) k) := by
  have e := blockIdx9 t
  have e0 : win9_3.index t (0 : Fin 2) = 0 := e.2.2.2.2.2.2.1
  have e1 : win9_3.index t (1 : Fin 2) = 0 := e.2.2.2.2.2.2.2.1
  unfold iblk9
  rw [View.read_apply]
  show V c main_v88 _ = V c main_v88 _
  congr 1
  funext a
  apply Fin.ext
  match a with
  | ⟨0, _⟩ => show win9_3.index t (0 : Fin 2) * 1 + 1 * 0 = 0; rw [e0]
  | ⟨1, _⟩ => show win9_3.index t (1 : Fin 2) * 128 + 1 * k.val = k.val; rw [e1]; omega

/-- The shift row's block is the shift row. -/
theorem shiftBlock9 (c : Dev nD) (t : Fin cfg9.N) (k : Fin 128) :
    (iblk9 V c 4 t : Vec Ideal Cert.KernelIdeal.S1x128 .f32) (ix2 (0 : Fin 1) k)
      = (V c main_v89 : Vec Ideal Cert.ReferenceIdeal.S1x128 .f32) (ix2 (0 : Fin 1) k) := by
  have e := blockIdx9 t
  have e0 : win9_4.index t (0 : Fin 2) = 0 := e.2.2.2.2.2.2.2.2.1
  have e1 : win9_4.index t (1 : Fin 2) = 0 := e.2.2.2.2.2.2.2.2.2.1
  unfold iblk9
  rw [View.read_apply]
  show V c main_v89 _ = V c main_v89 _
  congr 1
  funext a
  apply Fin.ext
  match a with
  | ⟨0, _⟩ => show win9_4.index t (0 : Fin 2) * 1 + 1 * 0 = 0; rw [e0]
  | ⟨1, _⟩ => show win9_4.index t (1 : Fin 2) * 128 + 1 * k.val = k.val; rw [e1]; omega

/-- The bias row's block is the bias row. -/
theorem biasBlock9 (c : Dev nD) (t : Fin cfg9.N) (k : Fin 128) :
    (iblk9 V c 6 t : Vec Ideal Cert.KernelIdeal.S1x128 .f32) (ix2 (0 : Fin 1) k)
      = (V c main_v90 : Vec Ideal Cert.ReferenceIdeal.S1x128 .f32) (ix2 (0 : Fin 1) k) := by
  have e := blockIdx9 t
  have e0 : win9_6.index t (0 : Fin 2) = 0 := e.2.2.2.2.2.2.2.2.2.2.2.2.1
  have e1 : win9_6.index t (1 : Fin 2) = 0 := e.2.2.2.2.2.2.2.2.2.2.2.2.2.1
  unfold iblk9
  rw [View.read_apply]
  show V c main_v90 _ = V c main_v90 _
  congr 1
  funext a
  apply Fin.ext
  match a with
  | ⟨0, _⟩ => show win9_6.index t (0 : Fin 2) * 1 + 1 * 0 = 0; rw [e0]
  | ⟨1, _⟩ => show win9_6.index t (1 : Fin 2) * 128 + 1 * k.val = k.val; rw [e1]; omega

/-- The weight's block is the weight. -/
theorem weightBlock9 (c : Dev nD) (t : Fin cfg9.N) (k q : Fin 128) :
    (iblk9 V c 5 t : Vec Ideal Cert.KernelIdeal.S128x128 .f32) (ix2 k q)
      = (V c main_v74 : Vec Ideal Cert.ReferenceIdeal.S128x128 .f32) (ix2 k q) := by
  have e := blockIdx9 t
  have e0 : win9_5.index t (0 : Fin 2) = 0 := e.2.2.2.2.2.2.2.2.2.2.1
  have e1 : win9_5.index t (1 : Fin 2) = 0 := e.2.2.2.2.2.2.2.2.2.2.2.1
  unfold iblk9
  rw [View.read_apply]
  show V c main_v74 _ = V c main_v74 _
  congr 1
  funext a
  apply Fin.ext
  match a with
  | ⟨0, _⟩ => show win9_5.index t (0 : Fin 2) * 128 + 1 * k.val = k.val; rw [e0]; omega
  | ⟨1, _⟩ => show win9_5.index t (1 : Fin 2) * 128 + 1 * q.val = q.val; rw [e1]; omega

/-- The output tile's block of a whole array: its rows 5000t … 5000t + 4999. -/
theorem outBlock9 (c : Dev nD) (t : Fin cfg9.N) (Gf : Vec Ideal Cert.ReferenceIdeal.S50000x128 .f32) (p : Fin 5000) (q : Fin 128) :
    (((cfg9.win 7).blk t).view.read (Elt Ideal) Gf : Vec Ideal Cert.KernelIdeal.S5000x128 .f32) (ix2 p q)
      = Gf (ix2 (⟨5000 * t.val + p.val, by have := p.isLt; have := tileLt9 t; omega⟩ : Fin 50000) q) := by
  have e := blockIdx9 t
  have e0 : win9_7.index t (0 : Fin 2) = t.val := e.2.2.2.2.2.2.2.2.2.2.2.2.2.2.1
  have e1 : win9_7.index t (1 : Fin 2) = 0 := e.2.2.2.2.2.2.2.2.2.2.2.2.2.2.2.1
  rw [View.read_apply]
  show Gf _ = Gf _
  congr 1
  funext a
  apply Fin.ext
  match a with
  | ⟨0, _⟩ => show win9_7.index t (0 : Fin 2) * 5000 + 1 * p.val = 5000 * t.val + p.val; rw [e0]; omega
  | ⟨1, _⟩ => show win9_7.index t (1 : Fin 2) * 128 + 1 * q.val = q.val; rw [e1]; omega

/-- WHAT POINT t WRITES BACK to the output tile: block t of the stage's function of the operand arrays. -/
theorem flushed9_h (c : Dev nD) (t : Fin cfg9.N) :
    (dat9 (F := Ideal) V c).flushed 7 t = ((cfg9.win 7).blk t).view.read (Elt Ideal)
      (Stage.reluN (Stage.lin (Stage.reluN (Stage.bnApply (V c main_v76_0) (V c main_v80) (Stage.invStdRow (V c main_v87)) (V c main_v88) (V c main_v89))) (V c main_v74) (V c main_v90))) := by
  show (cfg9.win 7).cut (grid9.coords t) ((dat9 V c).after 7 t) = _
  rw [after9_7]
  unfold out9_7
  rw [View.canon_unit_zero BnLin.zeroOff]
  simp only [View.ld_unit_zero (S := S1x128) BnLin.zeroOff, View.ld_unit_zero (S := S5000x128) BnLin.zeroOff, View.ld_unit_zero (S := S128x128) BnLin.zeroOff]
  funext j
  obtain ⟨p, q, rfl⟩ : ∃ (p : Fin 5000) (q : Fin 128), j = ix2 p q := ⟨j 0, j 1, eq_ix2 j⟩
  refine Eq.trans ?_ (outBlock9 c t _ p q).symm
  exact tile9_eq (V c main_v76_0) (V c main_v80) (V c main_v87) (V c main_v88) (V c main_v89) (V c main_v74) (V c main_v90)
    (iblk9 V c 0 t) (iblk9 V c 1 t) (iblk9 V c 2 t) (iblk9 V c 3 t) (iblk9 V c 4 t) (iblk9 V c 5 t) (iblk9 V c 6 t)
    t.val (tileLt9 t) (zBlock9 V c t) (meanBlock9 V c t) (varBlock9 V c t) (scaleBlock9 V c t) (shiftBlock9 V c t)
    (weightBlock9 V c t) (biasBlock9 V c t) p q

/-- An index of the output array is in point t's block iff each coordinate is in the block's range on its axis. -/
theorem mem_outBlock9 (t : Fin cfg9.N) (i : Cert.KernelIdeal.S50000x128.Idx) :
    i ∈ ((cfg9.win 7).blk t).view.set ↔ ∀ a : Fin 2, win9_7.index t a * Cert.KernelIdeal.S5000x128.size a ≤ (i a).val ∧ (i a).val < win9_7.index t a * Cert.KernelIdeal.S5000x128.size a + Cert.KernelIdeal.S5000x128.size a := by
  show i ∈ ((View.whole main_v91_0).slice (win9_7.rect t)).set ↔ _
  rw [View.set_slice_whole, Rect.mem_set_unit]
  exact Iff.rfl

/-- Row r of the output array is in the block of point r / 5000. -/
theorem covered9_h (i : Cert.KernelIdeal.S50000x128.Idx) :
    ∃ t : Fin cfg9.N, (cfg9.win 7).flush t = true ∧ i ∈ ((cfg9.win 7).blk t).view.set := by
  have hi0 : (i 0).val < 50000 := (i 0).isLt
  have hi1 : (i 1).val < 128 := (i 1).isLt
  have hN : grid9.N = 10 := N_9
  obtain ⟨tl, htl⟩ : ∃ tl : Fin cfg9.N, tl.val = (i 0).val / 5000 :=
    ⟨⟨(i 0).val / 5000, by show (i 0).val / 5000 < grid9.N; rw [hN]; omega⟩, rfl⟩
  have e := blockIdx9 tl
  have e0 : win9_7.index tl (0 : Fin 2) = tl.val := e.2.2.2.2.2.2.2.2.2.2.2.2.2.2.1
  have e1 : win9_7.index tl (1 : Fin 2) = 0 := e.2.2.2.2.2.2.2.2.2.2.2.2.2.2.2.1
  refine ⟨tl, flush9_7 tl, ?_⟩
  rw [mem_outBlock9]
  intro a
  match a with
  | ⟨0, _⟩ =>
    show win9_7.index tl (0 : Fin 2) * 5000 ≤ (i 0).val ∧ (i 0).val < win9_7.index tl (0 : Fin 2) * 5000 + 5000
    rw [e0, htl]; omega
  | ⟨1, _⟩ =>
    show win9_7.index tl (1 : Fin 2) * 128 ≤ (i 1).val ∧ (i 1).val < win9_7.index tl (1 : Fin 2) * 128 + 128
    rw [e1]; omega

/-- Region 9: relu of the second dense layer of the relu of the normalised first dense layer. -/
theorem bnlin9_h (c : Dev nD) :
    (dat9 (F := Ideal) V c).arrAt 7 cfg9.N = Stage.reluN (Stage.lin (Stage.reluN (Stage.bnApply (V c main_v76_0) (V c main_v80) (Stage.invStdRow (V c main_v87)) (V c main_v88) (V c main_v89))) (V c main_v74) (V c main_v90)) :=
  (dat9 V c).arrAt_eq_of_cover 7 _ (fun t _ => flushed9_h V c t) covered9_h

/-! ## The tile sums -/

/-- The partial-sum block of a whole 80×128 array at point t: its rows 8t … 8t + 7. -/
theorem sumBlock9 (c : Dev nD) (t : Fin cfg9.N) (Hf : Vec Ideal (⟨2, ![80, 128]⟩ : Shape) .f32) (s : Fin 8) (q : Fin 128) :
    (((cfg9.win 8).blk t).view.read (Elt Ideal) Hf : Vec Ideal Cert.KernelIdeal.S8x128 .f32) (ix2 s q)
      = Hf (ix2 (⟨8 * t.val + s.val, by have := s.isLt; have := tileLt9 t; omega⟩ : Fin 80) q) := by
  have e := blockIdx9 t
  have e0 : win9_8.index t (0 : Fin 2) = t.val := e.2.2.2.2.2.2.2.2.2.2.2.2.2.2.2.2.1
  have e1 : win9_8.index t (1 : Fin 2) = 0 := e.2.2.2.2.2.2.2.2.2.2.2.2.2.2.2.2.2
  rw [View.read_apply]
  show Hf _ = Hf _
  congr 1
  funext a
  apply Fin.ext
  match a with
  | ⟨0, _⟩ => show win9_8.index t (0 : Fin 2) * 8 + 1 * s.val = 8 * t.val + s.val; rw [e0]; omega
  | ⟨1, _⟩ => show win9_8.index t (1 : Fin 2) * 128 + 1 * q.val = q.val; rw [e1]; omega

/-- WHAT POINT t WRITES BACK to the partial sums: block t of the tile sums of the stage's function. -/
theorem flushed9_ps (c : Dev nD) (t : Fin cfg9.N) :
    (dat9 (F := Ideal) V c).flushed 8 t = ((cfg9.win 8).blk t).view.read (Elt Ideal)
      (Stage.tileSums (Stage.reluN (Stage.lin (Stage.reluN (Stage.bnApply (V c main_v76_0) (V c main_v80) (Stage.invStdRow (V c main_v87)) (V c main_v88) (V c main_v89))) (V c main_v74) (V c main_v90)))) := by
  show (cfg9.win 8).cut (grid9.coords t) ((dat9 V c).after 8 t) = _
  rw [after9_8]
  unfold out9_8
  rw [View.canon_unit_zero BnLin.zeroOff]
  simp only [View.ld_unit_zero (S := S1x128) BnLin.zeroOff, View.ld_unit_zero (S := S5000x128) BnLin.zeroOff, View.ld_unit_zero (S := S128x128) BnLin.zeroOff]
  funext j
  obtain ⟨s, q, rfl⟩ : ∃ (s : Fin 8) (q : Fin 128), j = ix2 s q := ⟨j 0, j 1, eq_ix2 j⟩
  refine Eq.trans ?_ (sumBlock9 c t _ s q).symm
  refine Eq.trans ?_ (BnLin.tileSums_apply _ _ t.val (tileLt9 t) q (by show (8 * t.val + s.val) / 8 = t.val; have := s.isLt; omega) rfl).symm
  refine (paySum9_apply _ _ _ _ _ _ _ s q).trans (Finset.sum_congr rfl fun r _ => ?_)
  exact tile9_eq (V c main_v76_0) (V c main_v80) (V c main_v87) (V c main_v88) (V c main_v89) (V c main_v74) (V c main_v90)
    (iblk9 V c 0 t) (iblk9 V c 1 t) (iblk9 V c 2 t) (iblk9 V c 3 t) (iblk9 V c 4 t) (iblk9 V c 5 t) (iblk9 V c 6 t)
    t.val (tileLt9 t) (zBlock9 V c t) (meanBlock9 V c t) (varBlock9 V c t) (scaleBlock9 V c t) (shiftBlock9 V c t)
    (weightBlock9 V c t) (biasBlock9 V c t) r q

/-- An index of the partial-sum array is in point t's block iff each coordinate is in the block's range on its axis. -/
theorem mem_sumBlock9 (t : Fin cfg9.N) (i : Cert.KernelIdeal.S80x128.Idx) :
    i ∈ ((cfg9.win 8).blk t).view.set ↔ ∀ a : Fin 2, win9_8.index t a * Cert.KernelIdeal.S8x128.size a ≤ (i a).val ∧ (i a).val < win9_8.index t a * Cert.KernelIdeal.S8x128.size a + Cert.KernelIdeal.S8x128.size a := by
  show i ∈ ((View.whole main_v91_1).slice (win9_8.rect t)).set ↔ _
  rw [View.set_slice_whole, Rect.mem_set_unit]
  exact Iff.rfl

/-- Row r of the partial-sum array is in the block of point r / 8. -/
theorem covered9_ps (i : Cert.KernelIdeal.S80x128.Idx) :
    ∃ t : Fin cfg9.N, (cfg9.win 8).flush t = true ∧ i ∈ ((cfg9.win 8).blk t).view.set := by
  have hi0 : (i 0).val < 80 := (i 0).isLt
  have hi1 : (i 1).val < 128 := (i 1).isLt
  have hN : grid9.N = 10 := N_9
  obtain ⟨tl, htl⟩ : ∃ tl : Fin cfg9.N, tl.val = (i 0).val / 8 :=
    ⟨⟨(i 0).val / 8, by show (i 0).val / 8 < grid9.N; rw [hN]; omega⟩, rfl⟩
  have e := blockIdx9 tl
  have e0 : win9_8.index tl (0 : Fin 2) = tl.val := e.2.2.2.2.2.2.2.2.2.2.2.2.2.2.2.2.1
  have e1 : win9_8.index tl (1 : Fin 2) = 0 := e.2.2.2.2.2.2.2.2.2.2.2.2.2.2.2.2.2
  refine ⟨tl, flush9_8 tl, ?_⟩
  rw [mem_sumBlock9]
  intro a
  match a with
  | ⟨0, _⟩ =>
    show win9_8.index tl (0 : Fin 2) * 8 ≤ (i 0).val ∧ (i 0).val < win9_8.index tl (0 : Fin 2) * 8 + 8
    rw [e0, htl]; omega
  | ⟨1, _⟩ =>
    show win9_8.index tl (1 : Fin 2) * 128 ≤ (i 1).val ∧ (i 1).val < win9_8.index tl (1 : Fin 2) * 128 + 128
    rw [e1]; omega

/-- Region 9, second output: the tile sums of the first. -/
theorem bnlin9_ps (c : Dev nD) :
    (dat9 (F := Ideal) V c).arrAt 8 cfg9.N = Stage.tileSums (Stage.reluN (Stage.lin (Stage.reluN (Stage.bnApply (V c main_v76_0) (V c main_v80) (Stage.invStdRow (V c main_v87)) (V c main_v88) (V c main_v89))) (V c main_v74) (V c main_v90))) :=
  (dat9 V c).arrAt_eq_of_cover 8 _ (fun t _ => flushed9_ps V c t) covered9_ps

end Cert.KVal

end
-- ==== Proof.RegBnLin.lean ====
import proofs.«404850_j82815559401961_3_alg».proof.Proof.RegBnLinTile
import proofs.«404850_j82815559401961_3_alg».proof.Proof.RegBnLinSibling
-- ==== Proof.KFin.lean ====
import proofs.«404850_j82815559401961_3_alg».proof.Proof.Gen.KernelIdeal.Frame
import proofs.«404850_j82815559401961_3_alg».proof.Proof.Stage
import proofs.«404850_j82815559401961_3_alg».proof.Proof.KStage
import proofs.«404850_j82815559401961_3_alg».proof.Proof.KHost
import proofs.«404850_j82815559401961_3_alg».proof.Proof.KTrack
import proofs.«404850_j82815559401961_3_alg».proof.Proof.RegEdge
import proofs.«404850_j82815559401961_3_alg».proof.Proof.RegHead
import proofs.«404850_j82815559401961_3_alg».proof.Proof.RegLin
import proofs.«404850_j82815559401961_3_alg».proof.Proof.RegVar
import proofs.«404850_j82815559401961_3_alg».proof.Proof.RegBnFin
import proofs.«404850_j82815559401961_3_alg».proof.Proof.RegBnLin

noncomputable section

namespace Cert.KFin

open Idealize.ShloMosaic Idealize.ShloMosaic.TcCoe Idealize.SL.Sem Idealize.ShloMosaic.StableHlo Cert.KernelIdeal Cert.KernelIdeal.Gen

variable [hR : Cert.ReferenceIdeal.Facts]
variable (m : (ℓ : Loc nD τ sig) → Buf (Elt Ideal) ℓ) (ρ : Dev nD → PrngReg)

abbrev KF (c : Dev nD) : Valuation τ sig (Elt Ideal) := W30 (F := Ideal) m ρ c

variable (c : Dev nD)

/-- The same, read at the final contents. -/
theorem fin (k : ℕ) (b : Ref sig .tc) {W : Valuation τ sig (Elt Ideal)}
    (hb : b ∉ ((KTrack.kouts.take 30).drop k).flatten := by decide) (hk : k ≤ 30 := by decide)
    (hW : (KTrack.bnds m ρ c)[k]? = some W := by rfl) : KF m ρ c (Proc.devRef .tc b) = W (Proc.devRef .tc b) :=
  KTrack.rest m ρ c k b hb hk hW

theorem src :
    KF m ρ c (Proc.devRef .tc main_v1) = Stage.srcOf (m ((c : Thread nD τ).loc main_arg1)) := by
  rw [fin m ρ c 1 main_v1 (W := W1 m ρ c)]
  exact KHost.h0_src (W0 m ρ c)

theorem dst :
    KF m ρ c (Proc.devRef .tc main_v3) = Stage.dstOf (m ((c : Thread nD τ).loc main_arg1)) := by
  rw [fin m ρ c 1 main_v3 (W := W1 m ρ c)]
  exact KHost.h0_dst (W0 m ρ c)

theorem lwT1 :
    KF m ρ c (Proc.devRef .tc main_v4) = KStage.tr16 (m ((c : Thread nD τ).loc main_arg4)) := by
  rw [fin m ρ c 1 main_v4 (W := W1 m ρ c)]
  exact KHost.h0_lwT (W0 m ρ c)

theorem lb1 :
    KF m ρ c (Proc.devRef .tc main_v5) = KStage.rowK (m ((c : Thread nD τ).loc main_arg5)) := by
  rw [fin m ρ c 1 main_v5 (W := W1 m ρ c)]
  exact KHost.h0_lb (W0 m ρ c)

theorem e1 :
    KF m ρ c (Proc.devRef .tc main_v6) = Stage.edgeLin (m ((c : Thread nD τ).loc main_arg2)) (KF m ρ c (Proc.devRef .tc main_v4)) (KF m ρ c (Proc.devRef .tc main_v5)) := by
  rw [fin m ρ c 2 main_v6 (W := W2 m ρ c), ← W30_main_arg2 m ρ c, KTrack.rest m ρ c 1 main_arg2 (W := W1 m ρ c),
    fin m ρ c 1 main_v4 (W := W1 m ρ c), fin m ρ c 1 main_v5 (W := W1 m ρ c)]
  exact (W2_arr m ρ c 3).trans (KVal.edgeLin0 (V1 m ρ) c)

theorem agg1 :
    KF m ρ c (Proc.devRef .tc main_v18) = Stage.aggregate (m ((c : Thread nD τ).loc main_arg0)) (KF m ρ c (Proc.devRef .tc main_v1)) (KF m ρ c (Proc.devRef .tc main_v3)) (KF m ρ c (Proc.devRef .tc main_v6)) := by
  rw [fin m ρ c 5 main_v18 (W := W5 m ρ c), ← W30_main_arg0 m ρ c, KTrack.rest m ρ c 2 main_arg0 (W := W2 m ρ c),
    fin m ρ c 2 main_v1 (W := W2 m ρ c), fin m ρ c 2 main_v3 (W := W2 m ρ c), fin m ρ c 2 main_v6 (W := W2 m ρ c)]
  exact KHost.h1_agg (W2 m ρ c)

theorem sx1 :
    KF m ρ c (Proc.devRef .tc main_v21) = Stage.scaled (m ((c : Thread nD τ).loc main_arg6)) (m ((c : Thread nD τ).loc main_arg0)) := by
  rw [fin m ρ c 5 main_v21 (W := W5 m ρ c), ← W30_main_arg6 m ρ c, KTrack.rest m ρ c 2 main_arg6 (W := W2 m ρ c),
    ← W30_main_arg0 m ρ c, KTrack.rest m ρ c 2 main_arg0 (W := W2 m ρ c)]
  exact KHost.h1_sx (W2 m ρ c)

theorem W1T1 :
    KF m ρ c (Proc.devRef .tc main_v22) = KStage.tr128 (m ((c : Thread nD τ).loc main_arg7)) := by
  rw [fin m ρ c 5 main_v22 (W := W5 m ρ c), ← W30_main_arg7 m ρ c, KTrack.rest m ρ c 2 main_arg7 (W := W2 m ρ c)]
  exact KHost.h1_W1T (W2 m ρ c)

theorem W2T1 :
    KF m ρ c (Proc.devRef .tc main_v23) = KStage.tr128 (m ((c : Thread nD τ).loc main_arg11)) := by
  rw [fin m ρ c 5 main_v23 (W := W5 m ρ c), ← W30_main_arg11 m ρ c, KTrack.rest m ρ c 2 main_arg11 (W := W2 m ρ c)]
  exact KHost.h1_W2T (W2 m ρ c)

theorem b11 :
    KF m ρ c (Proc.devRef .tc main_v24) = KStage.rowK (m ((c : Thread nD τ).loc main_arg8)) := by
  rw [fin m ρ c 5 main_v24 (W := W5 m ρ c), ← W30_main_arg8 m ρ c, KTrack.rest m ρ c 2 main_arg8 (W := W2 m ρ c)]
  exact KHost.h1_b1 (W2 m ρ c)

theorem z1 :
    KF m ρ c (Proc.devRef .tc main_v25_0) = Stage.linSum (KF m ρ c (Proc.devRef .tc main_v18)) (KF m ρ c (Proc.devRef .tc main_v21)) (KF m ρ c (Proc.devRef .tc main_v22)) (KF m ρ c (Proc.devRef .tc main_v24)) := by
  rw [fin m ρ c 6 main_v25_0 (W := W6 m ρ c), fin m ρ c 5 main_v18 (W := W5 m ρ c), fin m ρ c 5 main_v21 (W := W5 m ρ c),
    fin m ρ c 5 main_v22 (W := W5 m ρ c), fin m ρ c 5 main_v24 (W := W5 m ρ c)]
  exact (W6_arr m ρ c 4).trans (KVal.lin1_z (V5 m ρ) c)

theorem ps1 :
    KF m ρ c (Proc.devRef .tc main_v25_1) = Stage.tileSums (Stage.linSum (KF m ρ c (Proc.devRef .tc main_v18)) (KF m ρ c (Proc.devRef .tc main_v21)) (KF m ρ c (Proc.devRef .tc main_v22)) (KF m ρ c (Proc.devRef .tc main_v24))) := by
  rw [fin m ρ c 6 main_v25_1 (W := W6 m ρ c), fin m ρ c 5 main_v18 (W := W5 m ρ c), fin m ρ c 5 main_v21 (W := W5 m ρ c),
    fin m ρ c 5 main_v22 (W := W5 m ρ c), fin m ρ c 5 main_v24 (W := W5 m ρ c)]
  exact (W6_arr m ρ c 5).trans (KVal.lin1_ps (V5 m ρ) c)

end Cert.KFin

end
-- ==== Proof.KFinA2.lean ====
import proofs.«404850_j82815559401961_3_alg».proof.Proof.KFin

noncomputable section

namespace Cert.KFin

open Idealize.ShloMosaic Idealize.ShloMosaic.TcCoe Idealize.SL.Sem Idealize.ShloMosaic.StableHlo Cert.KernelIdeal Cert.KernelIdeal.Gen

variable [hR : Cert.ReferenceIdeal.Facts]
variable (m : (ℓ : Loc nD τ sig) → Buf (Elt Ideal) ℓ) (ρ : Dev nD → PrngReg) (c : Dev nD)

theorem mean1 :
    KF m ρ c (Proc.devRef .tc main_v29) = KStage.kMeanRow (KF m ρ c (Proc.devRef .tc main_v25_1)) := by
  rw [fin m ρ c 7 main_v29 (W := W7 m ρ c), fin m ρ c 6 main_v25_1 (W := W6 m ρ c)]
  exact KHost.h2_mean (W6 m ρ c)

theorem pq1 :
    KF m ρ c (Proc.devRef .tc main_v30) = Stage.tileSums (Stage.sqDev (KF m ρ c (Proc.devRef .tc main_v25_0)) (KF m ρ c (Proc.devRef .tc main_v29))) := by
  rw [fin m ρ c 8 main_v30 (W := W8 m ρ c), fin m ρ c 7 main_v25_0 (W := W7 m ρ c), fin m ρ c 7 main_v29 (W := W7 m ρ c)]
  exact (W8_arr m ρ c 2).trans (KVal.var2 (V7 m ρ) c)

theorem var1 :
    KF m ρ c (Proc.devRef .tc main_v36) = KStage.kVarRow (KF m ρ c (Proc.devRef .tc main_v30)) := by
  rw [fin m ρ c 9 main_v36 (W := W9 m ρ c), fin m ρ c 8 main_v30 (W := W8 m ρ c)]
  exact KHost.h3_var (W8 m ρ c)

theorem g11 :
    KF m ρ c (Proc.devRef .tc main_v37) = KStage.rowK (m ((c : Thread nD τ).loc main_arg9)) := by
  rw [fin m ρ c 9 main_v37 (W := W9 m ρ c), ← W30_main_arg9 m ρ c, KTrack.rest m ρ c 8 main_arg9 (W := W8 m ρ c)]
  exact KHost.h3_g (W8 m ρ c)

theorem be11 :
    KF m ρ c (Proc.devRef .tc main_v38) = KStage.rowK (m ((c : Thread nD τ).loc main_arg10)) := by
  rw [fin m ρ c 9 main_v38 (W := W9 m ρ c), ← W30_main_arg10 m ρ c, KTrack.rest m ρ c 8 main_arg10 (W := W8 m ρ c)]
  exact KHost.h3_be (W8 m ρ c)

theorem b12 :
    KF m ρ c (Proc.devRef .tc main_v39) = KStage.rowK (m ((c : Thread nD τ).loc main_arg12)) := by
  rw [fin m ρ c 9 main_v39 (W := W9 m ρ c), ← W30_main_arg12 m ρ c, KTrack.rest m ρ c 8 main_arg12 (W := W8 m ρ c)]
  exact KHost.h3_b2 (W8 m ρ c)

theorem h1 :
    KF m ρ c (Proc.devRef .tc main_v40_0) = Stage.reluN (Stage.lin (Stage.reluN (Stage.bnApply (KF m ρ c (Proc.devRef .tc main_v25_0)) (KF m ρ c (Proc.devRef .tc main_v29)) (Stage.invStdRow (KF m ρ c (Proc.devRef .tc main_v36))) (KF m ρ c (Proc.devRef .tc main_v37)) (KF m ρ c (Proc.devRef .tc main_v38)))) (KF m ρ c (Proc.devRef .tc main_v23)) (KF m ρ c (Proc.devRef .tc main_v39))) := by
  rw [fin m ρ c 10 main_v40_0 (W := W10 m ρ c), fin m ρ c 9 main_v25_0 (W := W9 m ρ c), fin m ρ c 9 main_v29 (W := W9 m ρ c),
    fin m ρ c 9 main_v36 (W := W9 m ρ c), fin m ρ c 9 main_v37 (W := W9 m ρ c), fin m ρ c 9 main_v38 (W := W9 m ρ c),
    fin m ρ c 9 main_v23 (W := W9 m ρ c), fin m ρ c 9 main_v39 (W := W9 m ρ c)]
  exact (W10_arr m ρ c 7).trans (KVal.bnlin3_h (V9 m ρ) c)

theorem hps1 :
    KF m ρ c (Proc.devRef .tc main_v40_1) = Stage.tileSums (Stage.reluN (Stage.lin (Stage.reluN (Stage.bnApply (KF m ρ c (Proc.devRef .tc main_v25_0)) (KF m ρ c (Proc.devRef .tc main_v29)) (Stage.invStdRow (KF m ρ c (Proc.devRef .tc main_v36))) (KF m ρ c (Proc.devRef .tc main_v37)) (KF m ρ c (Proc.devRef .tc main_v38)))) (KF m ρ c (Proc.devRef .tc main_v23)) (KF m ρ c (Proc.devRef .tc main_v39)))) := by
  rw [fin m ρ c 10 main_v40_1 (W := W10 m ρ c), fin m ρ c 9 main_v25_0 (W := W9 m ρ c), fin m ρ c 9 main_v29 (W := W9 m ρ c),
    fin m ρ c 9 main_v36 (W := W9 m ρ c), fin m ρ c 9 main_v37 (W := W9 m ρ c), fin m ρ c 9 main_v38 (W := W9 m ρ c),
    fin m ρ c 9 main_v23 (W := W9 m ρ c), fin m ρ c 9 main_v39 (W := W9 m ρ c)]
  exact (W10_arr m ρ c 8).trans (KVal.bnlin3_ps (V9 m ρ) c)

theorem mean1b :
    KF m ρ c (Proc.devRef .tc main_v44) = KStage.kMeanRow (KF m ρ c (Proc.devRef .tc main_v40_1)) := by
  rw [fin m ρ c 11 main_v44 (W := W11 m ρ c), fin m ρ c 10 main_v40_1 (W := W10 m ρ c)]
  exact KHost.h4_mean (W10 m ρ c)

theorem pq1b :
    KF m ρ c (Proc.devRef .tc main_v45) = Stage.tileSums (Stage.sqDev (KF m ρ c (Proc.devRef .tc main_v40_0)) (KF m ρ c (Proc.devRef .tc main_v44))) := by
  rw [fin m ρ c 12 main_v45 (W := W12 m ρ c), fin m ρ c 11 main_v40_0 (W := W11 m ρ c), fin m ρ c 11 main_v44 (W := W11 m ρ c)]
  exact (W12_arr m ρ c 2).trans (KVal.var4 (V11 m ρ) c)

theorem var1b :
    KF m ρ c (Proc.devRef .tc main_v51) = KStage.kVarRow (KF m ρ c (Proc.devRef .tc main_v45)) := by
  rw [fin m ρ c 13 main_v51 (W := W13 m ρ c), fin m ρ c 12 main_v45 (W := W12 m ρ c)]
  exact KHost.h5_var (W12 m ρ c)

theorem g12 :
    KF m ρ c (Proc.devRef .tc main_v52) = KStage.rowK (m ((c : Thread nD τ).loc main_arg13)) := by
  rw [fin m ρ c 13 main_v52 (W := W13 m ρ c), ← W30_main_arg13 m ρ c, KTrack.rest m ρ c 12 main_arg13 (W := W12 m ρ c)]
  exact KHost.h5_g (W12 m ρ c)

theorem be12 :
    KF m ρ c (Proc.devRef .tc main_v53) = KStage.rowK (m ((c : Thread nD τ).loc main_arg14)) := by
  rw [fin m ρ c 13 main_v53 (W := W13 m ρ c), ← W30_main_arg14 m ρ c, KTrack.rest m ρ c 12 main_arg14 (W := W12 m ρ c)]
  exact KHost.h5_be (W12 m ρ c)

theorem x1 :
    KF m ρ c (Proc.devRef .tc main_v54) = Stage.bnApply (KF m ρ c (Proc.devRef .tc main_v40_0)) (KF m ρ c (Proc.devRef .tc main_v44)) (Stage.invStdRow (KF m ρ c (Proc.devRef .tc main_v51))) (KF m ρ c (Proc.devRef .tc main_v52)) (KF m ρ c (Proc.devRef .tc main_v53)) := by
  rw [fin m ρ c 14 main_v54 (W := W14 m ρ c), fin m ρ c 13 main_v40_0 (W := W13 m ρ c), fin m ρ c 13 main_v44 (W := W13 m ρ c),
    fin m ρ c 13 main_v51 (W := W13 m ρ c), fin m ρ c 13 main_v52 (W := W13 m ρ c), fin m ρ c 13 main_v53 (W := W13 m ρ c)]
  exact (W14_arr m ρ c 5).trans (KVal.bnfin5 (V13 m ρ) c)

end Cert.KFin

end
-- ==== Proof.KFinB.lean ====
import proofs.«404850_j82815559401961_3_alg».proof.Proof.KFin

noncomputable section

namespace Cert.KFin

open Idealize.ShloMosaic Idealize.ShloMosaic.TcCoe Idealize.SL.Sem Idealize.ShloMosaic.StableHlo Cert.KernelIdeal Cert.KernelIdeal.Gen

variable [hR : Cert.ReferenceIdeal.Facts]
variable (m : (ℓ : Loc nD τ sig) → Buf (Elt Ideal) ℓ) (ρ : Dev nD → PrngReg) (c : Dev nD)

theorem lwT2 :
    KF m ρ c (Proc.devRef .tc main_v55) = KStage.tr16 (m ((c : Thread nD τ).loc main_arg15)) := by
  rw [fin m ρ c 15 main_v55 (W := W15 m ρ c), ← W30_main_arg15 m ρ c, KTrack.rest m ρ c 14 main_arg15 (W := W14 m ρ c)]
  exact KHost.h6_lwT (W14 m ρ c)

theorem lb2 :
    KF m ρ c (Proc.devRef .tc main_v56) = KStage.rowK (m ((c : Thread nD τ).loc main_arg16)) := by
  rw [fin m ρ c 15 main_v56 (W := W15 m ρ c), ← W30_main_arg16 m ρ c, KTrack.rest m ρ c 14 main_arg16 (W := W14 m ρ c)]
  exact KHost.h6_lb (W14 m ρ c)

theorem e2 :
    KF m ρ c (Proc.devRef .tc main_v57) = Stage.edgeLin (m ((c : Thread nD τ).loc main_arg2)) (KF m ρ c (Proc.devRef .tc main_v55)) (KF m ρ c (Proc.devRef .tc main_v56)) := by
  rw [fin m ρ c 16 main_v57 (W := W16 m ρ c), ← W30_main_arg2 m ρ c, KTrack.rest m ρ c 15 main_arg2 (W := W15 m ρ c),
    fin m ρ c 15 main_v55 (W := W15 m ρ c), fin m ρ c 15 main_v56 (W := W15 m ρ c)]
  exact (W16_arr m ρ c 3).trans (KVal.edgeLin6 (V15 m ρ) c)

theorem agg2 :
    KF m ρ c (Proc.devRef .tc main_v69) = Stage.aggregate (KF m ρ c (Proc.devRef .tc main_v54)) (KF m ρ c (Proc.devRef .tc main_v1)) (KF m ρ c (Proc.devRef .tc main_v3)) (KF m ρ c (Proc.devRef .tc main_v57)) := by
  rw [fin m ρ c 19 main_v69 (W := W19 m ρ c), fin m ρ c 16 main_v54 (W := W16 m ρ c), fin m ρ c 16 main_v1 (W := W16 m ρ c),
    fin m ρ c 16 main_v3 (W := W16 m ρ c), fin m ρ c 16 main_v57 (W := W16 m ρ c)]
  exact KHost.h7_agg (W16 m ρ c)

theorem sx2 :
    KF m ρ c (Proc.devRef .tc main_v72) = Stage.scaled (m ((c : Thread nD τ).loc main_arg17)) (KF m ρ c (Proc.devRef .tc main_v54)) := by
  rw [fin m ρ c 19 main_v72 (W := W19 m ρ c), ← W30_main_arg17 m ρ c, KTrack.rest m ρ c 16 main_arg17 (W := W16 m ρ c),
    fin m ρ c 16 main_v54 (W := W16 m ρ c)]
  exact KHost.h7_sx (W16 m ρ c)

theorem W1T2 :
    KF m ρ c (Proc.devRef .tc main_v73) = KStage.tr128 (m ((c : Thread nD τ).loc main_arg18)) := by
  rw [fin m ρ c 19 main_v73 (W := W19 m ρ c), ← W30_main_arg18 m ρ c, KTrack.rest m ρ c 16 main_arg18 (W := W16 m ρ c)]
  exact KHost.h7_W1T (W16 m ρ c)

theorem W2T2 :
    KF m ρ c (Proc.devRef .tc main_v74) = KStage.tr128 (m ((c : Thread nD τ).loc main_arg22)) := by
  rw [fin m ρ c 19 main_v74 (W := W19 m ρ c), ← W30_main_arg22 m ρ c, KTrack.rest m ρ c 16 main_arg22 (W := W16 m ρ c)]
  exact KHost.h7_W2T (W16 m ρ c)

theorem b21 :
    KF m ρ c (Proc.devRef .tc main_v75) = KStage.rowK (m ((c : Thread nD τ).loc main_arg19)) := by
  rw [fin m ρ c 19 main_v75 (W := W19 m ρ c), ← W30_main_arg19 m ρ c, KTrack.rest m ρ c 16 main_arg19 (W := W16 m ρ c)]
  exact KHost.h7_b1 (W16 m ρ c)

theorem z2 :
    KF m ρ c (Proc.devRef .tc main_v76_0) = Stage.linSum (KF m ρ c (Proc.devRef .tc main_v69)) (KF m ρ c (Proc.devRef .tc main_v72)) (KF m ρ c (Proc.devRef .tc main_v73)) (KF m ρ c (Proc.devRef .tc main_v75)) := by
  rw [fin m ρ c 20 main_v76_0 (W := W20 m ρ c), fin m ρ c 19 main_v69 (W := W19 m ρ c), fin m ρ c 19 main_v72 (W := W19 m ρ c),
    fin m ρ c 19 main_v73 (W := W19 m ρ c), fin m ρ c 19 main_v75 (W := W19 m ρ c)]
  exact (W20_arr m ρ c 4).trans (KVal.lin7_z (V19 m ρ) c)

theorem ps2 :
    KF m ρ c (Proc.devRef .tc main_v76_1) = Stage.tileSums (Stage.linSum (KF m ρ c (Proc.devRef .tc main_v69)) (KF m ρ c (Proc.devRef .tc main_v72)) (KF m ρ c (Proc.devRef .tc main_v73)) (KF m ρ c (Proc.devRef .tc main_v75))) := by
  rw [fin m ρ c 20 main_v76_1 (W := W20 m ρ c), fin m ρ c 19 main_v69 (W := W19 m ρ c), fin m ρ c 19 main_v72 (W := W19 m ρ c),
    fin m ρ c 19 main_v73 (W := W19 m ρ c), fin m ρ c 19 main_v75 (W := W19 m ρ c)]
  exact (W20_arr m ρ c 5).trans (KVal.lin7_ps (V19 m ρ) c)

theorem mean2 :
    KF m ρ c (Proc.devRef .tc main_v80) = KStage.kMeanRow (KF m ρ c (Proc.devRef .tc main_v76_1)) := by
  rw [fin m ρ c 21 main_v80 (W := W21 m ρ c), fin m ρ c 20 main_v76_1 (W := W20 m ρ c)]
  exact KHost.h8_mean (W20 m ρ c)

theorem pq2 :
    KF m ρ c (Proc.devRef .tc main_v81) = Stage.tileSums (Stage.sqDev (KF m ρ c (Proc.devRef .tc main_v76_0)) (KF m ρ c (Proc.devRef .tc main_v80))) := by
  rw [fin m ρ c 22 main_v81 (W := W22 m ρ c), fin m ρ c 21 main_v76_0 (W := W21 m ρ c), fin m ρ c 21 main_v80 (W := W21 m ρ c)]
  exact (W22_arr m ρ c 2).trans (KVal.var8 (V21 m ρ) c)

theorem var2 :
    KF m ρ c (Proc.devRef .tc main_v87) = KStage.kVarRow (KF m ρ c (Proc.devRef .tc main_v81)) := by
  rw [fin m ρ c 23 main_v87 (W := W23 m ρ c), fin m ρ c 22 main_v81 (W := W22 m ρ c)]
  exact KHost.h9_var (W22 m ρ c)

theorem g21 :
    KF m ρ c (Proc.devRef .tc main_v88) = KStage.rowK (m ((c : Thread nD τ).loc main_arg20)) := by
  rw [fin m ρ c 23 main_v88 (W := W23 m ρ c), ← W30_main_arg20 m ρ c, KTrack.rest m ρ c 22 main_arg20 (W := W22 m ρ c)]
  exact KHost.h9_g (W22 m ρ c)

theorem be21 :
    KF m ρ c (Proc.devRef .tc main_v89) = KStage.rowK (m ((c : Thread nD τ).loc main_arg21)) := by
  rw [fin m ρ c 23 main_v89 (W := W23 m ρ c), ← W30_main_arg21 m ρ c, KTrack.rest m ρ c 22 main_arg21 (W := W22 m ρ c)]
  exact KHost.h9_be (W22 m ρ c)

theorem b22 :
    KF m ρ c (Proc.devRef .tc main_v90) = KStage.rowK (m ((c : Thread nD τ).loc main_arg23)) := by
  rw [fin m ρ c 23 main_v90 (W := W23 m ρ c), ← W30_main_arg23 m ρ c, KTrack.rest m ρ c 22 main_arg23 (W := W22 m ρ c)]
  exact KHost.h9_b2 (W22 m ρ c)

theorem h2 :
    KF m ρ c (Proc.devRef .tc main_v91_0) = Stage.reluN (Stage.lin (Stage.reluN (Stage.bnApply (KF m ρ c (Proc.devRef .tc main_v76_0)) (KF m ρ c (Proc.devRef .tc main_v80)) (Stage.invStdRow (KF m ρ c (Proc.devRef .tc main_v87))) (KF m ρ c (Proc.devRef .tc main_v88)) (KF m ρ c (Proc.devRef .tc main_v89)))) (KF m ρ c (Proc.devRef .tc main_v74)) (KF m ρ c (Proc.devRef .tc main_v90))) := by
  rw [fin m ρ c 24 main_v91_0 (W := W24 m ρ c), fin m ρ c 23 main_v76_0 (W := W23 m ρ c),
    fin m ρ c 23 main_v80 (W := W23 m ρ c), fin m ρ c 23 main_v87 (W := W23 m ρ c), fin m ρ c 23 main_v88 (W := W23 m ρ c),
    fin m ρ c 23 main_v89 (W := W23 m ρ c), fin m ρ c 23 main_v74 (W := W23 m ρ c), fin m ρ c 23 main_v90 (W := W23 m ρ c)]
  exact (W24_arr m ρ c 7).trans (KVal.bnlin9_h (V23 m ρ) c)

theorem hps2 :
    KF m ρ c (Proc.devRef .tc main_v91_1) = Stage.tileSums (Stage.reluN (Stage.lin (Stage.reluN (Stage.bnApply (KF m ρ c (Proc.devRef .tc main_v76_0)) (KF m ρ c (Proc.devRef .tc main_v80)) (Stage.invStdRow (KF m ρ c (Proc.devRef .tc main_v87))) (KF m ρ c (Proc.devRef .tc main_v88)) (KF m ρ c (Proc.devRef .tc main_v89)))) (KF m ρ c (Proc.devRef .tc main_v74)) (KF m ρ c (Proc.devRef .tc main_v90)))) := by
  rw [fin m ρ c 24 main_v91_1 (W := W24 m ρ c), fin m ρ c 23 main_v76_0 (W := W23 m ρ c),
    fin m ρ c 23 main_v80 (W := W23 m ρ c), fin m ρ c 23 main_v87 (W := W23 m ρ c), fin m ρ c 23 main_v88 (W := W23 m ρ c),
    fin m ρ c 23 main_v89 (W := W23 m ρ c), fin m ρ c 23 main_v74 (W := W23 m ρ c), fin m ρ c 23 main_v90 (W := W23 m ρ c)]
  exact (W24_arr m ρ c 8).trans (KVal.bnlin9_ps (V23 m ρ) c)

theorem mean2b :
    KF m ρ c (Proc.devRef .tc main_v95) = KStage.kMeanRow (KF m ρ c (Proc.devRef .tc main_v91_1)) := by
  rw [fin m ρ c 25 main_v95 (W := W25 m ρ c), fin m ρ c 24 main_v91_1 (W := W24 m ρ c)]
  exact KHost.h10_mean (W24 m ρ c)

theorem pq2b :
    KF m ρ c (Proc.devRef .tc main_v96) = Stage.tileSums (Stage.sqDev (KF m ρ c (Proc.devRef .tc main_v91_0)) (KF m ρ c (Proc.devRef .tc main_v95))) := by
  rw [fin m ρ c 26 main_v96 (W := W26 m ρ c), fin m ρ c 25 main_v91_0 (W := W25 m ρ c), fin m ρ c 25 main_v95 (W := W25 m ρ c)]
  exact (W26_arr m ρ c 2).trans (KVal.var10 (V25 m ρ) c)

theorem var2b :
    KF m ρ c (Proc.devRef .tc main_v102) = KStage.kVarRow (KF m ρ c (Proc.devRef .tc main_v96)) := by
  rw [fin m ρ c 27 main_v102 (W := W27 m ρ c), fin m ρ c 26 main_v96 (W := W26 m ρ c)]
  exact KHost.h11_var (W26 m ρ c)

theorem g22 :
    KF m ρ c (Proc.devRef .tc main_v103) = KStage.rowK (m ((c : Thread nD τ).loc main_arg24)) := by
  rw [fin m ρ c 27 main_v103 (W := W27 m ρ c), ← W30_main_arg24 m ρ c, KTrack.rest m ρ c 26 main_arg24 (W := W26 m ρ c)]
  exact KHost.h11_g (W26 m ρ c)

theorem be22 :
    KF m ρ c (Proc.devRef .tc main_v104) = KStage.rowK (m ((c : Thread nD τ).loc main_arg25)) := by
  rw [fin m ρ c 27 main_v104 (W := W27 m ρ c), ← W30_main_arg25 m ρ c, KTrack.rest m ρ c 26 main_arg25 (W := W26 m ρ c)]
  exact KHost.h11_be (W26 m ρ c)

theorem x2 :
    KF m ρ c (Proc.devRef .tc main_v105) = Stage.bnApply (KF m ρ c (Proc.devRef .tc main_v91_0)) (KF m ρ c (Proc.devRef .tc main_v95)) (Stage.invStdRow (KF m ρ c (Proc.devRef .tc main_v102))) (KF m ρ c (Proc.devRef .tc main_v103)) (KF m ρ c (Proc.devRef .tc main_v104)) := by
  rw [fin m ρ c 28 main_v105 (W := W28 m ρ c), fin m ρ c 27 main_v91_0 (W := W27 m ρ c),
    fin m ρ c 27 main_v95 (W := W27 m ρ c), fin m ρ c 27 main_v102 (W := W27 m ρ c), fin m ρ c 27 main_v103 (W := W27 m ρ c),
    fin m ρ c 27 main_v104 (W := W27 m ρ c)]
  exact (W28_arr m ρ c 5).trans (KVal.bnfin11 (V27 m ρ) c)

theorem pooled :
    KF m ρ c (Proc.devRef .tc main_v112) = Stage.cat (Stage.pool (m ((c : Thread nD τ).loc main_arg3)) (KF m ρ c (Proc.devRef .tc main_v54))) (Stage.pool (m ((c : Thread nD τ).loc main_arg3)) (KF m ρ c (Proc.devRef .tc main_v105))) := by
  rw [fin m ρ c 29 main_v112 (W := W29 m ρ c), ← W30_main_arg3 m ρ c, KTrack.rest m ρ c 28 main_arg3 (W := W28 m ρ c),
    fin m ρ c 28 main_v54 (W := W28 m ρ c), fin m ρ c 28 main_v105 (W := W28 m ρ c)]
  exact KHost.h12_pooled (W28 m ρ c)

theorem hW1T :
    KF m ρ c (Proc.devRef .tc main_v113) = KStage.tr256 (m ((c : Thread nD τ).loc main_arg26)) := by
  rw [fin m ρ c 29 main_v113 (W := W29 m ρ c), ← W30_main_arg26 m ρ c, KTrack.rest m ρ c 28 main_arg26 (W := W28 m ρ c)]
  exact KHost.h12_W1T (W28 m ρ c)

theorem hW2T :
    KF m ρ c (Proc.devRef .tc main_v114) = KStage.tr256x1 (m ((c : Thread nD τ).loc main_arg28)) := by
  rw [fin m ρ c 29 main_v114 (W := W29 m ρ c), ← W30_main_arg28 m ρ c, KTrack.rest m ρ c 28 main_arg28 (W := W28 m ρ c)]
  exact KHost.h12_W2T (W28 m ρ c)

theorem hb1 :
    KF m ρ c (Proc.devRef .tc main_v115) = KStage.rowK256 (m ((c : Thread nD τ).loc main_arg27)) := by
  rw [fin m ρ c 29 main_v115 (W := W29 m ρ c), ← W30_main_arg27 m ρ c, KTrack.rest m ρ c 28 main_arg27 (W := W28 m ρ c)]
  exact KHost.h12_b1 (W28 m ρ c)

theorem hb2 :
    KF m ρ c (Proc.devRef .tc main_v116) = KStage.rowK1 (m ((c : Thread nD τ).loc main_arg29)) := by
  rw [fin m ρ c 29 main_v116 (W := W29 m ρ c), ← W30_main_arg29 m ρ c, KTrack.rest m ρ c 28 main_arg29 (W := W28 m ρ c)]
  exact KHost.h12_b2 (W28 m ρ c)

theorem out :
    KF m ρ c (Proc.devRef .tc main_v117) = Stage.head (KF m ρ c (Proc.devRef .tc main_v112)) (KF m ρ c (Proc.devRef .tc main_v113)) (KF m ρ c (Proc.devRef .tc main_v115)) (KF m ρ c (Proc.devRef .tc main_v114)) (KF m ρ c (Proc.devRef .tc main_v116)) := by
  rw [fin m ρ c 29 main_v112 (W := W29 m ρ c),
    fin m ρ c 29 main_v113 (W := W29 m ρ c), fin m ρ c 29 main_v115 (W := W29 m ρ c), fin m ρ c 29 main_v114 (W := W29 m ρ c),
    fin m ρ c 29 main_v116 (W := W29 m ρ c)]
  exact (W30_arr m ρ c 5).trans (KVal.head12 (V29 m ρ) c)

end Cert.KFin

end
-- ==== Proof.RefVal.lean ====
import proofs.«404850_j82815559401961_3_alg».proof.Proof.RefSegs
import proofs.«404850_j82815559401961_3_alg».proof.Proof.Stage
import Idealize.ShloMosaic.Lib.StableHlo.Run

noncomputable section

namespace Cert.RVal

open Idealize.ShloMosaic Idealize.ShloMosaic.TcCoe Idealize.SL.Sem Idealize.ShloMosaic.StableHlo Cert.ReferenceIdeal Cert.ReferenceIdeal.Facts₀ Cert.ReferenceIdeal.Facts

variable [hR : Cert.ReferenceIdeal.Facts]
variable (W : Valuation τ sig (Elt Ideal))

theorem s0_src :
    after (Cert.RSeg.s0 (F := Ideal)) W (Proc.devRef .tc main_v1) = Stage.srcOf (W (Proc.devRef .tc main_arg1)) := by
  after_results
  rfl

theorem s0_dst :
    after (Cert.RSeg.s0 (F := Ideal)) W (Proc.devRef .tc main_v3) = Stage.dstOf (W (Proc.devRef .tc main_arg1)) := by
  after_results
  rfl

theorem s0_e :
    after (Cert.RSeg.s0 (F := Ideal)) W (Proc.devRef .tc main_v8) = Stage.edgeLin (W (Proc.devRef .tc main_arg2)) (Stage.tr16 (W (Proc.devRef .tc main_arg4))) (Stage.row (W (Proc.devRef .tc main_arg5))) := by
  after_results
  rfl

theorem s1_agg :
    after (Cert.RSeg.s1 (F := Ideal)) W (Proc.devRef .tc main_v20) = Stage.aggregate (W (Proc.devRef .tc main_arg0)) (W (Proc.devRef .tc main_v1)) (W (Proc.devRef .tc main_v3)) (W (Proc.devRef .tc main_v8)) := by
  after_results_simp
  rfl

theorem s2_z :
    after (Cert.RSeg.s2 (F := Ideal)) W (Proc.devRef .tc main_v29) = Stage.linSum (W (Proc.devRef .tc main_v20)) (Stage.scaled (W (Proc.devRef .tc main_arg6)) (W (Proc.devRef .tc main_arg0))) (Stage.tr128 (W (Proc.devRef .tc main_arg7))) (Stage.row (W (Proc.devRef .tc main_arg8))) := by
  after_results
  rfl

theorem s3_mean :
    after (Cert.RSeg.s3 (F := Ideal)) W (Proc.devRef .tc main_v32) = Stage.meanVec (W (Proc.devRef .tc main_v29)) := by
  after_results
  rfl

theorem s3_var :
    after (Cert.RSeg.s3 (F := Ideal)) W (Proc.devRef .tc main_v33) = Stage.varVec (W (Proc.devRef .tc main_v29)) := by
  after_results_simp
  rfl

theorem s4_h :
    after (Cert.RSeg.s4b (F := Ideal)) (after (Cert.RSeg.s4a (F := Ideal)) W) (Proc.devRef .tc main_v55) = Stage.reluN (Stage.lin (Stage.reluN (Stage.bnApply (W (Proc.devRef .tc main_v29)) (Stage.row (W (Proc.devRef .tc main_v32))) (Stage.row (Stage.invStdVec (W (Proc.devRef .tc main_v33)))) (Stage.row (W (Proc.devRef .tc main_arg9))) (Stage.row (W (Proc.devRef .tc main_arg10))))) (Stage.tr128 (W (Proc.devRef .tc main_arg11))) (Stage.row (W (Proc.devRef .tc main_arg12)))) := by
  after_results_simp
  rfl

theorem s5_mean :
    after (Cert.RSeg.s5 (F := Ideal)) W (Proc.devRef .tc main_v58) = Stage.meanVec (W (Proc.devRef .tc main_v55)) := by
  after_results
  rfl

theorem s5_var :
    after (Cert.RSeg.s5 (F := Ideal)) W (Proc.devRef .tc main_v59) = Stage.varVec (W (Proc.devRef .tc main_v55)) := by
  after_results_simp
  rfl

theorem s6_x :
    after (Cert.RSeg.s6 (F := Ideal)) W (Proc.devRef .tc main_v74) = Stage.bnApply (W (Proc.devRef .tc main_v55)) (Stage.row (W (Proc.devRef .tc main_v58))) (Stage.row (Stage.invStdVec (W (Proc.devRef .tc main_v59)))) (Stage.row (W (Proc.devRef .tc main_arg13))) (Stage.row (W (Proc.devRef .tc main_arg14))) := by
  after_results
  rfl

theorem s7_e :
    after (Cert.RSeg.s7 (F := Ideal)) W (Proc.devRef .tc main_v79) = Stage.edgeLin (W (Proc.devRef .tc main_arg2)) (Stage.tr16 (W (Proc.devRef .tc main_arg15))) (Stage.row (W (Proc.devRef .tc main_arg16))) := by
  after_results
  rfl

theorem s8_agg :
    after (Cert.RSeg.s8 (F := Ideal)) W (Proc.devRef .tc main_v91) = Stage.aggregate (W (Proc.devRef .tc main_v74)) (W (Proc.devRef .tc main_v1)) (W (Proc.devRef .tc main_v3)) (W (Proc.devRef .tc main_v79)) := by
  after_results_simp
  rfl

theorem s9_z :
    after (Cert.RSeg.s9 (F := Ideal)) W (Proc.devRef .tc main_v100) = Stage.linSum (W (Proc.devRef .tc main_v91)) (Stage.scaled (W (Proc.devRef .tc main_arg17)) (W (Proc.devRef .tc main_v74))) (Stage.tr128 (W (Proc.devRef .tc main_arg18))) (Stage.row (W (Proc.devRef .tc main_arg19))) := by
  after_results
  rfl

theorem s10_mean :
    after (Cert.RSeg.s10b (F := Ideal)) (after (Cert.RSeg.s10a (F := Ideal)) W) (Proc.devRef .tc main_v103) = Stage.meanVec (W (Proc.devRef .tc main_v100)) := by
  after_results
  rfl

theorem s10_var :
    after (Cert.RSeg.s10b (F := Ideal)) (after (Cert.RSeg.s10a (F := Ideal)) W) (Proc.devRef .tc main_v104) = Stage.varVec (W (Proc.devRef .tc main_v100)) := by
  after_results_simp
  rfl

theorem s11_h :
    after (Cert.RSeg.s11 (F := Ideal)) W (Proc.devRef .tc main_v126) = Stage.reluN (Stage.lin (Stage.reluN (Stage.bnApply (W (Proc.devRef .tc main_v100)) (Stage.row (W (Proc.devRef .tc main_v103))) (Stage.row (Stage.invStdVec (W (Proc.devRef .tc main_v104)))) (Stage.row (W (Proc.devRef .tc main_arg20))) (Stage.row (W (Proc.devRef .tc main_arg21))))) (Stage.tr128 (W (Proc.devRef .tc main_arg22))) (Stage.row (W (Proc.devRef .tc main_arg23)))) := by
  after_results_simp
  rfl

theorem s12_mean :
    after (Cert.RSeg.s12 (F := Ideal)) W (Proc.devRef .tc main_v129) = Stage.meanVec (W (Proc.devRef .tc main_v126)) := by
  after_results
  rfl

theorem s12_var :
    after (Cert.RSeg.s12 (F := Ideal)) W (Proc.devRef .tc main_v130) = Stage.varVec (W (Proc.devRef .tc main_v126)) := by
  after_results_simp
  rfl

theorem s13_x :
    after (Cert.RSeg.s13 (F := Ideal)) W (Proc.devRef .tc main_v145) = Stage.bnApply (W (Proc.devRef .tc main_v126)) (Stage.row (W (Proc.devRef .tc main_v129))) (Stage.row (Stage.invStdVec (W (Proc.devRef .tc main_v130)))) (Stage.row (W (Proc.devRef .tc main_arg24))) (Stage.row (W (Proc.devRef .tc main_arg25))) := by
  after_results
  rfl

theorem s14_pooled :
    after (Cert.RSeg.s14 (F := Ideal)) W (Proc.devRef .tc main_v152) = Stage.cat (Stage.pool (W (Proc.devRef .tc main_arg3)) (W (Proc.devRef .tc main_v74))) (Stage.pool (W (Proc.devRef .tc main_arg3)) (W (Proc.devRef .tc main_v145))) := by
  after_results
  rfl

theorem s15_out :
    after (Cert.RSeg.s15b (F := Ideal)) (after (Cert.RSeg.s15a (F := Ideal)) W) (Proc.devRef .tc main_v169) = Stage.head (W (Proc.devRef .tc main_v152)) (Stage.tr256 (W (Proc.devRef .tc main_arg26))) (Stage.row256 (W (Proc.devRef .tc main_arg27))) (Stage.tr256x1 (W (Proc.devRef .tc main_arg28))) (Stage.row1 (W (Proc.devRef .tc main_arg29))) := by
  after_results
  rfl

end Cert.RVal

end
-- ==== Proof.RefTrack.lean ====
import proofs.«404850_j82815559401961_3_alg».proof.Proof.RefRun
import proofs.«404850_j82815559401961_3_alg».proof.Proof.LibChain
import Idealize.ShloMosaic.Lib.Pipeline.Frame

noncomputable section

namespace Cert.RTrack

open Idealize.ShloMosaic Idealize.ShloMosaic.TcCoe Idealize.SL.Sem Idealize.ShloMosaic.StableHlo Cert.ReferenceIdeal Cert.ReferenceIdeal.Facts₀ Cert.ReferenceIdeal.Facts Cert.RSeg Cert.RRun

variable {F : FTy → Type} [FloatOps F] [hR : Cert.ReferenceIdeal.Facts]

theorem writes : List.Forall₂ WritesList (segs (F := F)) outs := by
  repeat' first | rfl | constructor

/-- The contents after the first k lines of the reference, from contents V. -/
def A (V : Valuation τ sig (Elt F)) (k : ℕ) : Valuation τ sig (Elt F) := ((V :: bounds segs V)[k]?).getD V

theorem fin_eq (V : Valuation τ sig (Elt F)) : after (refOps (F := F)) V = A V 19 := by
  simp only [refOps, p0, p1, p2, after_append]
  rfl

/-- Every buffer is written by one operation only: between two boundaries a buffer changes only if a line between them writes it. -/
theorem agree (V : Valuation τ sig (Elt F)) (i j : ℕ) (b : Ref sig .tc)
    (hb : b ∉ ((outs.take j).drop i).flatten := by decide) (hij : i ≤ j := by decide)
    (hi : (V :: bounds segs V)[i]? = some (A V i) := by rfl) (hj : (V :: bounds segs V)[j]? = some (A V j) := by rfl) :
    A V j (Proc.devRef .tc b) = A V i (Proc.devRef .tc b) :=
  (chain_bounds writes V).stable i j hi hj hij b hb

theorem reach (V : Valuation τ sig (Elt F)) (k : ℕ) (b : Ref sig .tc)
    (hb : b ∉ ((outs.take 19).drop k).flatten := by decide) (hk : k ≤ 19 := by decide)
    (hi : (V :: bounds segs V)[k]? = some (A V k) := by rfl) :
    after (refOps (F := F)) V (Proc.devRef .tc b) = A V k (Proc.devRef .tc b) :=
  (congrFun (fin_eq V) _).trans (agree V k 19 b hb hk hi rfl)

theorem keep (V : Valuation τ sig (Elt F)) (k : ℕ) (b : Ref sig .tc)
    (hb : b ∉ ((outs.take k).drop 0).flatten := by decide)
    (hk : (V :: bounds segs V)[k]? = some (A V k) := by rfl) :
    A V k (Proc.devRef .tc b) = V (Proc.devRef .tc b) :=
  agree V 0 k b hb (Nat.zero_le _) rfl hk

end Cert.RTrack

end
-- ==== Proof.RefFin.lean ====
import proofs.«404850_j82815559401961_3_alg».proof.Proof.RefVal
import proofs.«404850_j82815559401961_3_alg».proof.Proof.RefTrack
import proofs.«404850_j82815559401961_3_alg».proof.Proof.Stage

noncomputable section

namespace Cert.RFin

open Idealize.ShloMosaic Idealize.ShloMosaic.TcCoe Idealize.SL.Sem Idealize.ShloMosaic.StableHlo Cert.ReferenceIdeal Cert.ReferenceIdeal.Facts₀ Cert.ReferenceIdeal.Facts

variable [hR : Cert.ReferenceIdeal.Facts]

abbrev RF (V : Valuation τ sig (Elt Ideal)) : Valuation τ sig (Elt Ideal) := after (Cert.RRun.refOps (F := Ideal)) V

variable (V : Valuation τ sig (Elt Ideal))

theorem src :
    RF V (Proc.devRef .tc main_v1) = Stage.srcOf (V (Proc.devRef .tc main_arg1)) := by
  exact (RTrack.reach V 1 main_v1).trans (RVal.s0_src V)

theorem dst :
    RF V (Proc.devRef .tc main_v3) = Stage.dstOf (V (Proc.devRef .tc main_arg1)) := by
  exact (RTrack.reach V 1 main_v3).trans (RVal.s0_dst V)

theorem e1 :
    RF V (Proc.devRef .tc main_v8) = Stage.edgeLin (V (Proc.devRef .tc main_arg2)) (Stage.tr16 (V (Proc.devRef .tc main_arg4))) (Stage.row (V (Proc.devRef .tc main_arg5))) := by
  exact (RTrack.reach V 1 main_v8).trans (RVal.s0_e V)

theorem agg1 :
    RF V (Proc.devRef .tc main_v20) = Stage.aggregate (V (Proc.devRef .tc main_arg0)) (RF V (Proc.devRef .tc main_v1)) (RF V (Proc.devRef .tc main_v3)) (RF V (Proc.devRef .tc main_v8)) := by
  refine (RTrack.reach V 2 main_v20).trans ((RVal.s1_agg (RTrack.A V 1)).trans ?_)
  rw [RTrack.keep V 1 main_arg0,
    ← RTrack.reach V 1 main_v1,
    ← RTrack.reach V 1 main_v3,
    ← RTrack.reach V 1 main_v8]

theorem z1 :
    RF V (Proc.devRef .tc main_v29) = Stage.linSum (RF V (Proc.devRef .tc main_v20)) (Stage.scaled (V (Proc.devRef .tc main_arg6)) (V (Proc.devRef .tc main_arg0))) (Stage.tr128 (V (Proc.devRef .tc main_arg7))) (Stage.row (V (Proc.devRef .tc main_arg8))) := by
  refine (RTrack.reach V 3 main_v29).trans ((RVal.s2_z (RTrack.A V 2)).trans ?_)
  rw [← RTrack.reach V 2 main_v20,
    RTrack.keep V 2 main_arg6,
    RTrack.keep V 2 main_arg0,
    RTrack.keep V 2 main_arg7,
    RTrack.keep V 2 main_arg8]

theorem mean1 :
    RF V (Proc.devRef .tc main_v32) = Stage.meanVec (RF V (Proc.devRef .tc main_v29)) := by
  refine (RTrack.reach V 4 main_v32).trans ((RVal.s3_mean (RTrack.A V 3)).trans ?_)
  rw [← RTrack.reach V 3 main_v29]

theorem var1 :
    RF V (Proc.devRef .tc main_v33) = Stage.varVec (RF V (Proc.devRef .tc main_v29)) := by
  refine (RTrack.reach V 4 main_v33).trans ((RVal.s3_var (RTrack.A V 3)).trans ?_)
  rw [← RTrack.reach V 3 main_v29]

theorem h1 :
    RF V (Proc.devRef .tc main_v55) = Stage.reluN (Stage.lin (Stage.reluN (Stage.bnApply (RF V (Proc.devRef .tc main_v29)) (Stage.row (RF V (Proc.devRef .tc main_v32))) (Stage.row (Stage.invStdVec (RF V (Proc.devRef .tc main_v33)))) (Stage.row (V (Proc.devRef .tc main_arg9))) (Stage.row (V (Proc.devRef .tc main_arg10))))) (Stage.tr128 (V (Proc.devRef .tc main_arg11))) (Stage.row (V (Proc.devRef .tc main_arg12)))) := by
  refine (RTrack.reach V 6 main_v55).trans ((RVal.s4_h (RTrack.A V 4)).trans ?_)
  rw [← RTrack.reach V 4 main_v29,
    ← RTrack.reach V 4 main_v32,
    ← RTrack.reach V 4 main_v33,
    RTrack.keep V 4 main_arg9,
    RTrack.keep V 4 main_arg10,
    RTrack.keep V 4 main_arg11,
    RTrack.keep V 4 main_arg12]

theorem mean1b :
    RF V (Proc.devRef .tc main_v58) = Stage.meanVec (RF V (Proc.devRef .tc main_v55)) := by
  refine (RTrack.reach V 7 main_v58).trans ((RVal.s5_mean (RTrack.A V 6)).trans ?_)
  rw [← RTrack.reach V 6 main_v55]

theorem var1b :
    RF V (Proc.devRef .tc main_v59) = Stage.varVec (RF V (Proc.devRef .tc main_v55)) := by
  refine (RTrack.reach V 7 main_v59).trans ((RVal.s5_var (RTrack.A V 6)).trans ?_)
  rw [← RTrack.reach V 6 main_v55]

theorem x1 :
    RF V (Proc.devRef .tc main_v74) = Stage.bnApply (RF V (Proc.devRef .tc main_v55)) (Stage.row (RF V (Proc.devRef .tc main_v58))) (Stage.row (Stage.invStdVec (RF V (Proc.devRef .tc main_v59)))) (Stage.row (V (Proc.devRef .tc main_arg13))) (Stage.row (V (Proc.devRef .tc main_arg14))) := by
  refine (RTrack.reach V 8 main_v74).trans ((RVal.s6_x (RTrack.A V 7)).trans ?_)
  rw [← RTrack.reach V 7 main_v55,
    ← RTrack.reach V 7 main_v58,
    ← RTrack.reach V 7 main_v59,
    RTrack.keep V 7 main_arg13,
    RTrack.keep V 7 main_arg14]

theorem e2 :
    RF V (Proc.devRef .tc main_v79) = Stage.edgeLin (V (Proc.devRef .tc main_arg2)) (Stage.tr16 (V (Proc.devRef .tc main_arg15))) (Stage.row (V (Proc.devRef .tc main_arg16))) := by
  refine (RTrack.reach V 9 main_v79).trans ((RVal.s7_e (RTrack.A V 8)).trans ?_)
  rw [RTrack.keep V 8 main_arg2,
    RTrack.keep V 8 main_arg15,
    RTrack.keep V 8 main_arg16]

theorem agg2 :
    RF V (Proc.devRef .tc main_v91) = Stage.aggregate (RF V (Proc.devRef .tc main_v74)) (RF V (Proc.devRef .tc main_v1)) (RF V (Proc.devRef .tc main_v3)) (RF V (Proc.devRef .tc main_v79)) := by
  refine (RTrack.reach V 10 main_v91).trans ((RVal.s8_agg (RTrack.A V 9)).trans ?_)
  rw [← RTrack.reach V 9 main_v74,
    ← RTrack.reach V 9 main_v1,
    ← RTrack.reach V 9 main_v3,
    ← RTrack.reach V 9 main_v79]

theorem z2 :
    RF V (Proc.devRef .tc main_v100) = Stage.linSum (RF V (Proc.devRef .tc main_v91)) (Stage.scaled (V (Proc.devRef .tc main_arg17)) (RF V (Proc.devRef .tc main_v74))) (Stage.tr128 (V (Proc.devRef .tc main_arg18))) (Stage.row (V (Proc.devRef .tc main_arg19))) := by
  refine (RTrack.reach V 11 main_v100).trans ((RVal.s9_z (RTrack.A V 10)).trans ?_)
  rw [← RTrack.reach V 10 main_v91,
    RTrack.keep V 10 main_arg17,
    ← RTrack.reach V 10 main_v74,
    RTrack.keep V 10 main_arg18,
    RTrack.keep V 10 main_arg19]

theorem mean2 :
    RF V (Proc.devRef .tc main_v103) = Stage.meanVec (RF V (Proc.devRef .tc main_v100)) := by
  refine (RTrack.reach V 13 main_v103).trans ((RVal.s10_mean (RTrack.A V 11)).trans ?_)
  rw [← RTrack.reach V 11 main_v100]

theorem var2 :
    RF V (Proc.devRef .tc main_v104) = Stage.varVec (RF V (Proc.devRef .tc main_v100)) := by
  refine (RTrack.reach V 13 main_v104).trans ((RVal.s10_var (RTrack.A V 11)).trans ?_)
  rw [← RTrack.reach V 11 main_v100]

theorem h2 :
    RF V (Proc.devRef .tc main_v126) = Stage.reluN (Stage.lin (Stage.reluN (Stage.bnApply (RF V (Proc.devRef .tc main_v100)) (Stage.row (RF V (Proc.devRef .tc main_v103))) (Stage.row (Stage.invStdVec (RF V (Proc.devRef .tc main_v104)))) (Stage.row (V (Proc.devRef .tc main_arg20))) (Stage.row (V (Proc.devRef .tc main_arg21))))) (Stage.tr128 (V (Proc.devRef .tc main_arg22))) (Stage.row (V (Proc.devRef .tc main_arg23)))) := by
  refine (RTrack.reach V 14 main_v126).trans ((RVal.s11_h (RTrack.A V 13)).trans ?_)
  rw [← RTrack.reach V 13 main_v100,
    ← RTrack.reach V 13 main_v103,
    ← RTrack.reach V 13 main_v104,
    RTrack.keep V 13 main_arg20,
    RTrack.keep V 13 main_arg21,
    RTrack.keep V 13 main_arg22,
    RTrack.keep V 13 main_arg23]

theorem mean2b :
    RF V (Proc.devRef .tc main_v129) = Stage.meanVec (RF V (Proc.devRef .tc main_v126)) := by
  refine (RTrack.reach V 15 main_v129).trans ((RVal.s12_mean (RTrack.A V 14)).trans ?_)
  rw [← RTrack.reach V 14 main_v126]

theorem var2b :
    RF V (Proc.devRef .tc main_v130) = Stage.varVec (RF V (Proc.devRef .tc main_v126)) := by
  refine (RTrack.reach V 15 main_v130).trans ((RVal.s12_var (RTrack.A V 14)).trans ?_)
  rw [← RTrack.reach V 14 main_v126]

theorem x2 :
    RF V (Proc.devRef .tc main_v145) = Stage.bnApply (RF V (Proc.devRef .tc main_v126)) (Stage.row (RF V (Proc.devRef .tc main_v129))) (Stage.row (Stage.invStdVec (RF V (Proc.devRef .tc main_v130)))) (Stage.row (V (Proc.devRef .tc main_arg24))) (Stage.row (V (Proc.devRef .tc main_arg25))) := by
  refine (RTrack.reach V 16 main_v145).trans ((RVal.s13_x (RTrack.A V 15)).trans ?_)
  rw [← RTrack.reach V 15 main_v126,
    ← RTrack.reach V 15 main_v129,
    ← RTrack.reach V 15 main_v130,
    RTrack.keep V 15 main_arg24,
    RTrack.keep V 15 main_arg25]

theorem pooled :
    RF V (Proc.devRef .tc main_v152) = Stage.cat (Stage.pool (V (Proc.devRef .tc main_arg3)) (RF V (Proc.devRef .tc main_v74))) (Stage.pool (V (Proc.devRef .tc main_arg3)) (RF V (Proc.devRef .tc main_v145))) := by
  refine (RTrack.reach V 17 main_v152).trans ((RVal.s14_pooled (RTrack.A V 16)).trans ?_)
  rw [RTrack.keep V 16 main_arg3,
    ← RTrack.reach V 16 main_v74,
    ← RTrack.reach V 16 main_v145]

theorem out :
    RF V (Proc.devRef .tc main_v169) = Stage.head (RF V (Proc.devRef .tc main_v152)) (Stage.tr256 (V (Proc.devRef .tc main_arg26))) (Stage.row256 (V (Proc.devRef .tc main_arg27))) (Stage.tr256x1 (V (Proc.devRef .tc main_arg28))) (Stage.row1 (V (Proc.devRef .tc main_arg29))) := by
  refine (RTrack.reach V 19 main_v169).trans ((RVal.s15_out (RTrack.A V 17)).trans ?_)
  rw [← RTrack.reach V 17 main_v152,
    RTrack.keep V 17 main_arg26,
    RTrack.keep V 17 main_arg27,
    RTrack.keep V 17 main_arg28,
    RTrack.keep V 17 main_arg29]

/-- A buffer no operation writes ends as it began. -/
theorem arg (b : Ref sig .tc) (hb : b ∉ ((RSeg.outs.take 19).drop 0).flatten := by decide) :
    RF V (Proc.devRef .tc b) = V (Proc.devRef .tc b) :=
  (congrFun (RTrack.fin_eq V) _).trans (RTrack.keep V 19 b hb)

end Cert.RFin

end
-- ==== Proof.Laws.lean ====
import proofs.«404850_j82815559401961_3_alg».proof.Proof.Stage
import proofs.«404850_j82815559401961_3_alg».proof.Proof.KStage
import Idealize.ShloMosaic.Lib.ValueIdx
import Idealize.ShloMosaic.Lib.ValueLayout
import Idealize.ShloMosaic.Lib.Pipeline.Value
import Idealize.ShloMosaic.PureOps.Ideal.Laws
import Mathlib.Data.EReal.Operations
import Mathlib.Logic.Equiv.Fin.Basic

noncomputable section

namespace Cert.Laws

open Idealize.ShloMosaic Idealize.ShloMosaic.TcCoe Idealize.SL.Sem Idealize.ShloMosaic.ValueIdx
open scoped BigOperators

variable [hK : Cert.KernelIdeal.Facts] [hR : Cert.ReferenceIdeal.Facts]

private theorem cast_eq_bcast {n : ℕ} {α : Type} (v : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ v h = broadcastInDim ⟨2, ![1, n]⟩ (![1] : Fin 1 → Fin 2) h' v := by
  funext j
  obtain ⟨u, i, rfl⟩ : ∃ u i, j = ix2 u i := ⟨j 0, j 1, eq_ix2 j⟩
  rw [shapeCast_a_1a_apply]
  refine (broadcastInDim_apply (![1] : Fin 1 → Fin 2) h' v (ix2 u i) (ix1 i) fun a => ?_).symm
  match a with
  | ⟨0, _⟩ =>
    show i.val = if n = 1 then 0 else i.val
    split
    · have := i.isLt; omega
    · rfl

theorem rowK_eq (v : Vec Ideal Cert.ReferenceIdeal.S128 .f32) :
    KStage.rowK v = Stage.row v := cast_eq_bcast v _ _

theorem rowK256_eq (v : Vec Ideal Cert.ReferenceIdeal.S256 .f32) :
    KStage.rowK256 v = Stage.row256 v := cast_eq_bcast v _ _

theorem rowK1_eq (v : Vec Ideal Cert.ReferenceIdeal.S1 .f32) :
    KStage.rowK1 v = Stage.row1 v := cast_eq_bcast v _ _

theorem tr16_eq (w : Vec Ideal Cert.ReferenceIdeal.S128x16 .f32) :
    KStage.tr16 w = Stage.tr16 w := rfl

theorem tr128_eq (w : Vec Ideal Cert.ReferenceIdeal.S128x128 .f32) :
    KStage.tr128 w = Stage.tr128 w := rfl

theorem tr256_eq (w : Vec Ideal Cert.ReferenceIdeal.S256x256 .f32) :
    KStage.tr256 w = Stage.tr256 w := rfl

theorem tr256x1_eq (w : Vec Ideal Cert.ReferenceIdeal.S1x256 .f32) :
    KStage.tr256x1 w = Stage.tr256x1 w := rfl

theorem row_meanVec (z : Vec Ideal Cert.ReferenceIdeal.S50000x128 .f32) :
    Stage.row (Stage.meanVec z) = Stage.meanRow z := by
  funext j
  rfl

private theorem lit400000 : Ideal.ofBits .f32 0x48C35000#32 = ((400000 : ℝ) : EReal) := by
  simp [Ideal.ofBits, Ideal.ieee, -EReal.coe_mul]; norm_num

private theorem lit50000 : Ideal.ofBits .f32 0x47435000#32 = ((50000 : ℝ) : EReal) := by
  simp [Ideal.ofBits, Ideal.ieee, -EReal.coe_mul]; norm_num

private theorem succ_nsmul_bot (n : ℕ) : (n + 1) • (⊥ : EReal) = ⊥ := by
  rw [succ_nsmul, EReal.add_bot]

private theorem succ_nsmul_top (n : ℕ) : (n + 1) • (⊤ : EReal) = ⊤ := by
  induction n with
  | zero => simp
  | succ k ih => rw [succ_nsmul, ih, EReal.top_add_top]

private theorem div_eight_nsmul (S : EReal) :
    Ideal.div (8 • S) ((400000 : ℝ) : EReal) = Ideal.div S ((50000 : ℝ) : EReal) := by
  rw [Ideal.div_coe (by norm_num), Ideal.div_coe (by norm_num)]
  induction S using EReal.rec with
  | bot =>
    rw [succ_nsmul_bot 7, EReal.bot_mul_coe_of_pos (by norm_num), EReal.bot_mul_coe_of_pos (by norm_num)]
  | coe r =>
    rw [← EReal.coe_nsmul, ← EReal.coe_mul, ← EReal.coe_mul]
    congr 1
    simp only [nsmul_eq_mul, Nat.cast_ofNat]
    ring
  | top =>
    rw [succ_nsmul_top 7, EReal.top_mul_coe_of_pos (by norm_num), EReal.top_mul_coe_of_pos (by norm_num)]

private theorem sum_tiles {M : Type} [AddCommMonoid M] (f : Fin 50000 → M) :
    ∑ r : Fin 80, ∑ i : Fin 5000, f ⟨5000 * (r.val / 8) + i.val, by have := r.isLt; have := i.isLt; omega⟩
      = 8 • ∑ n : Fin 50000, f n := by
  have h1 : ∑ n : Fin 50000, f n
      = ∑ t : Fin 10, ∑ i : Fin 5000, f ⟨5000 * t.val + i.val, by have := t.isLt; have := i.isLt; omega⟩ := by
    refine (Equiv.sum_comp (finProdFinEquiv (m := 10) (n := 5000)) f).symm.trans ?_
    rw [Fintype.sum_prod_type]
    refine Finset.sum_congr rfl fun t _ => Finset.sum_congr rfl fun i _ => congrArg f (Fin.ext ?_)
    show i.val + 5000 * t.val = 5000 * t.val + i.val
    omega
  have h2 : ∀ g : Fin 10 → M, ∑ r : Fin 80, g ⟨r.val / 8, by have := r.isLt; omega⟩ = 8 • ∑ t, g t := by
    intro g
    refine (Equiv.sum_comp (finProdFinEquiv (m := 10) (n := 8))
      (fun r : Fin 80 => g ⟨r.val / 8, by have := r.isLt; omega⟩)).symm.trans ?_
    rw [Fintype.sum_prod_type, Finset.smul_sum]
    refine Finset.sum_congr rfl fun t _ => ?_
    have hk : ∀ k : Fin 8, g ⟨(finProdFinEquiv (m := 10) (n := 8) (t, k)).val / 8,
        by have := (finProdFinEquiv (m := 10) (n := 8) (t, k)).isLt; omega⟩ = g t := by
      intro k
      refine congrArg g (Fin.ext ?_)
      show (k.val + 8 * t.val) / 8 = t.val
      have := k.isLt; omega
    rw [Finset.sum_congr rfl fun k _ => hk k, Finset.sum_const, Finset.card_univ, Fintype.card_fin]
  rw [h1]
  exact h2 fun t => ∑ i : Fin 5000, f ⟨5000 * t.val + i.val, by have := t.isLt; have := i.isLt; omega⟩

private theorem row_apply {α : Type} (v : (⟨1, ![128]⟩ : Shape).Idx → α)
    (h : (⟨1, ![128]⟩ : Shape).BroadcastsInDim ⟨2, ![1, 128]⟩ (![1] : Fin 1 → Fin 2)) (u : Fin 1) (c : Fin 128) :
    broadcastInDim ⟨2, ![1, 128]⟩ (![1] : Fin 1 → Fin 2) h v (ix2 u c) = v (ix1 c) :=
  broadcastInDim_apply _ h v (ix2 u c) (ix1 c) fun a => match a with | ⟨0, _⟩ => rfl

private theorem colSum_apply (z : Vec Ideal Cert.ReferenceIdeal.S50000x128 .f32) (c : Fin 128) :
    Stage.colSum z (ix1 c) = 0 + ∑ n : Fin 50000, z (ix2 n c) := by
  have h : Shape.Reduces Cert.ReferenceIdeal.S50000x128 [0] Cert.ReferenceIdeal.S128 := by decide
  show Ideal.hostReduceAdd hR.reducesTo_S50000x128_S128_d0 z (Ideal.ofBits .f32 0x00000000#32) (ix1 c) = _
  rw [Ideal.hostReduceAdd_single _ h, Ideal.ofBits_zero_f32]
  exact congrArg (0 + ·) (Finset.sum_congr rfl fun n _ => congrArg z (by
    funext a; apply Fin.ext; match a with | ⟨0, _⟩ => rfl | ⟨1, _⟩ => rfl))

private theorem kSumRow_apply (ps : Vec Ideal Cert.KernelIdeal.S80x128 .f32) (u : Fin 1) (c : Fin 128) :
    KStage.kSumRow ps (ix2 u c) = 0 + ∑ r : Fin 80, ps (ix2 r c) := by
  have h : Shape.Reduces Cert.KernelIdeal.S80x128 [0] Cert.KernelIdeal.S128 := by decide
  refine (row_apply _ _ u c).trans ?_
  show Ideal.hostReduceAdd hK.reducesTo_S80x128_S128_d0 ps (Ideal.ofBits .f32 0x00000000#32) (ix1 c) = _
  rw [Ideal.hostReduceAdd_single _ h, Ideal.ofBits_zero_f32]
  exact congrArg (0 + ·) (Finset.sum_congr rfl fun n _ => congrArg ps (by
    funext a; apply Fin.ext; match a with | ⟨0, _⟩ => rfl | ⟨1, _⟩ => rfl))

private theorem meanRow_apply (z : Vec Ideal Cert.ReferenceIdeal.S50000x128 .f32) (u : Fin 1) (c : Fin 128) :
    Stage.meanRow z (ix2 u c) = Ideal.div (∑ n : Fin 50000, z (ix2 n c)) ((50000 : ℝ) : EReal) := by
  show Ideal.div (Stage.row (Stage.colSum z) (ix2 u c)) (Ideal.ofBits .f32 0x47435000#32) = _
  rw [show Stage.row (Stage.colSum z) (ix2 u c) = Stage.colSum z (ix1 c) from row_apply _ _ u c,
    colSum_apply, zero_add, lit50000]

private theorem kMeanRow_apply (ps : Vec Ideal Cert.KernelIdeal.S80x128 .f32) (u : Fin 1) (c : Fin 128) :
    KStage.kMeanRow ps (ix2 u c) = Ideal.div (∑ r : Fin 80, ps (ix2 r c)) ((400000 : ℝ) : EReal) := by
  show Ideal.div (KStage.kSumRow ps (ix2 u c)) (Ideal.ofBits .f32 0x48C35000#32) = _
  rw [kSumRow_apply, zero_add, lit400000]

theorem kMeanRow_tileSums (z : Vec Ideal Cert.ReferenceIdeal.S50000x128 .f32) :
    KStage.kMeanRow (Stage.tileSums z) = Stage.meanRow z := by
  funext j
  obtain ⟨u, c, rfl⟩ : ∃ u c, j = ix2 u c := ⟨j 0, j 1, eq_ix2 j⟩
  rw [kMeanRow_apply, meanRow_apply,
    show ∑ r : Fin 80, Stage.tileSums z (ix2 r c) = 8 • ∑ n : Fin 50000, z (ix2 n c) from
      sum_tiles fun n => z (ix2 n c)]
  exact div_eight_nsmul _

private theorem varCount_apply (i : Cert.ReferenceIdeal.S_.Idx) :
    Stage.varCount (F := Ideal) i = ((50000 : ℝ) : EReal) := by
  show Ideal.ofBits .f32 0x47435000#32 - (((0#32 : BitVec 32).toInt : ℝ) : EReal) = _
  rw [lit50000]
  simp

private theorem sqDev_nonneg (z : Vec Ideal Cert.ReferenceIdeal.S50000x128 .f32)
    (m : Vec Ideal Cert.ReferenceIdeal.S1x128 .f32) (i : Cert.ReferenceIdeal.S50000x128.Idx) :
    0 ≤ Stage.sqDev z m i := by
  show 0 ≤ (z i - Stage.rowsN m i) * (z i - Stage.rowsN m i)
  exact EReal.mul_nonneg_iff.mpr ((le_total 0 _).imp (fun h => ⟨h, h⟩) (fun h => ⟨h, h⟩))

private theorem varVec_apply (z : Vec Ideal Cert.ReferenceIdeal.S50000x128 .f32) (c : Fin 128) :
    Stage.varVec z (ix1 c)
      = Ideal.div (∑ n : Fin 50000, Stage.sqDev z (Stage.meanRow z) (ix2 n c)) ((50000 : ℝ) : EReal) := by
  show Scalar.select (Ideal.cmp .ogt (Stage.varCount (F := Ideal) _) (Ideal.ofBits .f32 0x00000000#32))
      (Ideal.div (Stage.colSum (Stage.sqDev z (Stage.meanRow z)) (ix1 c)) (Stage.varCount (F := Ideal) _)) _ = _
  rw [varCount_apply, Ideal.ofBits_zero_f32, colSum_apply, zero_add,
    show Ideal.cmp .ogt (((50000 : ℝ) : EReal)) 0 = 1#1 from by
      show BitVec.ofBool (decide ((0 : EReal) < ((50000 : ℝ) : EReal))) = 1#1
      rw [decide_eq_true (EReal.coe_pos.mpr (by norm_num))]; rfl,
    select_one]

theorem kVarRow_tileSums (z : Vec Ideal Cert.ReferenceIdeal.S50000x128 .f32) :
    KStage.kVarRow (Stage.tileSums (Stage.sqDev z (Stage.meanRow z))) = Stage.row (Stage.varVec z) := by
  funext j
  obtain ⟨u, c, rfl⟩ : ∃ u c, j = ix2 u c := ⟨j 0, j 1, eq_ix2 j⟩
  show max (KStage.kMeanRow (Stage.tileSums (Stage.sqDev z (Stage.meanRow z))) (ix2 u c))
      (Ideal.ofBits .f32 0x00000000#32) = _
  rw [kMeanRow_tileSums, meanRow_apply, Ideal.ofBits_zero_f32,
    show Stage.row (Stage.varVec z) (ix2 u c) = Stage.varVec z (ix1 c) from row_apply _ _ u c, varVec_apply]
  refine max_eq_left ?_
  rw [Ideal.div_coe (by norm_num)]
  exact EReal.mul_nonneg (Finset.sum_nonneg fun n _ => sqDev_nonneg z _ _) (EReal.coe_nonneg.mpr (by norm_num))

theorem invStdRow_row (v : Vec Ideal Cert.ReferenceIdeal.S128 .f32) :
    Stage.invStdRow (Stage.row v) = Stage.row (Stage.invStdVec v) := by
  funext j
  rfl

end Cert.Laws

end
-- ==== Proof.Bridge.lean ====
import proofs.«404850_j82815559401961_3_alg».proof.Proof.KFin
import proofs.«404850_j82815559401961_3_alg».proof.Proof.KFinA2
import proofs.«404850_j82815559401961_3_alg».proof.Proof.KFinB
import proofs.«404850_j82815559401961_3_alg».proof.Proof.RefFin
import proofs.«404850_j82815559401961_3_alg».proof.Proof.Laws

noncomputable section

namespace Cert.Bridge

open Idealize.ShloMosaic Idealize.ShloMosaic.TcCoe Idealize.SL.Sem Idealize.ShloMosaic.StableHlo
open Cert.KFin (KF)
open Cert.RFin (RF)

variable [hR : Cert.ReferenceIdeal.Facts]
variable (m : (ℓ : Loc Cert.KernelIdeal.nD Cert.KernelIdeal.τ Cert.KernelIdeal.sig) → Buf (Elt Ideal) ℓ) (ρ : Dev Cert.KernelIdeal.nD → PrngReg)
variable (c : Dev Cert.KernelIdeal.nD) (V : Valuation Cert.ReferenceIdeal.τ Cert.ReferenceIdeal.sig (Elt Ideal))

structure Agree : Prop where
  a0 : V (Proc.devRef .tc Cert.ReferenceIdeal.main_arg0) = m ((c : Thread Cert.KernelIdeal.nD Cert.KernelIdeal.τ).loc Cert.KernelIdeal.main_arg0)
  a1 : V (Proc.devRef .tc Cert.ReferenceIdeal.main_arg1) = m ((c : Thread Cert.KernelIdeal.nD Cert.KernelIdeal.τ).loc Cert.KernelIdeal.main_arg1)
  a2 : V (Proc.devRef .tc Cert.ReferenceIdeal.main_arg2) = m ((c : Thread Cert.KernelIdeal.nD Cert.KernelIdeal.τ).loc Cert.KernelIdeal.main_arg2)
  a3 : V (Proc.devRef .tc Cert.ReferenceIdeal.main_arg3) = m ((c : Thread Cert.KernelIdeal.nD Cert.KernelIdeal.τ).loc Cert.KernelIdeal.main_arg3)
  a4 : V (Proc.devRef .tc Cert.ReferenceIdeal.main_arg4) = m ((c : Thread Cert.KernelIdeal.nD Cert.KernelIdeal.τ).loc Cert.KernelIdeal.main_arg4)
  a5 : V (Proc.devRef .tc Cert.ReferenceIdeal.main_arg5) = m ((c : Thread Cert.KernelIdeal.nD Cert.KernelIdeal.τ).loc Cert.KernelIdeal.main_arg5)
  a6 : V (Proc.devRef .tc Cert.ReferenceIdeal.main_arg6) = m ((c : Thread Cert.KernelIdeal.nD Cert.KernelIdeal.τ).loc Cert.KernelIdeal.main_arg6)
  a7 : V (Proc.devRef .tc Cert.ReferenceIdeal.main_arg7) = m ((c : Thread Cert.KernelIdeal.nD Cert.KernelIdeal.τ).loc Cert.KernelIdeal.main_arg7)
  a8 : V (Proc.devRef .tc Cert.ReferenceIdeal.main_arg8) = m ((c : Thread Cert.KernelIdeal.nD Cert.KernelIdeal.τ).loc Cert.KernelIdeal.main_arg8)
  a9 : V (Proc.devRef .tc Cert.ReferenceIdeal.main_arg9) = m ((c : Thread Cert.KernelIdeal.nD Cert.KernelIdeal.τ).loc Cert.KernelIdeal.main_arg9)
  a10 : V (Proc.devRef .tc Cert.ReferenceIdeal.main_arg10) = m ((c : Thread Cert.KernelIdeal.nD Cert.KernelIdeal.τ).loc Cert.KernelIdeal.main_arg10)
  a11 : V (Proc.devRef .tc Cert.ReferenceIdeal.main_arg11) = m ((c : Thread Cert.KernelIdeal.nD Cert.KernelIdeal.τ).loc Cert.KernelIdeal.main_arg11)
  a12 : V (Proc.devRef .tc Cert.ReferenceIdeal.main_arg12) = m ((c : Thread Cert.KernelIdeal.nD Cert.KernelIdeal.τ).loc Cert.KernelIdeal.main_arg12)
  a13 : V (Proc.devRef .tc Cert.ReferenceIdeal.main_arg13) = m ((c : Thread Cert.KernelIdeal.nD Cert.KernelIdeal.τ).loc Cert.KernelIdeal.main_arg13)
  a14 : V (Proc.devRef .tc Cert.ReferenceIdeal.main_arg14) = m ((c : Thread Cert.KernelIdeal.nD Cert.KernelIdeal.τ).loc Cert.KernelIdeal.main_arg14)
  a15 : V (Proc.devRef .tc Cert.ReferenceIdeal.main_arg15) = m ((c : Thread Cert.KernelIdeal.nD Cert.KernelIdeal.τ).loc Cert.KernelIdeal.main_arg15)
  a16 : V (Proc.devRef .tc Cert.ReferenceIdeal.main_arg16) = m ((c : Thread Cert.KernelIdeal.nD Cert.KernelIdeal.τ).loc Cert.KernelIdeal.main_arg16)
  a17 : V (Proc.devRef .tc Cert.ReferenceIdeal.main_arg17) = m ((c : Thread Cert.KernelIdeal.nD Cert.KernelIdeal.τ).loc Cert.KernelIdeal.main_arg17)
  a18 : V (Proc.devRef .tc Cert.ReferenceIdeal.main_arg18) = m ((c : Thread Cert.KernelIdeal.nD Cert.KernelIdeal.τ).loc Cert.KernelIdeal.main_arg18)
  a19 : V (Proc.devRef .tc Cert.ReferenceIdeal.main_arg19) = m ((c : Thread Cert.KernelIdeal.nD Cert.KernelIdeal.τ).loc Cert.KernelIdeal.main_arg19)
  a20 : V (Proc.devRef .tc Cert.ReferenceIdeal.main_arg20) = m ((c : Thread Cert.KernelIdeal.nD Cert.KernelIdeal.τ).loc Cert.KernelIdeal.main_arg20)
  a21 : V (Proc.devRef .tc Cert.ReferenceIdeal.main_arg21) = m ((c : Thread Cert.KernelIdeal.nD Cert.KernelIdeal.τ).loc Cert.KernelIdeal.main_arg21)
  a22 : V (Proc.devRef .tc Cert.ReferenceIdeal.main_arg22) = m ((c : Thread Cert.KernelIdeal.nD Cert.KernelIdeal.τ).loc Cert.KernelIdeal.main_arg22)
  a23 : V (Proc.devRef .tc Cert.ReferenceIdeal.main_arg23) = m ((c : Thread Cert.KernelIdeal.nD Cert.KernelIdeal.τ).loc Cert.KernelIdeal.main_arg23)
  a24 : V (Proc.devRef .tc Cert.ReferenceIdeal.main_arg24) = m ((c : Thread Cert.KernelIdeal.nD Cert.KernelIdeal.τ).loc Cert.KernelIdeal.main_arg24)
  a25 : V (Proc.devRef .tc Cert.ReferenceIdeal.main_arg25) = m ((c : Thread Cert.KernelIdeal.nD Cert.KernelIdeal.τ).loc Cert.KernelIdeal.main_arg25)
  a26 : V (Proc.devRef .tc Cert.ReferenceIdeal.main_arg26) = m ((c : Thread Cert.KernelIdeal.nD Cert.KernelIdeal.τ).loc Cert.KernelIdeal.main_arg26)
  a27 : V (Proc.devRef .tc Cert.ReferenceIdeal.main_arg27) = m ((c : Thread Cert.KernelIdeal.nD Cert.KernelIdeal.τ).loc Cert.KernelIdeal.main_arg27)
  a28 : V (Proc.devRef .tc Cert.ReferenceIdeal.main_arg28) = m ((c : Thread Cert.KernelIdeal.nD Cert.KernelIdeal.τ).loc Cert.KernelIdeal.main_arg28)
  a29 : V (Proc.devRef .tc Cert.ReferenceIdeal.main_arg29) = m ((c : Thread Cert.KernelIdeal.nD Cert.KernelIdeal.τ).loc Cert.KernelIdeal.main_arg29)

variable (h : Agree m c V)
include h

theorem src :
    (KF m ρ c (Proc.devRef .tc Cert.KernelIdeal.main_v1)) = (RF V (Proc.devRef .tc Cert.ReferenceIdeal.main_v1)) := by
  rw [Cert.KFin.src, Cert.RFin.src, h.a1]

theorem dst :
    (KF m ρ c (Proc.devRef .tc Cert.KernelIdeal.main_v3)) = (RF V (Proc.devRef .tc Cert.ReferenceIdeal.main_v3)) := by
  rw [Cert.KFin.dst, Cert.RFin.dst, h.a1]

theorem e1 :
    (KF m ρ c (Proc.devRef .tc Cert.KernelIdeal.main_v6)) = (RF V (Proc.devRef .tc Cert.ReferenceIdeal.main_v8)) := by
  rw [Cert.KFin.e1, Cert.RFin.e1, Cert.KFin.lwT1, Cert.KFin.lb1, Cert.Laws.tr16_eq, Cert.Laws.rowK_eq, h.a2, h.a4, h.a5]

theorem agg1 :
    (KF m ρ c (Proc.devRef .tc Cert.KernelIdeal.main_v18)) = (RF V (Proc.devRef .tc Cert.ReferenceIdeal.main_v20)) := by
  rw [Cert.KFin.agg1, Cert.RFin.agg1, src m ρ c V h, dst m ρ c V h, e1 m ρ c V h, h.a0]

theorem z1 :
    (KF m ρ c (Proc.devRef .tc Cert.KernelIdeal.main_v25_0)) = (RF V (Proc.devRef .tc Cert.ReferenceIdeal.main_v29)) := by
  rw [Cert.KFin.z1, Cert.RFin.z1, agg1 m ρ c V h, Cert.KFin.sx1, Cert.KFin.W1T1, Cert.KFin.b11, Cert.Laws.tr128_eq, Cert.Laws.rowK_eq, h.a6, h.a0, h.a7, h.a8]

theorem mean1 :
    (KF m ρ c (Proc.devRef .tc Cert.KernelIdeal.main_v29)) = Stage.row (RF V (Proc.devRef .tc Cert.ReferenceIdeal.main_v32)) := by
  rw [Cert.KFin.mean1, Cert.KFin.ps1, ← Cert.KFin.z1, z1 m ρ c V h, Cert.Laws.kMeanRow_tileSums, Cert.RFin.mean1, Cert.Laws.row_meanVec]

theorem var1 :
    (KF m ρ c (Proc.devRef .tc Cert.KernelIdeal.main_v36)) = Stage.row (RF V (Proc.devRef .tc Cert.ReferenceIdeal.main_v33)) := by
  rw [Cert.KFin.var1, Cert.KFin.pq1, mean1 m ρ c V h, z1 m ρ c V h, Cert.RFin.mean1, Cert.Laws.row_meanVec, Cert.Laws.kVarRow_tileSums, Cert.RFin.var1]

theorem h1 :
    (KF m ρ c (Proc.devRef .tc Cert.KernelIdeal.main_v40_0)) = (RF V (Proc.devRef .tc Cert.ReferenceIdeal.main_v55)) := by
  rw [Cert.KFin.h1, Cert.RFin.h1, z1 m ρ c V h, mean1 m ρ c V h, var1 m ρ c V h, Cert.Laws.invStdRow_row, Cert.KFin.g11, Cert.KFin.be11, Cert.KFin.W2T1, Cert.KFin.b12, Cert.Laws.tr128_eq, Cert.Laws.rowK_eq, Cert.Laws.rowK_eq, Cert.Laws.rowK_eq, h.a9, h.a10, h.a11, h.a12]

theorem mean1b :
    (KF m ρ c (Proc.devRef .tc Cert.KernelIdeal.main_v44)) = Stage.row (RF V (Proc.devRef .tc Cert.ReferenceIdeal.main_v58)) := by
  rw [Cert.KFin.mean1b, Cert.KFin.hps1, ← Cert.KFin.h1, h1 m ρ c V h, Cert.Laws.kMeanRow_tileSums, Cert.RFin.mean1b, Cert.Laws.row_meanVec]

theorem var1b :
    (KF m ρ c (Proc.devRef .tc Cert.KernelIdeal.main_v51)) = Stage.row (RF V (Proc.devRef .tc Cert.ReferenceIdeal.main_v59)) := by
  rw [Cert.KFin.var1b, Cert.KFin.pq1b, mean1b m ρ c V h, h1 m ρ c V h, Cert.RFin.mean1b, Cert.Laws.row_meanVec, Cert.Laws.kVarRow_tileSums, Cert.RFin.var1b]

theorem x1 :
    (KF m ρ c (Proc.devRef .tc Cert.KernelIdeal.main_v54)) = (RF V (Proc.devRef .tc Cert.ReferenceIdeal.main_v74)) := by
  rw [Cert.KFin.x1, Cert.RFin.x1, h1 m ρ c V h, mean1b m ρ c V h, var1b m ρ c V h, Cert.Laws.invStdRow_row, Cert.KFin.g12, Cert.KFin.be12, Cert.Laws.rowK_eq, Cert.Laws.rowK_eq, h.a13, h.a14]

theorem e2 :
    (KF m ρ c (Proc.devRef .tc Cert.KernelIdeal.main_v57)) = (RF V (Proc.devRef .tc Cert.ReferenceIdeal.main_v79)) := by
  rw [Cert.KFin.e2, Cert.RFin.e2, Cert.KFin.lwT2, Cert.KFin.lb2, Cert.Laws.tr16_eq, Cert.Laws.rowK_eq, h.a2, h.a15, h.a16]

theorem agg2 :
    (KF m ρ c (Proc.devRef .tc Cert.KernelIdeal.main_v69)) = (RF V (Proc.devRef .tc Cert.ReferenceIdeal.main_v91)) := by
  rw [Cert.KFin.agg2, Cert.RFin.agg2, src m ρ c V h, dst m ρ c V h, e2 m ρ c V h, x1 m ρ c V h]

theorem z2 :
    (KF m ρ c (Proc.devRef .tc Cert.KernelIdeal.main_v76_0)) = (RF V (Proc.devRef .tc Cert.ReferenceIdeal.main_v100)) := by
  rw [Cert.KFin.z2, Cert.RFin.z2, agg2 m ρ c V h, Cert.KFin.sx2, Cert.KFin.W1T2, Cert.KFin.b21, Cert.Laws.tr128_eq, Cert.Laws.rowK_eq, h.a17, x1 m ρ c V h, h.a18, h.a19]

theorem mean2 :
    (KF m ρ c (Proc.devRef .tc Cert.KernelIdeal.main_v80)) = Stage.row (RF V (Proc.devRef .tc Cert.ReferenceIdeal.main_v103)) := by
  rw [Cert.KFin.mean2, Cert.KFin.ps2, ← Cert.KFin.z2, z2 m ρ c V h, Cert.Laws.kMeanRow_tileSums, Cert.RFin.mean2, Cert.Laws.row_meanVec]

theorem var2 :
    (KF m ρ c (Proc.devRef .tc Cert.KernelIdeal.main_v87)) = Stage.row (RF V (Proc.devRef .tc Cert.ReferenceIdeal.main_v104)) := by
  rw [Cert.KFin.var2, Cert.KFin.pq2, mean2 m ρ c V h, z2 m ρ c V h, Cert.RFin.mean2, Cert.Laws.row_meanVec, Cert.Laws.kVarRow_tileSums, Cert.RFin.var2]

theorem h2 :
    (KF m ρ c (Proc.devRef .tc Cert.KernelIdeal.main_v91_0)) = (RF V (Proc.devRef .tc Cert.ReferenceIdeal.main_v126)) := by
  rw [Cert.KFin.h2, Cert.RFin.h2, z2 m ρ c V h, mean2 m ρ c V h, var2 m ρ c V h, Cert.Laws.invStdRow_row, Cert.KFin.g21, Cert.KFin.be21, Cert.KFin.W2T2, Cert.KFin.b22, Cert.Laws.tr128_eq, Cert.Laws.rowK_eq, Cert.Laws.rowK_eq, Cert.Laws.rowK_eq, h.a20, h.a21, h.a22, h.a23]

theorem mean2b :
    (KF m ρ c (Proc.devRef .tc Cert.KernelIdeal.main_v95)) = Stage.row (RF V (Proc.devRef .tc Cert.ReferenceIdeal.main_v129)) := by
  rw [Cert.KFin.mean2b, Cert.KFin.hps2, ← Cert.KFin.h2, h2 m ρ c V h, Cert.Laws.kMeanRow_tileSums, Cert.RFin.mean2b, Cert.Laws.row_meanVec]

theorem var2b :
    (KF m ρ c (Proc.devRef .tc Cert.KernelIdeal.main_v102)) = Stage.row (RF V (Proc.devRef .tc Cert.ReferenceIdeal.main_v130)) := by
  rw [Cert.KFin.var2b, Cert.KFin.pq2b, mean2b m ρ c V h, h2 m ρ c V h, Cert.RFin.mean2b, Cert.Laws.row_meanVec, Cert.Laws.kVarRow_tileSums, Cert.RFin.var2b]

theorem x2 :
    (KF m ρ c (Proc.devRef .tc Cert.KernelIdeal.main_v105)) = (RF V (Proc.devRef .tc Cert.ReferenceIdeal.main_v145)) := by
  rw [Cert.KFin.x2, Cert.RFin.x2, h2 m ρ c V h, mean2b m ρ c V h, var2b m ρ c V h, Cert.Laws.invStdRow_row, Cert.KFin.g22, Cert.KFin.be22, Cert.Laws.rowK_eq, Cert.Laws.rowK_eq, h.a24, h.a25]

theorem pooled :
    (KF m ρ c (Proc.devRef .tc Cert.KernelIdeal.main_v112)) = (RF V (Proc.devRef .tc Cert.ReferenceIdeal.main_v152)) := by
  rw [Cert.KFin.pooled, Cert.RFin.pooled, x1 m ρ c V h, x2 m ρ c V h, h.a3]

theorem out :
    (KF m ρ c (Proc.devRef .tc Cert.KernelIdeal.main_v117)) = (RF V (Proc.devRef .tc Cert.ReferenceIdeal.main_v169)) := by
  rw [Cert.KFin.out, Cert.RFin.out, pooled m ρ c V h, Cert.KFin.hW1T, Cert.KFin.hW2T, Cert.KFin.hb1, Cert.KFin.hb2, Cert.Laws.tr256_eq, Cert.Laws.tr256x1_eq, Cert.Laws.rowK256_eq, Cert.Laws.rowK1_eq, h.a26, h.a27, h.a28, h.a29]

end Cert.Bridge

end
-- ==== Proof.lean ====
import proofs.«404850_j82815559401961_3_alg».proof.Defs
import proofs.«404850_j82815559401961_3_alg».proof.Proof.Gen.Kernel
import proofs.«404850_j82815559401961_3_alg».proof.Proof.Gen.Kernel.Frame
import proofs.«404850_j82815559401961_3_alg».proof.Proof.Gen.KernelIdeal
import proofs.«404850_j82815559401961_3_alg».proof.Proof.Gen.KernelIdeal.Frame
import proofs.«404850_j82815559401961_3_alg».proof.Proof.Gen.ReferenceIdeal
import proofs.«404850_j82815559401961_3_alg».proof.Proof.Gen.Pre_finite_inputs
import proofs.«404850_j82815559401961_3_alg».proof.Proof.KRun
import proofs.«404850_j82815559401961_3_alg».proof.Proof.RefRun
import proofs.«404850_j82815559401961_3_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run (Cert.ReferenceIdeal.defs (F := Ideal)) _ _).mono (fun r h c =>
    by
      repeat' apply And.intro
      all_goals exact (h c _).trans (Cert.RFin.arg _ _))
    (Cert.RRun.run (F := Ideal) m ρ)

theorem preserves : Cert.preserves_Kernel_KernelIdeal := trivial

theorem algebraic : Cert.algebraic_KernelIdeal_ReferenceIdeal := by
  intro m ρ m' ρ' _ hagree
  refine ⟨fun c => Cert.KFin.KF m ρ c (Proc.devRef .tc Cert.KernelIdeal.main_v117), Cert.KRun.run (F := Ideal) m ρ, ?_⟩
  refine (θ_run (Cert.ReferenceIdeal.defs (F := Ideal)) _ _).mono (fun r h c => ?_) (Cert.RRun.run (F := Ideal) m' ρ')
  obtain ⟨a0, a1, a2, a3, a4, a5, a6, a7, a8, a9, a10, a11, a12, a13, a14, a15, a16, a17, a18, a19, a20, a21, a22, a23, a24, a25, a26, a27, a28, a29⟩ := hagree c
  have hA : Cert.Bridge.Agree m c (launchContents m' c) := ⟨a0, a1, a2, a3, a4, a5, a6, a7, a8, a9, a10, a11, a12, a13, a14, a15, a16, a17, a18, a19, a20, a21, a22, a23, a24, a25, a26, a27, a28, a29⟩
  exact ⟨(h c Cert.ReferenceIdeal.main_v169).trans (Cert.Bridge.out m ρ c (launchContents m' c) hA).symm,
    by
      repeat' apply And.intro
      all_goals exact (h c _).trans (Cert.RFin.arg _ _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
